-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x128 .f32) (main_arg1 : FVec F S8192x8192 .f32) (main_arg2 : FVec F S128x128 .f32) (main_arg3 : FVec F S128 .f32) (main_arg4 : FVec F S128x128 .f32) (main_arg5 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1024x1024 : Shape := ⟨2, ![1024, 1024]⟩
abbrev S1024x128 : Shape := ⟨2, ![1024, 128]⟩
abbrev S1024x1 : Shape := ⟨2, ![1024, 1]⟩
abbrev S1024 : Shape := ⟨1, ![1024]⟩
abbrev S1x128 : Shape := ⟨2, ![1, 128]⟩
abbrev S2048x128 : Shape := ⟨2, ![2048, 128]⟩

abbrev nBuf : Space → Nat
  | .hbm => 17
  | .vmem => 37
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8192x128, .f32⟩
  | .hbm, ⟨7, _⟩ => ⟨S8192x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S128x128, .f32⟩
  | .hbm, ⟨16, _⟩ => ⟨S128x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x1024, .f32⟩
  | .local _ .vmem, ⟨23, _⟩ => ⟨S1024x1024, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S128x128, .f32⟩
  | .local _ .vmem, ⟨36, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  transposes_S128x128_S128x128_1_0 : S128x128.Transposes [1, 0] S128x128
  shapeCasts_S128_S1x128 : S128.ShapeCasts S1x128
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S2048x128_S2048x128_S128x128_0_0_1_1_n_n_wf : DotDims.WF S2048x128 S2048x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x128.size a ≤ S8192x128.size a
  hwx1_8 : ∀ i : grid1.Coords, EltTy.bits .f32 = 32 ∨ (Rect.block (s := S8192x128) S1024x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x128.size a ≤ S8192x128.size a
  hwx1_9 : ∀ i : grid1.Coords, EltTy.bits .f32 = 32 ∨ (Rect.block (s := S8192x128) S1024x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .f32 = 32 ∨ (Rect.block (s := S8192x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S8192x128.size a
  hwx3_2 : ∀ i : grid3.Coords, EltTy.bits .f32 = 32 ∨ (Rect.block (s := S8192x128) S2048x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6_0) S1024x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v6_1) S1024x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v6_1) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6_0) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v8_0) S128x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v8_1) S128x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .i1⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x128, .f32⟩
  | .hbm, ⟨31, _⟩ => ⟨S128x128, .f32⟩
  | .hbm, ⟨32, _⟩ => ⟨S8192x128, .f32⟩
  | .hbm, ⟨33, _⟩ => ⟨S1x128, .f32⟩
  | .hbm, ⟨34, _⟩ => ⟨S8192x128, .f32⟩
  | .hbm, ⟨35, _⟩ => ⟨S8192x128, .f32⟩
  | .hbm, ⟨36, _⟩ => ⟨S128x128, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x128, .f32⟩
  | .hbm, ⟨54, _⟩ => ⟨S8192x128, .f32⟩
  | .hbm, ⟨55, _⟩ => ⟨S128x8192, .f32⟩
  | .hbm, ⟨56, _⟩ => ⟨S128x128, .f32⟩
  | .hbm, ⟨57, _⟩ => ⟨S128x8192, .f32⟩
  | .hbm, ⟨58, _⟩ => ⟨S8192x128, .f32⟩
  | .hbm, ⟨59, _⟩ => ⟨S128x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  bcast_S8192x1_S8192x128_0_1 : S8192x1.BroadcastsInDim S8192x128 (![0, 1] : Fin 2 → Fin S8192x128.rank)
  transposes_S8192x128_S128x8192_1_0 : S8192x128.Transposes [1, 0] S128x8192
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S128x8192_S8192x128_S128x128_1_0_0_1_n_n_wf : DotDims.WF S128x8192 S8192x128 S128x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf

class Facts : Prop extends Facts₀ where

variable [Facts]
-- ==== Proof.K.Common.lean ====
import proofs.«114212_j498216206442_1_alg».proof.Proof.Gen.Kernel.Launch
import proofs.«114212_j498216206442_1_alg».proof.Proof.Gen.Kernel.Skeleton
import proofs.«114212_j498216206442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

-- A whole memref owned at `x` is its buffer's points-to at the one contents that read back as `x`.
theorem owns_unread {s : Shape} {e : EltTy} {m : Memref sig .tc .vmem s e} (h : m.IsWhole) (c : Dev nD) (x : Vec F s e) :
    (owns c.tc m fullShare x : sProp 𝕄) = (m.view.loc c.tc ↦[m.view.set]{fullShare} h.unread x) := by
  unfold owns
  refine BI.equiv_iff.mp ⟨?_, ?_⟩
  · show (_ : sProp 𝕄) ⊢ _
    iintro ⟨%f, %hf, H⟩; obtain rfl := h.eq_unread hf; iexact H
  · show (_ : sProp 𝕄) ⊢ _
    iintro H; iexists _; isplitr; · ipureintro; exact h.read_unread _
    iexact H

-- Pieces that cover a shape fix what is read back, whatever was there before.
theorem owns_of_cover {c : Dev nD} {s : Shape} {M : Memref sig .tc .vmem s .f32} {g} {L : List (View.Piece (Elt F) s .f32)} (v : View sig .tc .vmem s .f32)
    (h : ∀ y, ∃ pc ∈ L, y ∈ pc.1.set) :
    (M.view.loc (c : Thread nD τ) ↦[M.view.set]{fullShare} M.view.writes (Elt F) g L : sProp 𝕄) ⊢ owns (c : Thread nD τ) M fullShare (v.read (Elt F) (v.writes (Elt F) v.junk L)) := by
  unfold owns; iintro H; iexists M.view.writes (Elt F) g L; isplitr
  · ipureintro; exact View.read_writes_of_cover _ _ _ _ _ h
  · iexact H

end Cert.Kernel.Hand
-- ==== Proof.K.R0Runs.lean ====
import proofs.«114212_j498216206442_1_alg».proof.Proof.K.Common

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

abbrev atRowStart0 (i : grid0.Coords) : Prop := (Scalar.cmpi .ne (Scalar.extui (Scalar.cmpi .eq (BitVec.ofNat 32 (i 1).val) 0#32)) 0#32) = 1#1

theorem atRowStart0_iff : ∀ t : Fin cfg0.N, atRowStart0 (grid0.coords t) ↔ t.val % 8 = 0 := by decide +kernel

abbrev atRowEnd0 (i : grid0.Coords) : Prop := k0_cond2 i = 1#1

theorem atRowEnd0_iff : ∀ t : Fin cfg0.N, atRowEnd0 (grid0.coords t) ↔ t.val % 8 = 7 := by decide +kernel

theorem live0_in : ∀ t : Fin cfg0.N, cfg0.idle 0 (grid0.coords t) = false := by decide +kernel

theorem idle0_out_A : ∀ t : Fin cfg0.N, atRowStart0 (grid0.coords t) → ¬atRowEnd0 (grid0.coords t) → cfg0.idle 1 (grid0.coords t) = true := by decide +kernel
theorem noFlush0_out_A : ∀ t : Fin cfg0.N, atRowStart0 (grid0.coords t) → ¬atRowEnd0 (grid0.coords t) → (cfg0.win 1).flush t = false := by decide +kernel

theorem idle0_out_B : ∀ t : Fin cfg0.N, ¬atRowStart0 (grid0.coords t) → ¬atRowEnd0 (grid0.coords t) → cfg0.idle 1 (grid0.coords t) = true := by decide +kernel
theorem noFlush0_out_B : ∀ t : Fin cfg0.N, ¬atRowStart0 (grid0.coords t) → ¬atRowEnd0 (grid0.coords t) → (cfg0.win 1).flush t = false := by decide +kernel

theorem live0_out_C : ∀ t : Fin cfg0.N, ¬atRowStart0 (grid0.coords t) → atRowEnd0 (grid0.coords t) → cfg0.idle 1 (grid0.coords t) = false := by decide +kernel

abbrev VO0_1 : View sig .tc .vmem S1024x128 .f32 := (Memref.whole cc0_stg1_0 : Memref sig .tc .vmem S1024x128 .f32).view

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)

abbrev scM0_0 : Memref sig .tc .vmem S1024x1 .f32 := Memref.whole cc0_scratch0

abbrev VS0_0 : View sig .tc .vmem S1024x1 .f32 := scM0_0.view

theorem PhiA0_eq (c : Dev nD) :
    (Pipeline.ΦA spec0 c : sProp 𝕄)
      = iprop(iprop(iprop((∃ d, owns c.tc scM0_0 fullShare d))
          ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand
-- ==== Proof.K.R0RunA.lean ====
import proofs.«114212_j498216206442_1_alg».proof.Proof.K.R0Runs

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (hc0 : atRowStart0 i) (hc1 : ¬atRowEnd0 i)
    (x0 : Vec F S1024x1024 .f32) :
    Σ' (L1 : List (View.Piece (Elt F) S1024x128 .f32)), { LS0 : List (View.Piece (Elt F) S1024x1 .f32) //
      ∀ (xi1 : Vec F S1024x128 .f32) (E : Set ℕ) (K : PUnit → sProp 𝕄),
        iprop(owns c.tc arg2 fullShare x0 ∗ owns c.tc arg3 fullShare xi1 ∗ (∃ d, owns c.tc arg4 fullShare d)
            ∗ (iprop(owns c.tc arg2 fullShare x0 ∗ owns c.tc arg3 fullShare xi1 ∗ (∃ f, arg4.view.loc c.tc ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton, owns_unread harg2, owns_unread harg3]; unfold cc0__deg_kernel_skel
    unfold owns
    iintro ⟨H0, H1, ⟨%ds0, %fs0, -, HS0⟩, Hk⟩
    sl_exec (disch := first | exact hc0 | exact hc1)
    sl_step
    iapply Hk
    iframe
    iexists _; iexact HS0

end Cert.Kernel.Hand
-- ==== Proof.K.R0RunB.lean ====
import proofs.«114212_j498216206442_1_alg».proof.Proof.K.R0RunA

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (hc0 : ¬atRowStart0 i) (hc1 : ¬atRowEnd0 i)
    (x0 : Vec F S1024x1024 .f32) (xs0 : Vec F S1024x1 .f32) :
    Σ' (L1 : List (View.Piece (Elt F) S1024x128 .f32)), { LS0 : List (View.Piece (Elt F) S1024x1 .f32) //
      ∀ (xi1 : Vec F S1024x128 .f32) (E : Set ℕ) (K : PUnit → sProp 𝕄),
        iprop(owns c.tc arg2 fullShare x0 ∗ owns c.tc arg3 fullShare xi1 ∗ owns c.tc arg4 fullShare xs0
            ∗ (iprop(owns c.tc arg2 fullShare x0 ∗ owns c.tc arg3 fullShare xi1 ∗ (∃ f, arg4.view.loc c.tc ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton, owns_unread harg2, owns_unread harg3, owns_unread harg4]; unfold cc0__deg_kernel_skel
    iintro ⟨H0, H1, HS0, Hk⟩
    sl_exec (disch := first | exact hc0 | exact hc1)
    sl_step
    iapply Hk
    iframe
    iexists _; iexact HS0

end Cert.Kernel.Hand
-- ==== Proof.K.R0RunC.lean ====
import proofs.«114212_j498216206442_1_alg».proof.Proof.K.R0RunB

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (hc0 : ¬atRowStart0 i) (hc1 : atRowEnd0 i)
    (x0 : Vec F S1024x1024 .f32) (xs0 : Vec F S1024x1 .f32) :
    Σ' (L1 : List (View.Piece (Elt F) S1024x128 .f32)), { LS0 : List (View.Piece (Elt F) S1024x1 .f32) //
      ∀ (E : Set ℕ) (K : PUnit → sProp 𝕄),
        iprop(owns c.tc arg2 fullShare x0 ∗ (∃ d, owns c.tc arg3 fullShare d) ∗ owns c.tc arg4 fullShare xs0
            ∗ (iprop(owns c.tc arg2 fullShare x0 ∗ (∃ f, arg3.view.loc c.tc ↦[arg3.view.set]{fullShare} arg3.view.writes (Elt F) f L1) ∗ (∃ f, arg4.view.loc c.tc ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton, owns_unread harg2, owns_unread harg4]; unfold cc0__deg_kernel_skel
    unfold owns
    iintro ⟨H0, ⟨%d1, %f1, -, H1⟩, HS0, Hk⟩
    sl_exec (disch := first | exact hc0 | exact hc1)
    sl_step
    iapply Hk
    iframe
    isplitl [H1]; · iexists _; iexact H1
    iexists _; iexact HS0

end Cert.Kernel.Hand
-- ==== Proof.K.R0Dat.lean ====
import proofs.«114212_j498216206442_1_alg».proof.Proof.K.R0RunC

noncomputable section

namespace Cert.Kernel.Hand

open Cert.Kernel Cert.Kernel.Gen
open Idealize ShloMosaic ShloMosaic.TcCoe ShloMosaic.Tactic SL SL.RA SL.BI SL.BI.BIBase SL.BI.Laws SL.ProofMode SL.Sem
open ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole)

section
variable (hc0 : atRowStart0 i) (hc1 : ¬atRowEnd0 i) (x0 : Vec F S1024x1024 .f32)

def out0_A_1 : Vec F S1024x128 .f32 :=
  VO0_1.read (Elt F) (VO0_1.writes (Elt F) VO0_1.junk (kernelRun0_A c i arg2 harg2 arg3 harg3 arg4 harg4 hc0 hc1 x0).1)

theorem scover0_A_0 (y : S1024x1.Idx) : ∃ pc ∈ (kernelRun0_A c i arg2 harg2 arg3 harg3 arg4 harg4 hc0 hc1 x0).2.1, y ∈ pc.1.set :=
  View.cover_of_tiledL _ S1024x1.size (by sl_kernel_rfl) y

def sout0_A_0 : Vec F S1024x1 .f32 :=
  VS0_0.read (Elt F) (VS0_0.writes (Elt F) VS0_0.junk (kernelRun0_A c i arg2 harg2 arg3 harg3 arg4 harg4 hc0 hc1 x0).2.1)

end

variable (hc0 : ¬atRowStart0 i)

section
variable (hc1 : ¬atRowEnd0 i) (x0 : Vec F S1024x1024 .f32) (xs0 : Vec F S1024x1 .f32)

def out0_B_1 : Vec F S1024x128 .f32 :=
  VO0_1.read (Elt F) (VO0_1.writes (Elt F) VO0_1.junk (kernelRun0_B c i arg2 harg2 arg3 harg3 arg4 harg4 hc0 hc1 x0 xs0).1)

theorem scover0_B_0 (y : S1024x1.Idx) : ∃ pc ∈ (kernelRun0_B c i arg2 harg2 arg3 harg3 arg4 harg4 hc0 hc1 x0 xs0).2.1, y ∈ pc.1.set :=
  View.cover_of_tiledL _ S1024x1.size (by sl_kernel_rfl) y

def sout0_B_0 : Vec F S1024x1 .f32 :=
  VS0_0.read (Elt F) (VS0_0.writes (Elt F) VS0_0.junk (kernelRun0_B c i arg2 harg2 arg3 harg3 arg4 harg4 hc0 hc1 x0 xs0).2.1)

end

variable (hc1 : atRowEnd0 i) (x0 : Vec F S1024x1024 .f32) (xs0 : Vec F S1024x1 .f32)

theorem cover0_C_1 (y : S1024x128.Idx) : ∃ pc ∈ (kernelRun0_C c i arg2 harg2 arg3 harg3 arg4 harg4 hc0 hc1 x0 xs0).1, y ∈ pc.1.set :=
  View.cover_of_tiledL _ S1024x128.size (by sl_kernel_rfl) y

def out0_C_1 : Vec F S1024x128 .f32 :=
  VO0_1.read (Elt F) (VO0_1.writes (Elt F) VO0_1.junk (kernelRun0_C c i arg2 harg2 arg3 harg3 arg4 harg4 hc0 hc1 x0 xs0).1)

theorem scover0_C_0 (y : S1024x1.Idx) : ∃ pc ∈ (kernelRun0_C c i arg2 harg2 arg3 harg3 arg4 harg4 hc0 hc1 x0 xs0).2.1, y ∈ pc.1.set :=
  View.cover_of_tiledL _ S1024x1.size (by sl_kernel_rfl) y

def sout0_C_0 : Vec F S1024x1 .f32 :=
  VS0_0.read (Elt F) (VS0_0.writes (Elt F) VS0_0.junk (kernelRun0_C c i arg2 harg2 arg3 harg3 arg4 harg4 hc0 hc1 x0 xs0).2.1)

end

def ptA0 (c : Dev nD) (t : Fin cfg0.N) (h0 : t.val % 8 = 0) (h1 : ¬t.val % 8 = 7) : Vec F S1024x128 .f32 × Vec F S1024x1 .f32 :=
  (out0_A_1 c (grid0.coords t) (ms0_0 t) (hs0_0 t) (ms0_1 t) (hs0_1 t) scM0_0 (Memref.isWhole_whole _) ((atRowStart0_iff t).mpr h0) (fun h => h1 ((atRowEnd0_iff t).mp h)) (iblk0 V c 0 t),
   sout0_A_0 c (grid0.coords t) (ms0_0 t) (hs0_0 t) (ms0_1 t) (hs0_1 t) scM0_0 (Memref.isWhole_whole _) ((atRowStart0_iff t).mpr h0) (fun h => h1 ((atRowEnd0_iff t).mp h)) (iblk0 V c 0 t))

def ptB0 (c : Dev nD) (t : Fin cfg0.N) (h0 : ¬t.val % 8 = 0) (h1 : ¬t.val % 8 = 7) (xs : Vec F S1024x1 .f32) : Vec F S1024x128 .f32 × Vec F S1024x1 .f32 :=
  (out0_B_1 c (grid0.coords t) (ms0_0 t) (hs0_0 t) (ms0_1 t) (hs0_1 t) scM0_0 (Memref.isWhole_whole _) (fun h => h0 ((atRowStart0_iff t).mp h)) (fun h => h1 ((atRowEnd0_iff t).mp h)) (iblk0 V c 0 t) xs,
   sout0_B_0 c (grid0.coords t) (ms0_0 t) (hs0_0 t) (ms0_1 t) (hs0_1 t) scM0_0 (Memref.isWhole_whole _) (fun h => h0 ((atRowStart0_iff t).mp h)) (fun h => h1 ((atRowEnd0_iff t).mp h)) (iblk0 V c 0 t) xs)

def ptC0 (c : Dev nD) (t : Fin cfg0.N) (h0 : ¬t.val % 8 = 0) (h1 : t.val % 8 = 7) (xs : Vec F S1024x1 .f32) : Vec F S1024x128 .f32 × Vec F S1024x1 .f32 :=
  (out0_C_1 c (grid0.coords t) (ms0_0 t) (hs0_0 t) (ms0_1 t) (hs0_1 t) scM0_0 (Memref.isWhole_whole _) (fun h => h0 ((atRowStart0_iff t).mp h)) ((atRowEnd0_iff t).mpr h1) (iblk0 V c 0 t) xs,
   sout0_C_0 c (grid0.coords t) (ms0_0 t) (hs0_0 t) (ms0_1 t) (hs0_1 t) scM0_0 (Memref.isWhole_whole _) (fun h => h0 ((atRowStart0_iff t).mp h)) ((atRowEnd0_iff t).mpr h1) (iblk0 V c 0 t) xs)

def outsAt0 (c : Dev nD) : (n : ℕ) → n < cfg0.N → Vec F S1024x128 .f32 × Vec F S1024x1 .f32
  | 0, hn => ptA0 V c ⟨0, hn⟩ (Nat.zero_mod _) (fun h => absurd (show (0 : ℕ) % 8 = 7 from h) (by decide))
  | n + 1, hn =>
    if h0 : (n + 1) % 8 = 0 then ptA0 V c ⟨n + 1, hn⟩ h0 (fun h => by have h' : (n + 1) % 8 = 7 := h; omega)
    else if h1 : (n + 1) % 8 = 7 then ptC0 V c ⟨n + 1, hn⟩ h0 h1 (outsAt0 c n (Nat.lt_of_succ_lt hn)).2
    else ptB0 V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = ptA0 V c t h0 h1 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 V c t.val t.isLt = ptB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = ptC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def accAt0 (c : Dev nD) (x : Vec F S1024x1 .f32) : sProp 𝕄 :=
  iprop(iprop(owns (c : Thread nD τ) scM0_0 fullShare x
      ∗ Pipeline.scopedRestBut spec0 c [cc0_scratch0]) ∗ (∃ r, prngReg c r))

def PhiS0 (c : Dev nD) : (n : ℕ) → n ≤ cfg0.N → sProp 𝕄
  | 0, _ => Pipeline.ΦA spec0 c
  | n + 1, hn => accAt0 c (outsAt0 V c n hn).2

theorem PhiS0_pos (c : Dev nD) (n : ℕ) (h : n ≤ cfg0.N) (hz : n ≠ 0) :
    PhiS0 V c n h = accAt0 c (outsAt0 V c (n - 1) (by omega)).2 := by
  cases n with
  | zero => exact absurd rfl hz
  | succ n => rfl

theorem PhiS0_forget (c : Dev nD) (n : ℕ) (h : n ≤ cfg0.N) : PhiS0 V c n h ⊢ Pipeline.ΦA spec0 c := by
  cases n with
  | zero => exact Entails.refl _
  | succ n =>
    rw [PhiA0_eq]; unfold PhiS0 accAt0
    iintro ⟨⟨HS0, HR⟩, Hg⟩
    iframe; iexists _; iexact HS0

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

def bodyPre0 (c : Dev nD) (t : Fin cfg0.N) : sProp 𝕄 :=
  iprop(PhiS0 V c t.val (Nat.le_of_lt t.isLt) ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop(accAt0 c (outsAt0 V c t.val t.isLt).2 ∗ (dat0 V c).owesAt () t.castSucc
    ∗ (dat0 V c).leavesExact 0 t
    ∗ (dat0 V c).leavesExact 1 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).leavesExact 0 t = owns (c : Thread nD τ) (ms0_0 t) fullShare (iblk0 V c 0 t) from by
      unfold Dat.leavesExact; rw [live0_in t] <;> rfl]
  by_cases hc0 : atRowStart0 (grid0.coords t)
  · have h0 := (atRowStart0_iff t).mp hc0
    have hc1 : ¬atRowEnd0 (grid0.coords t) := fun h => by have := (atRowEnd0_iff t).mp h; omega
    rw [Dat.leavesExact_idle (dat0 V c) 1 t (idle0_out_A t hc0 hc1) (noFlush0_out_A t hc0 hc1), outsAt0_A V c t h0 (by omega)]
    unfold ptA0 sout0_A_0 accAt0; (try dsimp only)
    refine (sep_mono_left (PhiS0_forget V c _ _)).trans ?_
    rw [PhiA0_eq]
    iintro ⟨⟨⟨HS0, HR⟩, Hg⟩, Ho, ⟨%d0, H0⟩, ⟨%d1, H1⟩⟩
    iapply ((kernelRun0_A c (grid0.coords t) _ _ _ _ _ _ hc0 hc1 (iblk0 V c 0 t)).2.2 _ Set.univ _)
    iframe H0 H1 HS0
    iintro ⟨H0, H1, ⟨%es0, HS0⟩⟩
    ihave HS0 := owns_of_cover VS0_0 (scover0_A_0 c _ _ _ _ _ _ _ _ _ _) $$ HS0
    iframe
    iexists _; iexact H1
  · have h0 : ¬t.val % 8 = 0 := fun h => hc0 ((atRowStart0_iff t).mpr h)
    rw [PhiS0_pos V c _ _ fun e => h0 (by rw [e])]
    by_cases hc1 : atRowEnd0 (grid0.coords t)
    · rw [show (dat0 V c).leavesExact 1 t = owns (c : Thread nD τ) (ms0_1 t) fullShare ((dat0 V c).after 1 t) from by
        unfold Dat.leavesExact; rw [live0_out_C t hc0 hc1], after0_1, outsAt0_C V c t h0 ((atRowEnd0_iff t).mp hc1)]
      unfold ptC0 out0_C_1 sout0_C_0 accAt0; (try dsimp only)
      iintro ⟨⟨⟨HS0, HR⟩, Hg⟩, Ho, ⟨%d0, H0⟩, ⟨%d1, H1⟩⟩
      iapply ((kernelRun0_C c (grid0.coords t) _ _ _ _ _ _ hc0 hc1 (iblk0 V c 0 t) _).2.2 Set.univ _)
      iframe H0 HS0
      isplitl [H1]; · iexists _; iexact H1
      iintro ⟨H0, ⟨%e1, H1⟩, ⟨%es0, HS0⟩⟩
      ihave HS0 := owns_of_cover VS0_0 (scover0_C_0 c _ _ _ _ _ _ _ _ _ _ _) $$ HS0
      ihave H1 := owns_of_cover VO0_1 (cover0_C_1 c _ _ _ _ _ _ _ _ _ _ _) $$ H1
      iframe
    · rw [Dat.leavesExact_idle (dat0 V c) 1 t (idle0_out_B t hc0 hc1) (noFlush0_out_B t hc0 hc1), outsAt0_B V c t h0 fun h => hc1 ((atRowEnd0_iff t).mpr h)]
      unfold ptB0 sout0_B_0 accAt0; (try dsimp only)
      iintro ⟨⟨⟨HS0, HR⟩, Hg⟩, Ho, ⟨%d0, H0⟩, ⟨%d1, H1⟩⟩
      iapply ((kernelRun0_B c (grid0.coords t) _ _ _ _ _ _ hc0 hc1 (iblk0 V c 0 t) _).2.2 _ Set.univ _)
      iframe H0 H1 HS0
      iintro ⟨H0, H1, ⟨%es0, HS0⟩⟩
      ihave HS0 := owns_of_cover VS0_0 (scover0_B_0 c _ _ _ _ _ _ _ _ _ _ _) $$ HS0
      iframe
      iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Entails.refl _

theorem hout0 (c : Dev nD) : (dat0 V c).Φ (Fin.last cfg0.N) ⊢ Pipeline.ΦA spec0 c :=
  PhiS0_forget V c (Fin.last cfg0.N).val _

end Cert.Kernel.Hand

end
-- ==== Proof.K.R1Runs.lean ====
import proofs.«114212_j498216206442_1_alg».proof.Proof.K.Common

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem blockOf1_eq {c : Dev nD} (dat : Pipeline.Dat τ (Elt F) Unit ℕ (Pipeline.UD sig nD τ) ℕ cfg1 c) (w : Fin cfg1.W) (hA : dat.A w = V c (Pipeline.arrRef spec1 w)) (t : Fin cfg1.N) :
    dat.blockOf w t = iblk1 V c w t := by
  unfold Pipeline.Dat.blockOf iblk1; rw [hA]

section
variable {c : Dev nD} (dat : Pipeline.Dat τ (Elt F) Unit ℕ (Pipeline.UD sig nD τ) ℕ cfg1 c)

theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => (hafter t).trans (blockOf1_eq V dat 0 hA t).symm) t d).trans (blockOf1_eq V dat 0 hA t)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => (hafter t).trans (blockOf1_eq V dat 1 hA t).symm) t d).trans (blockOf1_eq V dat 1 hA t)
theorem before1_2_of (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => (hafter t).trans (blockOf1_eq V dat 2 hA t).symm) t d).trans (blockOf1_eq V dat 2 hA t)
theorem before1_3_of (hA : dat.A 3 = V c (Pipeline.arrRef spec1 3)) (hafter : ∀ t, dat.after 3 t = iblk1 V c 3 t) (t : Fin cfg1.N) (d) :
    dat.before 3 t d = iblk1 V c 3 t :=
  (dat.before_in_eq_fetched 3 rfl (fun _ => rfl) (fun _ _ _ => rfl) (fun t => (hafter t).trans (blockOf1_eq V dat 3 hA t).symm) t d).trans (blockOf1_eq V dat 3 hA t)
theorem before1_4_of (hA : dat.A 4 = V c (Pipeline.arrRef spec1 4)) (hafter : ∀ t, dat.after 4 t = iblk1 V c 4 t) (t : Fin cfg1.N) (d) :
    dat.before 4 t d = iblk1 V c 4 t :=
  (dat.before_in_eq_fetched 4 rfl (fun _ => rfl) (fun _ _ _ => rfl) (fun t => (hafter t).trans (blockOf1_eq V dat 4 hA t).symm) t d).trans (blockOf1_eq V dat 4 hA t)
theorem before1_5_of (hA : dat.A 5 = V c (Pipeline.arrRef spec1 5)) (hafter : ∀ t, dat.after 5 t = iblk1 V c 5 t) (t : Fin cfg1.N) (d) :
    dat.before 5 t d = iblk1 V c 5 t :=
  (dat.before_in_eq_fetched 5 rfl (fun _ => rfl) (fun _ _ _ => rfl) (fun t => (hafter t).trans (blockOf1_eq V dat 5 hA t).symm) t d).trans (blockOf1_eq V dat 5 hA t)
theorem before1_6_of (hA : dat.A 6 = V c (Pipeline.arrRef spec1 6)) (hafter : ∀ t, dat.after 6 t = iblk1 V c 6 t) (t : Fin cfg1.N) (d) :
    dat.before 6 t d = iblk1 V c 6 t :=
  (dat.before_in_eq_fetched 6 rfl (fun _ => rfl) (fun _ _ _ => rfl) (fun t => (hafter t).trans (blockOf1_eq V dat 6 hA t).symm) t d).trans (blockOf1_eq V dat 6 hA t)
theorem before1_7_of (hA : dat.A 7 = V c (Pipeline.arrRef spec1 7)) (hafter : ∀ t, dat.after 7 t = iblk1 V c 7 t) (t : Fin cfg1.N) (d) :
    dat.before 7 t d = iblk1 V c 7 t :=
  (dat.before_in_eq_fetched 7 rfl (fun _ => rfl) (fun _ _ _ => rfl) (fun t => (hafter t).trans (blockOf1_eq V dat 7 hA t).symm) t d).trans (blockOf1_eq V dat 7 hA t)

end

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 := by decide +kernel

abbrev cond1_1 (i : grid1.Coords) : Prop := k1_cond2 i = 1#1

theorem hcond1_1 : ∀ t : Fin cfg1.N, cond1_1 (grid1.coords t) ↔ t.val % 8 = 7 := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl

theorem idleAt1_8 : ∀ (t : Fin cfg1.N) (h : ¬t.val % 8 = 7), cfg1.idle 8 (grid1.coords t) = true := by decide +kernel
theorem idleAt1_9 : ∀ (t : Fin cfg1.N) (h : ¬t.val % 8 = 7), cfg1.idle 9 (grid1.coords t) = true := by decide +kernel
theorem liveAt1_8 : ∀ (t : Fin cfg1.N) (h : t.val % 8 = 7), cfg1.idle 8 (grid1.coords t) = false := by decide +kernel
theorem liveAt1_9 : ∀ (t : Fin cfg1.N) (h : t.val % 8 = 7), cfg1.idle 9 (grid1.coords t) = false := by decide +kernel
theorem noFlush1_8 : ∀ (t : Fin cfg1.N) (h : ¬t.val % 8 = 7), (cfg1.win 8).flush t = false := by decide +kernel
theorem noFlush1_9 : ∀ (t : Fin cfg1.N) (h : ¬t.val % 8 = 7), (cfg1.win 9).flush t = false := by decide +kernel

abbrev VO1_8 : View sig .tc .vmem S1024x128 .f32 := (Memref.whole cc1_stg8_0 : Memref sig .tc .vmem S1024x128 .f32).view
abbrev VO1_9 : View sig .tc .vmem S1024x128 .f32 := (Memref.whole cc1_stg9_0 : Memref sig .tc .vmem S1024x128 .f32).view

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x128 .f32 := win1_9.stage (cfg1.slots t 9)
abbrev hs1_9 (t : Fin cfg1.N) : (ms1_9 t).IsWhole := hstage1_9 ((cfg1.slots t 9).cast nbuf1_9)

abbrev scM1_0 : Memref sig .tc .vmem S1024x128 .f32 := Memref.whole cc1_scratch0

abbrev VS1_0 : View sig .tc .vmem S1024x128 .f32 := scM1_0.view

theorem PhiA1_eq (c : Dev nD) :
    (Pipeline.ΦA spec1 c : sProp 𝕄)
      = iprop(iprop((∃ f : Buf (Elt F) (c.tc.loc cc0_stg0_0), (c.tc.loc cc0_stg0_0) ↦{fullShare} f) ∗ (∃ f : Buf (Elt F) (c.tc.loc cc0_stg0_1), (c.tc.loc cc0_stg0_1) ↦{fullShare} f) ∗ (∃ f : Buf (Elt F) (c.tc.loc cc0_stg1_0), (c.tc.loc cc0_stg1_0) ↦{fullShare} f) ∗ (∃ f : Buf (Elt F) (c.tc.loc cc0_stg1_1), (c.tc.loc cc0_stg1_1) ↦{fullShare} f) ∗ (∃ f : Buf (Elt F) (c.tc.loc cc0_scratch0), (c.tc.loc cc0_scratch0) ↦{fullShare} f) ∗ (∃ d, owns c.tc scM1_0 fullShare d) ∗ (∃ f : Buf (Elt F) (c.tc.loc cc2_stg0_0), (c.tc.loc cc2_stg0_0) ↦{fullShare} f) ∗ (∃ f : Buf (Elt F) (c.tc.loc cc2_stg0_1), (c.tc.loc cc2_stg0_1) ↦{fullShare} f) ∗ (∃ f : Buf (Elt F) (c.tc.loc cc2_stg1_0), (c.tc.loc cc2_stg1_0) ↦{fullShare} f) ∗ (∃ f : Buf (Elt F) (c.tc.loc cc2_stg1_1), (c.tc.loc cc2_stg1_1) ↦{fullShare} f) ∗ (∃ f : Buf (Elt F) (c.tc.loc cc2_stg2_0), (c.tc.loc cc2_stg2_0) ↦{fullShare} f) ∗ (∃ f : Buf (Elt F) (c.tc.loc cc2_stg2_1), (c.tc.loc cc2_stg2_1) ↦{fullShare} f) ∗ (∃ f : Buf (Elt F) (c.tc.loc cc2_scratch0), (c.tc.loc cc2_scratch0) ↦{fullShare} f) ∗ (∃ f : Buf (Elt F) (c.tc.loc cc3_stg0_0), (c.tc.loc cc3_stg0_0) ↦{fullShare} f) ∗ (∃ f : Buf (Elt F) (c.tc.loc cc3_stg0_1), (c.tc.loc cc3_stg0_1) ↦{fullShare} f) ∗ (∃ f : Buf (Elt F) (c.tc.loc cc3_stg1_0), (c.tc.loc cc3_stg1_0) ↦{fullShare} f) ∗ (∃ f : Buf (Elt F) (c.tc.loc cc3_stg1_1), (c.tc.loc cc3_stg1_1) ↦{fullShare} f) ∗ (∃ f : Buf (Elt F) (c.tc.loc cc3_stg2_0), (c.tc.loc cc3_stg2_0) ↦{fullShare} f) ∗ (∃ f : Buf (Elt F) (c.tc.loc cc3_stg2_1), (c.tc.loc cc3_stg2_1) ↦{fullShare} f) ∗ (∃ f : Buf (Elt F) (c.tc.loc cc3_stg3_0), (c.tc.loc cc3_stg3_0) ↦{fullShare} f) ∗ (∃ f : Buf (Elt F) (c.tc.loc cc3_stg4_0), (c.tc.loc cc3_stg4_0) ↦{fullShare} f)) ∗ (∃ r, prngReg c r)) := by
  unfold Pipeline.ΦA; rw [scopedRest1_eq]; simp only [scM1_0, owns_whole]; try rfl

end Cert.Kernel.Hand
-- ==== Proof.K.R1RunA.lean ====
import proofs.«114212_j498216206442_1_alg».proof.Proof.K.R1Runs

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 2000000 in
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : cond1_0 i) (hc1 : ¬cond1_1 i)
    (x0 : Vec F S1024x1024 .f32) (x1 x2 x3 : Vec F S1024x128 .f32) (x4 : Vec F S128x128 .f32) (x5 : Vec F S1x128 .f32) (x6 : Vec F S128x128 .f32) (x7 : Vec F S1x128 .f32) :
    Σ' (L8 : List (View.Piece (Elt F) S1024x128 .f32)) (L9 : List (View.Piece (Elt F) S1024x128 .f32)), { LS0 : List (View.Piece (Elt F) S1024x128 .f32) //
      ∀ (xi8 xi9 : Vec F S1024x128 .f32) (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare xi8 ∗ owns c.tc arg11 fullShare xi9 ∗ (∃ d, owns c.tc arg12 fullShare d)
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare xi8 ∗ owns c.tc arg11 fullShare xi9 ∗ (∃ f, arg12.view.loc c.tc ↦[arg12.view.set]{fullShare} arg12.view.writes (Elt F) f LS0)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12) K } := by
  refine ⟨[], [], ?_, fun xi8 xi9 E K => ?run⟩
  case run =>
    simp only [cc1__stageB_kernel_eq_skeleton, owns_unread harg2, owns_unread harg3, owns_unread harg4, owns_unread harg5, owns_unread harg6, owns_unread harg7, owns_unread harg8, owns_unread harg9, owns_unread harg10, owns_unread harg11]; unfold cc1__stageB_kernel_skel
    unfold owns
    iintro ⟨H0, H1, H2, H3, H4, H5, H6, H7, H8, H9, ⟨%ds0, %fs0, -, HS0⟩, Hk⟩
    sl_exec (disch := first | exact hc0 | exact hc1)
    sl_step
    iapply Hk
    iframe
    iexists _; iexact HS0

end Cert.Kernel.Hand
-- ==== Proof.K.R1RunB.lean ====
import proofs.«114212_j498216206442_1_alg».proof.Proof.K.R1RunA

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 2000000 in
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond1_0 i) (hc1 : ¬cond1_1 i)
    (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32) :
    Σ' (L8 : List (View.Piece (Elt F) S1024x128 .f32)) (L9 : List (View.Piece (Elt F) S1024x128 .f32)), { LS0 : List (View.Piece (Elt F) S1024x128 .f32) //
      ∀ (xi8 xi9 : Vec F S1024x128 .f32) (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare xi8 ∗ owns c.tc arg11 fullShare xi9 ∗ owns c.tc arg12 fullShare xs0
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare xi8 ∗ owns c.tc arg11 fullShare xi9 ∗ (∃ f, arg12.view.loc c.tc ↦[arg12.view.set]{fullShare} arg12.view.writes (Elt F) f LS0)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12) K } := by
  refine ⟨[], [], ?_, fun xi8 xi9 E K => ?run⟩
  case run =>
    simp only [cc1__stageB_kernel_eq_skeleton, owns_unread harg2, owns_unread harg3, owns_unread harg4, owns_unread harg5, owns_unread harg6, owns_unread harg7, owns_unread harg8, owns_unread harg9, owns_unread harg10, owns_unread harg11, owns_unread harg12]; unfold cc1__stageB_kernel_skel
    iintro ⟨H0, H1, H2, H3, H4, H5, H6, H7, H8, H9, HS0, Hk⟩
    sl_exec (disch := first | exact hc0 | exact hc1)
    sl_step
    iapply Hk
    iframe
    iexists _; iexact HS0

end Cert.Kernel.Hand
-- ==== Proof.K.R1RunC.lean ====
import proofs.«114212_j498216206442_1_alg».proof.Proof.K.R1RunB

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 2000000 in
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond1_0 i) (hc1 : cond1_1 i)
    (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32) :
    Σ' (L8 : List (View.Piece (Elt F) S1024x128 .f32)) (L9 : List (View.Piece (Elt F) S1024x128 .f32)), { LS0 : List (View.Piece (Elt F) S1024x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ d, owns c.tc arg10 fullShare d) ∗ (∃ d, owns c.tc arg11 fullShare d) ∗ owns c.tc arg12 fullShare xs0
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ f, arg10.view.loc c.tc ↦[arg10.view.set]{fullShare} arg10.view.writes (Elt F) f L8) ∗ (∃ f, arg11.view.loc c.tc ↦[arg11.view.set]{fullShare} arg11.view.writes (Elt F) f L9) ∗ (∃ f, arg12.view.loc c.tc ↦[arg12.view.set]{fullShare} arg12.view.writes (Elt F) f LS0)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__stageB_kernel_eq_skeleton]; unfold cc1__stageB_kernel_skel
    simp only [k1_part1_eq_skeleton, owns_unread harg2, owns_unread harg3, owns_unread harg4, owns_unread harg5, owns_unread harg6, owns_unread harg7, owns_unread harg8, owns_unread harg9, owns_unread harg12]; unfold k1_part1_skel
    unfold owns
    iintro ⟨H0, H1, H2, H3, H4, H5, H6, H7, ⟨%d8, %f8, -, H8⟩, ⟨%d9, %f9, -, H9⟩, HS0, Hk⟩
    sl_exec (disch := first | exact hc0 | exact hc1)
    sl_step
    iapply Hk
    iframe
    isplitl [H8]; · iexists _; iexact H8
    isplitl [H9]; · iexists _; iexact H9
    iexists _; iexact HS0

end Cert.Kernel.Hand
-- ==== Proof.K.R1Dat.lean ====
import proofs.«114212_j498216206442_1_alg».proof.Proof.K.R1RunC

noncomputable section

namespace Cert.Kernel.Hand

open Cert.Kernel Gen Idealize ShloMosaic TcCoe Tactic SL RA BI BIBase Laws ProofMode Sem
open scoped Idealize.SL.BI
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

-- What each case's run leaves in the two heads' blocks and in the accumulator, read back over arbitrary contents; a store of the whole block covers it.
section
variable (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole)

section
variable (hc0 : cond1_0 i) (hc1 : ¬cond1_1 i) (x0 : Vec F S1024x1024 .f32) (x1 x2 x3 : Vec F S1024x128 .f32) (x4 : Vec F S128x128 .f32) (x5 : Vec F S1x128 .f32) (x6 : Vec F S128x128 .f32) (x7 : Vec F S1x128 .f32)

def out1_A_8 : Vec F S1024x128 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

def out1_A_9 : Vec F S1024x128 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

theorem scover1_A_0 (y : S1024x128.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL _ S1024x128.size (by sl_kernel_rfl) y

def sout1_A_0 : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

end

section
variable (hc0 : ¬cond1_0 i) (hc1 : ¬cond1_1 i) (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32)

def out1_B_8 : Vec F S1024x128 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

def out1_B_9 : Vec F S1024x128 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

theorem scover1_B_0 (y : S1024x128.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL _ S1024x128.size (by sl_kernel_rfl) y

def sout1_B_0 : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

end

section
variable (hc0 : ¬cond1_0 i) (hc1 : cond1_1 i) (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32)

theorem cover1_C_8 (y : S1024x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL _ S1024x128.size (by sl_kernel_rfl) y

def out1_C_8 : Vec F S1024x128 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

theorem cover1_C_9 (y : S1024x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL _ S1024x128.size (by sl_kernel_rfl) y

def out1_C_9 : Vec F S1024x128 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

theorem scover1_C_0 (y : S1024x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL _ S1024x128.size (by sl_kernel_rfl) y

def sout1_C_0 : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

end

end

theorem zero_not_last (n : ℕ) (hz : n = 0) : ¬n % 8 = 7 := by omega

-- The three contents after the body at point `t`, by the case its block column is in.
def ptA1 (c : Dev nD) (t : Fin cfg1.N) (h0 : t.val % 8 = 0) (h1 : ¬t.val % 8 = 7) : Vec F S1024x128 .f32 × Vec F S1024x128 .f32 × Vec F S1024x128 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
  out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
  sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))

def ptB1 (c : Dev nD) (t : Fin cfg1.N) (h0 : ¬t.val % 8 = 0) (h1 : ¬t.val % 8 = 7) (xs : Vec F S1024x128 .f32) : Vec F S1024x128 .f32 × Vec F S1024x128 .f32 × Vec F S1024x128 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) xs,
  out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) xs,
  sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) xs)

def ptC1 (c : Dev nD) (t : Fin cfg1.N) (h0 : ¬t.val % 8 = 0) (h1 : t.val % 8 = 7) (xs : Vec F S1024x128 .f32) : Vec F S1024x128 .f32 × Vec F S1024x128 .f32 × Vec F S1024x128 .f32 :=
  (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs,
  out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs,
  sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs)

def outsAt1 (c : Dev nD) : (n : ℕ) → n < cfg1.N → Vec F S1024x128 .f32 × Vec F S1024x128 .f32 × Vec F S1024x128 .f32
  | 0, hn => ptA1 V c ⟨0, hn⟩ (Nat.zero_mod _) (zero_not_last 0 rfl)
  | n + 1, hn =>
    if h0 : (n + 1) % 8 = 0 then
      if h1 : (n + 1) % 8 = 7 then False.elim (by omega) else ptA1 V c ⟨n + 1, hn⟩ h0 h1
    else if h1 : (n + 1) % 8 = 7 then ptC1 V c ⟨n + 1, hn⟩ h0 h1 (outsAt1 c n (Nat.lt_of_succ_lt hn)).2.2
    else ptB1 V c ⟨n + 1, hn⟩ h0 h1 (outsAt1 c n (Nat.lt_of_succ_lt hn)).2.2

theorem outsAt1_A (c : Dev nD) (t : Fin cfg1.N) (h0 : t.val % 8 = 0) (h1 : ¬t.val % 8 = 7) :
    outsAt1 V c t.val t.isLt = ptA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = ptB1 V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = ptC1 V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

-- The invariant after a point, as a function of what the accumulator holds.
def PhiR1 (c : Dev nD) (x : Vec F S1024x128 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1_0 fullShare x ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f)) ∗ (∃ r, prngReg c r))

def PhiS1 (c : Dev nD) : (n : ℕ) → n ≤ cfg1.N → sProp 𝕄
  | 0, _ => Pipeline.ΦA spec1 c
  | n + 1, hn => PhiR1 c (outsAt1 V c n hn).2.2

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiR1 c (outsAt1 V c n hn).2.2 := rfl

theorem PhiS1_pos (c : Dev nD) (n : ℕ) (h : n ≤ cfg1.N) (hz : n ≠ 0) :
    PhiS1 V c n h = PhiR1 c (outsAt1 V c (n - 1) (by omega)).2.2 := by
  cases n with
  | zero => exact absurd rfl hz
  | succ n => rfl

-- What the accumulator holds may be forgotten: every invariant gives back what the launch handed over.
theorem PhiS1_le (c : Dev nD) (n : ℕ) (h : n ≤ cfg1.N) : PhiS1 V c n h ⊢ Pipeline.ΦA spec1 c := by
  cases n with
  | zero => rw [PhiS1_zero V c 0 h rfl]
  | succ n =>
    rw [PhiS1_succ, PhiA1_eq]; unfold PhiR1
    iintro ⟨⟨HR0, HR1, HR2, HR3, HR4, HS0, HR6, HR7, HR8, HR9, HR10, HR11, HR12, HR13, HR14, HR15, HR16, HR17, HR18, HR19, HR20⟩, Hg⟩
    iframe
    iexists _; iexact HS0

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2.1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

-- Block column 0 takes the accumulator at any contents; the other columns at what the point before left.
set_option maxHeartbeats 2000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 8 = 0
  · have h1 : ¬t.val % 8 = 7 := by omega
    rw [Dat.leavesExact_idle (dat1 V c) 8 t (idleAt1_8 t h1) (noFlush1_8 t h1), Dat.leavesExact_idle (dat1 V c) 9 t (idleAt1_9 t h1) (noFlush1_9 t h1), outsAt1_A V c t h0 h1]
    unfold ptA1 sout1_A_0 PhiR1; (try dsimp only)
    refine (sep_mono_left (PhiS1_le V c _ _)).trans ?_
    rw [PhiA1_eq]
    iintro ⟨⟨⟨HR0, HR1, HR2, HR3, HR4, HS0, HR6, HR7, HR8, HR9, HR10, HR11, HR12, HR13, HR14, HR15, HR16, HR17, HR18, HR19, HR20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, ⟨%es0, HS0⟩⟩
    isplitl [HR0 HR1 HR2 HR3 HR4 HS0 HR6 HR7 HR8 HR9 HR10 HR11 HR12 HR13 HR14 HR15 HR16 HR17 HR18 HR19 HR20 Hg]
    · isplitl [HR0 HR1 HR2 HR3 HR4 HS0 HR6 HR7 HR8 HR9 HR10 HR11 HR12 HR13 HR14 HR15 HR16 HR17 HR18 HR19 HR20]
      · isplitl [HR0]; · iexact HR0
        isplitl [HR1]; · iexact HR1
        isplitl [HR2]; · iexact HR2
        isplitl [HR3]; · iexact HR3
        isplitl [HR4]; · iexact HR4
        isplitl [HS0]; · iapply (owns_of_cover _ (scover1_A_0 _ _ _ _ _ _ _ _ _ _ _ _ _ _ _ _ _ _ _ _ _ _ _ _ _ _ _ _ _ _ _ _ _ _)); iexact HS0
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        isplitl [HR18]; · iexact HR18
        isplitl [HR19]; · iexact HR19
        iexact HR20
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have hz : t.val ≠ 0 := fun h => h0 (by rw [h])
    rw [PhiS1_pos V c _ _ hz]
    by_cases h1 : t.val % 8 = 7
    · rw [show (dat1 V c).leavesExact 8 t = owns (c : Thread nD τ) (ms1_8 t) fullShare ((dat1 V c).after 8 t) from by
        unfold Dat.leavesExact; rw [liveAt1_8 t h1], after1_8]
      rw [show (dat1 V c).leavesExact 9 t = owns (c : Thread nD τ) (ms1_9 t) fullShare ((dat1 V c).after 9 t) from by
        unfold Dat.leavesExact; rw [liveAt1_9 t h1], after1_9]
      rw [outsAt1_C V c t h0 h1]
      unfold ptC1 out1_C_8 out1_C_9 sout1_C_0 PhiR1; (try dsimp only)
      iintro ⟨⟨⟨HR0, HR1, HR2, HR3, HR4, HS0, HR6, HR7, HR8, HR9, HR10, HR11, HR12, HR13, HR14, HR15, HR16, HR17, HR18, HR19, HR20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HR0 HR1 HR2 HR3 HR4 HS0 HR6 HR7 HR8 HR9 HR10 HR11 HR12 HR13 HR14 HR15 HR16 HR17 HR18 HR19 HR20 Hg]
      · isplitl [HR0 HR1 HR2 HR3 HR4 HS0 HR6 HR7 HR8 HR9 HR10 HR11 HR12 HR13 HR14 HR15 HR16 HR17 HR18 HR19 HR20]
        · isplitl [HR0]; · iexact HR0
          isplitl [HR1]; · iexact HR1
          isplitl [HR2]; · iexact HR2
          isplitl [HR3]; · iexact HR3
          isplitl [HR4]; · iexact HR4
          isplitl [HS0]; · iapply (owns_of_cover _ (scover1_C_0 _ _ _ _ _ _ _ _ _ _ _ _ _ _ _ _ _ _ _ _ _ _ _ _ _ _ _ _ _ _ _ _ _ _ _)); iexact HS0
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          iexact HR20
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iapply (owns_of_cover _ (cover1_C_8 _ _ _ _ _ _ _ _ _ _ _ _ _ _ _ _ _ _ _ _ _ _ _ _ _ _ _ _ _ _ _ _ _ _ _)); iexact H8
      iapply (owns_of_cover _ (cover1_C_9 _ _ _ _ _ _ _ _ _ _ _ _ _ _ _ _ _ _ _ _ _ _ _ _ _ _ _ _ _ _ _ _ _ _ _)); iexact H9
    · rw [Dat.leavesExact_idle (dat1 V c) 8 t (idleAt1_8 t h1) (noFlush1_8 t h1), Dat.leavesExact_idle (dat1 V c) 9 t (idleAt1_9 t h1) (noFlush1_9 t h1), outsAt1_B V c t h0 h1]
      unfold ptB1 sout1_B_0 PhiR1; (try dsimp only)
      iintro ⟨⟨⟨HR0, HR1, HR2, HR3, HR4, HS0, HR6, HR7, HR8, HR9, HR10, HR11, HR12, HR13, HR14, HR15, HR16, HR17, HR18, HR19, HR20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HR0 HR1 HR2 HR3 HR4 HS0 HR6 HR7 HR8 HR9 HR10 HR11 HR12 HR13 HR14 HR15 HR16 HR17 HR18 HR19 HR20 Hg]
      · isplitl [HR0 HR1 HR2 HR3 HR4 HS0 HR6 HR7 HR8 HR9 HR10 HR11 HR12 HR13 HR14 HR15 HR16 HR17 HR18 HR19 HR20]
        · isplitl [HR0]; · iexact HR0
          isplitl [HR1]; · iexact HR1
          isplitl [HR2]; · iexact HR2
          isplitl [HR3]; · iexact HR3
          isplitl [HR4]; · iexact HR4
          isplitl [HS0]; · iapply (owns_of_cover _ (scover1_B_0 _ _ _ _ _ _ _ _ _ _ _ _ _ _ _ _ _ _ _ _ _ _ _ _ _ _ _ _ _ _ _ _ _ _ _)); iexact HS0
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          iexact HR20
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c :=
  PhiS1_le V c (Fin.last cfg1.N).val (Nat.le_of_lt_succ (Fin.last cfg1.N).isLt)

end Cert.Kernel.Hand

end
-- ==== Proof.K.R2Runs.lean ====
import proofs.«114212_j498216206442_1_alg».proof.Proof.K.Common

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem blockOf2_eq {c : Dev nD} (dat : Pipeline.Dat τ (Elt F) Unit ℕ (Pipeline.UD sig nD τ) ℕ cfg2 c) (w : Fin cfg2.W) (hA : dat.A w = V c (Pipeline.arrRef spec2 w)) (t : Fin cfg2.N) :
    dat.blockOf w t = iblk2 V c w t := by
  unfold Pipeline.Dat.blockOf iblk2; rw [hA]

section
variable {c : Dev nD} (dat : Pipeline.Dat τ (Elt F) Unit ℕ (Pipeline.UD sig nD τ) ℕ cfg2 c)

theorem before2_0_of (hA : dat.A 0 = V c (Pipeline.arrRef spec2 0)) (hafter : ∀ t, dat.after 0 t = iblk2 V c 0 t) (t : Fin cfg2.N) (d) :
    dat.before 0 t d = iblk2 V c 0 t :=
  (dat.before_in_eq_fetched 0 rfl (fun _ => rfl) (fun _ _ _ => rfl) (fun t => (hafter t).trans (blockOf2_eq V dat 0 hA t).symm) t d).trans (blockOf2_eq V dat 0 hA t)
theorem before2_1_of (hA : dat.A 1 = V c (Pipeline.arrRef spec2 1)) (hafter : ∀ t, dat.after 1 t = iblk2 V c 1 t) (t : Fin cfg2.N) (d) :
    dat.before 1 t d = iblk2 V c 1 t :=
  (dat.before_in_eq_fetched 1 rfl (fun _ => rfl) (fun _ _ _ => rfl) (fun t => (hafter t).trans (blockOf2_eq V dat 1 hA t).symm) t d).trans (blockOf2_eq V dat 1 hA t)

end

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 := by decide +kernel

abbrev cond2_1 (i : grid2.Coords) : Prop := k2_cond2 i = 1#1

theorem hcond2_1 : ∀ t : Fin cfg2.N, cond2_1 (grid2.coords t) ↔ t.val % 8 = 7 := by decide +kernel

theorem liveAt2_0 : ∀ t : Fin cfg2.N, cfg2.idle 0 (grid2.coords t) = false := by decide +kernel
theorem liveAt2_1 : ∀ t : Fin cfg2.N, cfg2.idle 1 (grid2.coords t) = false := by decide +kernel

theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel

theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel

theorem liveAt2_2_C : ∀ t : Fin cfg2.N, ¬cond2_0 (grid2.coords t) → cond2_1 (grid2.coords t) → cfg2.idle 2 (grid2.coords t) = false := by decide +kernel

abbrev VO2_2 : View sig .tc .vmem S1024x128 .f32 := (Memref.whole cc2_stg2_0 : Memref sig .tc .vmem S1024x128 .f32).view

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)

abbrev scM2_0 : Memref sig .tc .vmem S1024x128 .f32 := Memref.whole cc2_scratch0

abbrev VS2_0 : View sig .tc .vmem S1024x128 .f32 := scM2_0.view

theorem PhiA2_eq (c : Dev nD) :
    (Pipeline.ΦA spec2 c : sProp 𝕄)
      = iprop(iprop(iprop((∃ d, owns c.tc scM2_0 fullShare d)) ∗ Pipeline.scopedRestBut spec2 c [cc2_scratch0]) ∗ (∃ r, prngReg c r)) := by
  unfold Pipeline.ΦA; rw [scopedRest2_split]; simp only [scM2_0, owns_whole]; try rfl

end Cert.Kernel.Hand
-- ==== Proof.K.R2RunA.lean ====
import proofs.«114212_j498216206442_1_alg».proof.Proof.K.R2Runs

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 4000000 in
noncomputable def kernelRun2_A (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .f32) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns c.tc arg2 fullShare x0 ∗ owns c.tc arg3 fullShare x1 ∗ owns c.tc arg4 fullShare xi2 ∗ (∃ d, owns c.tc arg5 fullShare d)
            ∗ (iprop(owns c.tc arg2 fullShare x0 ∗ owns c.tc arg3 fullShare x1 ∗ owns c.tc arg4 fullShare xi2 ∗ (∃ f, arg5.view.loc c.tc ↦[arg5.view.set]{fullShare} arg5.view.writes (Elt F) f LS0)) -∗ K ⟨⟩))
          ⊢ wp frame (wpE (defs₀ (F := F)) Variants.none c none) E (cc2__stageC_kernel i arg2 harg2 arg3 harg3 arg4 harg4 arg5 harg5) K } := by
  refine ⟨[], ?_, fun xi2 E K => ?run⟩
  case run =>
    simp only [cc2__stageC_kernel_eq_skeleton, owns_unread harg2, owns_unread harg3, owns_unread harg4]; unfold cc2__stageC_kernel_skel
    unfold owns
    iintro ⟨H0, H1, H2, ⟨%ds0, %fs0, -, HS0⟩, Hk⟩
    sl_exec (disch := first | exact hc0 | exact hc1)
    sl_step
    iapply Hk
    iframe
    iexists _; iexact HS0

end Cert.Kernel.Hand
-- ==== Proof.K.R2RunB.lean ====
import proofs.«114212_j498216206442_1_alg».proof.Proof.K.R2RunA

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 4000000 in
noncomputable def kernelRun2_B (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .f32) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns c.tc arg2 fullShare x0 ∗ owns c.tc arg3 fullShare x1 ∗ owns c.tc arg4 fullShare xi2 ∗ owns c.tc arg5 fullShare xs0
            ∗ (iprop(owns c.tc arg2 fullShare x0 ∗ owns c.tc arg3 fullShare x1 ∗ owns c.tc arg4 fullShare xi2 ∗ (∃ f, arg5.view.loc c.tc ↦[arg5.view.set]{fullShare} arg5.view.writes (Elt F) f LS0)) -∗ K ⟨⟩))
          ⊢ wp frame (wpE (defs₀ (F := F)) Variants.none c none) E (cc2__stageC_kernel i arg2 harg2 arg3 harg3 arg4 harg4 arg5 harg5) K } := by
  refine ⟨[], ?_, fun xi2 E K => ?run⟩
  case run =>
    simp only [cc2__stageC_kernel_eq_skeleton, owns_unread harg2, owns_unread harg3, owns_unread harg4, owns_unread harg5]; unfold cc2__stageC_kernel_skel
    iintro ⟨H0, H1, H2, HS0, Hk⟩
    sl_exec (disch := first | exact hc0 | exact hc1)
    sl_step
    iapply Hk
    iframe
    iexists _; iexact HS0

end Cert.Kernel.Hand
-- ==== Proof.K.R2RunC.lean ====
import proofs.«114212_j498216206442_1_alg».proof.Proof.K.R2RunB

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 4000000 in
noncomputable def kernelRun2_C (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .f32) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns c.tc arg2 fullShare x0 ∗ owns c.tc arg3 fullShare x1 ∗ (∃ d, owns c.tc arg4 fullShare d) ∗ owns c.tc arg5 fullShare xs0
            ∗ (iprop(owns c.tc arg2 fullShare x0 ∗ owns c.tc arg3 fullShare x1 ∗ (∃ f, arg4.view.loc c.tc ↦[arg4.view.set]{fullShare} arg4.view.writes (Elt F) f L2) ∗ (∃ f, arg5.view.loc c.tc ↦[arg5.view.set]{fullShare} arg5.view.writes (Elt F) f LS0)) -∗ K ⟨⟩))
          ⊢ wp frame (wpE (defs₀ (F := F)) Variants.none c none) E (cc2__stageC_kernel i arg2 harg2 arg3 harg3 arg4 harg4 arg5 harg5) K } := by
  refine ⟨?_, ?_, fun E K => ?run⟩
  case run =>
    simp only [cc2__stageC_kernel_eq_skeleton, owns_unread harg2, owns_unread harg3, owns_unread harg5]; unfold cc2__stageC_kernel_skel
    unfold owns
    iintro ⟨H0, H1, ⟨%d2, %f2, -, H2⟩, HS0, Hk⟩
    sl_exec (disch := first | exact hc0 | exact hc1)
    sl_step
    iapply Hk
    iframe
    isplitl [H2]; · iexists _; iexact H2
    iexists _; iexact HS0

end Cert.Kernel.Hand
-- ==== Proof.K.R2Dat.lean ====
import proofs.«114212_j498216206442_1_alg».proof.Proof.K.R2RunC

noncomputable section

namespace Cert.Kernel.Hand

open Cert.Kernel Cert.Kernel.Gen
open Idealize ShloMosaic ShloMosaic.TcCoe ShloMosaic.Tactic SL SL.RA SL.BI SL.BI.BIBase SL.BI.Laws SL.ProofMode SL.Sem
open ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

section
variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)

section
variable (hc0 : cond2_0 i) (hc1 : ¬cond2_1 i) (x0 : Vec F S1024x1024 .f32) (x1 : Vec F S1024x128 .f32)

def out2_A_2 : Vec F S1024x128 .f32 :=
  VO2_2.read (Elt F) (VO2_2.writes (Elt F) VO2_2.junk (kernelRun2_A c i arg2 harg2 arg3 harg3 arg4 harg4 arg5 harg5 hc0 hc1 x0 x1).1)

theorem scover2_A_0 (y : S1024x128.Idx) : ∃ pc ∈ (kernelRun2_A c i arg2 harg2 arg3 harg3 arg4 harg4 arg5 harg5 hc0 hc1 x0 x1).2.1, y ∈ pc.1.set :=
  View.cover_of_tiledL _ S1024x128.size (by sl_kernel_rfl) y

def sout2_A_0 : Vec F S1024x128 .f32 :=
  VS2_0.read (Elt F) (VS2_0.writes (Elt F) VS2_0.junk (kernelRun2_A c i arg2 harg2 arg3 harg3 arg4 harg4 arg5 harg5 hc0 hc1 x0 x1).2.1)

end

variable (hc0 : ¬cond2_0 i)

section
variable (hc1 : ¬cond2_1 i) (x0 : Vec F S1024x1024 .f32) (x1 : Vec F S1024x128 .f32) (xs0 : Vec F S1024x128 .f32)

def out2_B_2 : Vec F S1024x128 .f32 :=
  VO2_2.read (Elt F) (VO2_2.writes (Elt F) VO2_2.junk (kernelRun2_B c i arg2 harg2 arg3 harg3 arg4 harg4 arg5 harg5 hc0 hc1 x0 x1 xs0).1)

theorem scover2_B_0 (y : S1024x128.Idx) : ∃ pc ∈ (kernelRun2_B c i arg2 harg2 arg3 harg3 arg4 harg4 arg5 harg5 hc0 hc1 x0 x1 xs0).2.1, y ∈ pc.1.set :=
  View.cover_of_tiledL _ S1024x128.size (by sl_kernel_rfl) y

def sout2_B_0 : Vec F S1024x128 .f32 :=
  VS2_0.read (Elt F) (VS2_0.writes (Elt F) VS2_0.junk (kernelRun2_B c i arg2 harg2 arg3 harg3 arg4 harg4 arg5 harg5 hc0 hc1 x0 x1 xs0).2.1)

end

variable (hc1 : cond2_1 i) (x0 : Vec F S1024x1024 .f32) (x1 : Vec F S1024x128 .f32) (xs0 : Vec F S1024x128 .f32)

theorem cover2_C_2 (y : S1024x128.Idx) : ∃ pc ∈ (kernelRun2_C c i arg2 harg2 arg3 harg3 arg4 harg4 arg5 harg5 hc0 hc1 x0 x1 xs0).1, y ∈ pc.1.set :=
  View.cover_of_tiledL _ S1024x128.size (by sl_kernel_rfl) y

def out2_C_2 : Vec F S1024x128 .f32 :=
  VO2_2.read (Elt F) (VO2_2.writes (Elt F) VO2_2.junk (kernelRun2_C c i arg2 harg2 arg3 harg3 arg4 harg4 arg5 harg5 hc0 hc1 x0 x1 xs0).1)

theorem scover2_C_0 (y : S1024x128.Idx) : ∃ pc ∈ (kernelRun2_C c i arg2 harg2 arg3 harg3 arg4 harg4 arg5 harg5 hc0 hc1 x0 x1 xs0).2.1, y ∈ pc.1.set :=
  View.cover_of_tiledL _ S1024x128.size (by sl_kernel_rfl) y

def sout2_C_0 : Vec F S1024x128 .f32 :=
  VS2_0.read (Elt F) (VS2_0.writes (Elt F) VS2_0.junk (kernelRun2_C c i arg2 harg2 arg3 harg3 arg4 harg4 arg5 harg5 hc0 hc1 x0 x1 xs0).2.1)

end

def leaves2_A (c : Dev nD) (t : Fin cfg2.N) (h0 : t.val % 8 = 0) (h1 : ¬t.val % 8 = 7) : Vec F S1024x128 .f32 × Vec F S1024x128 .f32 :=
  (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
   sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t))

def leaves2_B (c : Dev nD) (t : Fin cfg2.N) (h0 : ¬t.val % 8 = 0) (h1 : ¬t.val % 8 = 7) (xs : Vec F S1024x128 .f32) : Vec F S1024x128 .f32 × Vec F S1024x128 .f32 :=
  (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs,
   sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs)

def leaves2_C (c : Dev nD) (t : Fin cfg2.N) (h0 : ¬t.val % 8 = 0) (h1 : t.val % 8 = 7) (xs : Vec F S1024x128 .f32) : Vec F S1024x128 .f32 × Vec F S1024x128 .f32 :=
  (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs,
   sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs)

def outsAt2 (c : Dev nD) : (n : ℕ) → n < cfg2.N → Vec F S1024x128 .f32 × Vec F S1024x128 .f32
  | 0, hn => leaves2_A V c ⟨0, hn⟩ (Nat.zero_mod _) (by show ¬(0 % 8 = 7); omega)
  | n + 1, hn =>
    if h0 : (n + 1) % 8 = 0 then
      if h1 : (n + 1) % 8 = 7 then False.elim (by omega)
      else leaves2_A V c ⟨n + 1, hn⟩ h0 h1
    else
      if h1 : (n + 1) % 8 = 7 then leaves2_C V c ⟨n + 1, hn⟩ h0 h1 (outsAt2 c n (Nat.lt_of_succ_lt hn)).2
      else leaves2_B V c ⟨n + 1, hn⟩ h0 h1 (outsAt2 c n (Nat.lt_of_succ_lt hn)).2

theorem outsAt2_A (c : Dev nD) (t : Fin cfg2.N) (h0 : t.val % 8 = 0) (h1 : ¬t.val % 8 = 7) :
    outsAt2 V c t.val t.isLt = leaves2_A V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = leaves2_B V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 8 = 0) (h1 : t.val % 8 = 7) :
    outsAt2 V c t.val t.isLt = leaves2_C V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def accAt2 (c : Dev nD) (x : Vec F S1024x128 .f32) : sProp 𝕄 :=
  iprop(iprop(owns (c : Thread nD τ) scM2_0 fullShare x ∗ Pipeline.scopedRestBut spec2 c [cc2_scratch0]) ∗ (∃ r, prngReg c r))

def PhiS2 (c : Dev nD) : (n : ℕ) → n ≤ cfg2.N → sProp 𝕄
  | 0, _ => Pipeline.ΦA spec2 c
  | n + 1, hn => accAt2 c (outsAt2 V c n hn).2

theorem PhiS2_pos (c : Dev nD) (n : ℕ) (h : n ≤ cfg2.N) (hz : n ≠ 0) :
    PhiS2 V c n h = accAt2 c (outsAt2 V c (n - 1) (by omega)).2 := by
  cases n with
  | zero => exact absurd rfl hz
  | succ n => rfl

theorem PhiS2_forget (c : Dev nD) (n : ℕ) (h : n ≤ cfg2.N) : PhiS2 V c n h ⊢ Pipeline.ΦA spec2 c := by
  cases n with
  | zero => exact Entails.refl _
  | succ n =>
    rw [PhiA2_eq]; unfold PhiS2 accAt2
    iintro ⟨⟨HS0, HR⟩, Hg⟩
    iframe; iexists _; iexact HS0

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (fun _ => rfl) t d
theorem before2_1 (c : Dev nD) (t : Fin cfg2.N) (d) : (dat2 V c).before 1 t d = iblk2 V c 1 t :=
  before2_1_of V (dat2 V c) (A_eq2 V c 1) (fun _ => rfl) t d

def bodyPre2 (c : Dev nD) (t : Fin cfg2.N) : sProp 𝕄 :=
  iprop(PhiS2 V c t.val (Nat.le_of_lt t.isLt) ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop(accAt2 c (outsAt2 V c t.val t.isLt).2 ∗ (dat2 V c).owesAt () t.castSucc
    ∗ (dat2 V c).leavesExact 0 t
    ∗ (dat2 V c).leavesExact 1 t
    ∗ (dat2 V c).leavesExact 2 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).leavesExact 0 t = owns (c : Thread nD τ) (ms2_0 t) fullShare (iblk2 V c 0 t) from by
      unfold Dat.leavesExact; rw [liveAt2_0 t] <;> rfl,
    show (dat2 V c).leavesExact 1 t = owns (c : Thread nD τ) (ms2_1 t) fullShare (iblk2 V c 1 t) from by
      unfold Dat.leavesExact; rw [liveAt2_1 t] <;> rfl]
  by_cases hc0 : cond2_0 (grid2.coords t)
  · have h0 := (hcond2_0 t).mp hc0
    have hc1 : ¬cond2_1 (grid2.coords t) := fun h => by have := (hcond2_1 t).mp h; omega
    rw [Dat.leavesExact_idle (dat2 V c) 2 t (idleAt2_2_A t hc0 hc1) (noFlush2_2_A t hc0 hc1), outsAt2_A V c t h0 (by omega)]
    unfold leaves2_A sout2_A_0 accAt2; (try dsimp only)
    refine (sep_mono_left (PhiS2_forget V c _ _)).trans ?_
    rw [PhiA2_eq]
    iintro ⟨⟨⟨HS0, HR⟩, Hg⟩, Ho, ⟨%d0, H0⟩, ⟨%d1, H1⟩, ⟨%d2, H2⟩⟩
    iapply ((kernelRun2_A c (grid2.coords t) _ _ _ _ _ _ _ _ hc0 hc1 (iblk2 V c 0 t) (iblk2 V c 1 t)).2.2 _ Set.univ _)
    iframe H0 H1 H2 HS0
    iintro ⟨H0, H1, H2, ⟨%es0, HS0⟩⟩
    ihave HS0 := owns_of_cover VS2_0 (scover2_A_0 c _ _ _ _ _ _ _ _ _ _ _ _ _) $$ HS0
    iframe
    iexists _; iexact H2
  · have h0 : ¬t.val % 8 = 0 := fun h => hc0 ((hcond2_0 t).mpr h)
    rw [PhiS2_pos V c _ _ fun e => h0 (by rw [e])]
    by_cases hc1 : cond2_1 (grid2.coords t)
    · rw [show (dat2 V c).leavesExact 2 t = owns (c : Thread nD τ) (ms2_2 t) fullShare ((dat2 V c).after 2 t) from by
        unfold Dat.leavesExact; rw [liveAt2_2_C t hc0 hc1], after2_2, outsAt2_C V c t h0 ((hcond2_1 t).mp hc1)]
      unfold leaves2_C out2_C_2 sout2_C_0 accAt2; (try dsimp only)
      iintro ⟨⟨⟨HS0, HR⟩, Hg⟩, Ho, ⟨%d0, H0⟩, ⟨%d1, H1⟩, ⟨%d2, H2⟩⟩
      iapply ((kernelRun2_C c (grid2.coords t) _ _ _ _ _ _ _ _ hc0 hc1 (iblk2 V c 0 t) (iblk2 V c 1 t) _).2.2 Set.univ _)
      iframe H0 H1 HS0
      isplitl [H2]; · iexists _; iexact H2
      iintro ⟨H0, H1, ⟨%e2, H2⟩, ⟨%es0, HS0⟩⟩
      ihave HS0 := owns_of_cover VS2_0 (scover2_C_0 c _ _ _ _ _ _ _ _ _ _ _ _ _ _) $$ HS0
      ihave H2 := owns_of_cover VO2_2 (cover2_C_2 c _ _ _ _ _ _ _ _ _ _ _ _ _ _) $$ H2
      iframe
    · rw [Dat.leavesExact_idle (dat2 V c) 2 t (idleAt2_2_B t hc0 hc1) (noFlush2_2_B t hc0 hc1), outsAt2_B V c t h0 fun h => hc1 ((hcond2_1 t).mpr h)]
      unfold leaves2_B sout2_B_0 accAt2; (try dsimp only)
      iintro ⟨⟨⟨HS0, HR⟩, Hg⟩, Ho, ⟨%d0, H0⟩, ⟨%d1, H1⟩, ⟨%d2, H2⟩⟩
      iapply ((kernelRun2_B c (grid2.coords t) _ _ _ _ _ _ _ _ hc0 hc1 (iblk2 V c 0 t) (iblk2 V c 1 t) _).2.2 _ Set.univ _)
      iframe H0 H1 H2 HS0
      iintro ⟨H0, H1, H2, ⟨%es0, HS0⟩⟩
      ihave HS0 := owns_of_cover VS2_0 (scover2_B_0 c _ _ _ _ _ _ _ _ _ _ _ _ _ _) $$ HS0
      iframe
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 :=
  Entails.refl _

theorem hout2 (c : Dev nD) : (dat2 V c).Φ (Fin.last cfg2.N) ⊢ Pipeline.ΦA spec2 c :=
  PhiS2_forget V c (Fin.last cfg2.N).val _

end Cert.Kernel.Hand

end
-- ==== Proof.K.R3Runs.lean ====
import proofs.«114212_j498216206442_1_alg».proof.Proof.K.Common

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem blockOf3_eq {c : Dev nD} (dat : Pipeline.Dat τ (Elt F) Unit ℕ (Pipeline.UD sig nD τ) ℕ cfg3 c) (w : Fin cfg3.W) (hA : dat.A w = V c (Pipeline.arrRef spec3 w)) (t : Fin cfg3.N) :
    dat.blockOf w t = iblk3 V c w t := by
  unfold Pipeline.Dat.blockOf iblk3; rw [hA]

section
variable {c : Dev nD} (dat : Pipeline.Dat τ (Elt F) Unit ℕ (Pipeline.UD sig nD τ) ℕ cfg3 c)

theorem before3_0_of (hA : dat.A 0 = V c (Pipeline.arrRef spec3 0)) (hafter : ∀ t, dat.after 0 t = iblk3 V c 0 t) (t : Fin cfg3.N) (d) :
    dat.before 0 t d = iblk3 V c 0 t :=
  (dat.before_in_eq_fetched 0 rfl (fun _ => rfl) (fun _ _ _ => rfl) (fun t => (hafter t).trans (blockOf3_eq V dat 0 hA t).symm) t d).trans (blockOf3_eq V dat 0 hA t)
theorem before3_1_of (hA : dat.A 1 = V c (Pipeline.arrRef spec3 1)) (hafter : ∀ t, dat.after 1 t = iblk3 V c 1 t) (t : Fin cfg3.N) (d) :
    dat.before 1 t d = iblk3 V c 1 t :=
  (dat.before_in_eq_fetched 1 rfl (fun _ => rfl) (fun _ _ _ => rfl) (fun t => (hafter t).trans (blockOf3_eq V dat 1 hA t).symm) t d).trans (blockOf3_eq V dat 1 hA t)
theorem before3_2_of (hA : dat.A 2 = V c (Pipeline.arrRef spec3 2)) (hafter : ∀ t, dat.after 2 t = iblk3 V c 2 t) (t : Fin cfg3.N) (d) :
    dat.before 2 t d = iblk3 V c 2 t :=
  (dat.before_in_eq_fetched 2 rfl (fun _ => rfl) (fun _ _ _ => rfl) (fun t => (hafter t).trans (blockOf3_eq V dat 2 hA t).symm) t d).trans (blockOf3_eq V dat 2 hA t)

end

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 4 = 0 := by decide +kernel

abbrev VO3_3 : View sig .tc .vmem S128x128 .f32 := (Memref.whole cc3_stg3_0 : Memref sig .tc .vmem S128x128 .f32).view
abbrev VO3_4 : View sig .tc .vmem S128x128 .f32 := (Memref.whole cc3_stg4_0 : Memref sig .tc .vmem S128x128 .f32).view

abbrev ms3_0 (t : Fin cfg3.N) : Memref sig .tc .vmem S2048x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x128 .f32 := win3_4.stage (cfg3.slots t 4)
abbrev hs3_4 (t : Fin cfg3.N) : (ms3_4 t).IsWhole := hstage3_4 ((cfg3.slots t 4).cast nbuf3_4)

end Cert.Kernel.Hand
-- ==== Proof.K.R3RunA.lean ====
import proofs.«114212_j498216206442_1_alg».proof.Proof.K.R3Runs

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun3_A (c : Dev nD) (i : grid3.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x128 .f32) (harg4 : arg4.IsWhole)
    (arg5 : Memref sig .tc .vmem S128x128 .f32) (harg5 : arg5.IsWhole) (hc0 : cond3_0 i)
    (x0 x1 x2 : Vec F S2048x128 .f32) :
    Σ' (L3 : List (View.Piece (Elt F) S128x128 .f32)), { L4 : List (View.Piece (Elt F) S128x128 .f32) //
      ∀ (E : Set ℕ) (K : PUnit → sProp 𝕄),
        iprop(owns c.tc arg1 fullShare x0 ∗ owns c.tc arg2 fullShare x1 ∗ owns c.tc arg3 fullShare x2
            ∗ (∃ d, owns c.tc arg4 fullShare d) ∗ (∃ d, owns c.tc arg5 fullShare d)
            ∗ (iprop(owns c.tc arg1 fullShare x0 ∗ owns c.tc arg2 fullShare x1 ∗ owns c.tc arg3 fullShare x2
                ∗ (∃ f, arg4.view.loc c.tc ↦[arg4.view.set]{fullShare} arg4.view.writes (Elt F) f L3)
                ∗ (∃ f, arg5.view.loc c.tc ↦[arg5.view.set]{fullShare} arg5.view.writes (Elt F) f L4)) -∗ K ⟨⟩))
          ⊢ wp frame (wpE (defs₀ (F := F)) Variants.none c none) E (cc3__pool_kernel i arg1 harg1 arg2 harg2 arg3 harg3 arg4 harg4 arg5 harg5) K } := by
  refine ⟨?_, ?_, fun E K => ?run⟩
  case run =>
    simp only [cc3__pool_kernel_eq_skeleton, owns_unread harg1, owns_unread harg2, owns_unread harg3]; unfold cc3__pool_kernel_skel
    unfold owns
    iintro ⟨H0, H1, H2, ⟨%d3, %f3, -, H3⟩, ⟨%d4, %f4, -, H4⟩, Hk⟩
    sl_exec (disch := first | exact hc0)
    sl_step
    iapply Hk
    iframe
    isplitl [H3]
    · iexists _; iexact H3
    iexists _; iexact H4

end Cert.Kernel.Hand
-- ==== Proof.K.R3RunB.lean ====
import proofs.«114212_j498216206442_1_alg».proof.Proof.K.R3RunA

namespace Cert.Kernel.Hand

open Cert.Kernel Cert.Kernel.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun3_B (c : Dev nD) (i : grid3.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x128 .f32) (harg4 : arg4.IsWhole)
    (arg5 : Memref sig .tc .vmem S128x128 .f32) (harg5 : arg5.IsWhole) (hc0 : ¬cond3_0 i)
    (x0 x1 x2 : Vec F S2048x128 .f32) (xo3 xo4 : Vec F S128x128 .f32) :
    Σ' (L3 : List (View.Piece (Elt F) S128x128 .f32)), { L4 : List (View.Piece (Elt F) S128x128 .f32) //
      ∀ (E : Set ℕ) (K : PUnit → sProp 𝕄),
        iprop(owns c.tc arg1 fullShare x0 ∗ owns c.tc arg2 fullShare x1 ∗ owns c.tc arg3 fullShare x2
            ∗ owns c.tc arg4 fullShare xo3 ∗ owns c.tc arg5 fullShare xo4
            ∗ (iprop(owns c.tc arg1 fullShare x0 ∗ owns c.tc arg2 fullShare x1 ∗ owns c.tc arg3 fullShare x2
                ∗ (∃ f, arg4.view.loc c.tc ↦[arg4.view.set]{fullShare} arg4.view.writes (Elt F) f L3)
                ∗ (∃ f, arg5.view.loc c.tc ↦[arg5.view.set]{fullShare} arg5.view.writes (Elt F) f L4)) -∗ K ⟨⟩))
          ⊢ wp frame (wpE (defs₀ (F := F)) Variants.none c none) E (cc3__pool_kernel i arg1 harg1 arg2 harg2 arg3 harg3 arg4 harg4 arg5 harg5) K } := by
  refine ⟨?_, ?_, fun E K => ?run⟩
  case run =>
    simp only [cc3__pool_kernel_eq_skeleton, owns_unread harg1, owns_unread harg2, owns_unread harg3, owns_unread harg4, owns_unread harg5]; unfold cc3__pool_kernel_skel
    iintro ⟨H0, H1, H2, H3, H4, Hk⟩
    sl_exec (disch := first | exact hc0)
    sl_step
    iapply Hk
    iframe
    isplitl [H3]
    · iexists _; iexact H3
    iexists _; iexact H4

end Cert.Kernel.Hand
-- ==== Proof.K.R3Dat.lean ====
import proofs.«114212_j498216206442_1_alg».proof.Proof.K.R3RunB

noncomputable section

namespace Cert.Kernel.Hand

open Cert.Kernel Cert.Kernel.Gen
open Idealize ShloMosaic ShloMosaic.TcCoe ShloMosaic.Tactic SL SL.RA SL.BI SL.BI.BIBase SL.ProofMode SL.Sem
open ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

section
variable (c : Dev nD) (i : grid3.Coords) (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x128 .f32) (harg4 : arg4.IsWhole)
    (arg5 : Memref sig .tc .vmem S128x128 .f32) (harg5 : arg5.IsWhole)

section
variable (hc0 : cond3_0 i) (x0 x1 x2 : Vec F S2048x128 .f32)

theorem cover3_A_3 (y : S128x128.Idx) : ∃ pc ∈ (kernelRun3_A c i arg1 harg1 arg2 harg2 arg3 harg3 arg4 harg4 arg5 harg5 hc0 x0 x1 x2).1, y ∈ pc.1.set :=
  View.cover_of_tiledL _ S128x128.size (by sl_kernel_rfl) y

def out3_A_3 : Vec F S128x128 .f32 :=
  VO3_3.read (Elt F) (VO3_3.writes (Elt F) VO3_3.junk (kernelRun3_A c i arg1 harg1 arg2 harg2 arg3 harg3 arg4 harg4 arg5 harg5 hc0 x0 x1 x2).1)

theorem cover3_A_4 (y : S128x128.Idx) : ∃ pc ∈ (kernelRun3_A c i arg1 harg1 arg2 harg2 arg3 harg3 arg4 harg4 arg5 harg5 hc0 x0 x1 x2).2.1, y ∈ pc.1.set :=
  View.cover_of_tiledL _ S128x128.size (by sl_kernel_rfl) y

def out3_A_4 : Vec F S128x128 .f32 :=
  VO3_4.read (Elt F) (VO3_4.writes (Elt F) VO3_4.junk (kernelRun3_A c i arg1 harg1 arg2 harg2 arg3 harg3 arg4 harg4 arg5 harg5 hc0 x0 x1 x2).2.1)

end

variable (hc0 : ¬cond3_0 i) (x0 x1 x2 : Vec F S2048x128 .f32) (xo3 xo4 : Vec F S128x128 .f32)

theorem cover3_B_3 (y : S128x128.Idx) : ∃ pc ∈ (kernelRun3_B c i arg1 harg1 arg2 harg2 arg3 harg3 arg4 harg4 arg5 harg5 hc0 x0 x1 x2 xo3 xo4).1, y ∈ pc.1.set :=
  View.cover_of_tiledL _ S128x128.size (by sl_kernel_rfl) y

def out3_B_3 : Vec F S128x128 .f32 :=
  VO3_3.read (Elt F) (VO3_3.writes (Elt F) VO3_3.junk (kernelRun3_B c i arg1 harg1 arg2 harg2 arg3 harg3 arg4 harg4 arg5 harg5 hc0 x0 x1 x2 xo3 xo4).1)

theorem cover3_B_4 (y : S128x128.Idx) : ∃ pc ∈ (kernelRun3_B c i arg1 harg1 arg2 harg2 arg3 harg3 arg4 harg4 arg5 harg5 hc0 x0 x1 x2 xo3 xo4).2.1, y ∈ pc.1.set :=
  View.cover_of_tiledL _ S128x128.size (by sl_kernel_rfl) y

def out3_B_4 : Vec F S128x128 .f32 :=
  VO3_4.read (Elt F) (VO3_4.writes (Elt F) VO3_4.junk (kernelRun3_B c i arg1 harg1 arg2 harg2 arg3 harg3 arg4 harg4 arg5 harg5 hc0 x0 x1 x2 xo3 xo4).2.1)

end

theorem not_cond3_0_succ (n : ℕ) (hn : n + 1 < cfg3.N) : ¬cond3_0 (grid3.coords ⟨n + 1, hn⟩) := fun h => by
  have h4 := (hcond3_0 ⟨n + 1, hn⟩).mp h
  have hN : n + 1 < 4 := lt_of_lt_of_eq hn (show cfg3.N = 4 from N_3)
  dsimp only at h4; omega

theorem not_cond3_0_of_ne (t : Fin cfg3.N) (h0 : t.val ≠ 0) : ¬cond3_0 (grid3.coords t) := fun h => by
  have h4 := (hcond3_0 t).mp h
  have hN : t.val < 4 := lt_of_lt_of_eq t.isLt (show cfg3.N = 4 from N_3)
  omega

theorem cond3_0_of_eq (t : Fin cfg3.N) (h0 : t.val = 0) : cond3_0 (grid3.coords t) := (hcond3_0 t).mpr (by rw [h0])

def outsAt3 (c : Dev nD) : (n : ℕ) → n < cfg3.N → Vec F S128x128 .f32 × Vec F S128x128 .f32
  | 0, hn =>
    (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (cond3_0_of_eq ⟨0, hn⟩ rfl) (iblk3 V c 0 ⟨0, hn⟩) (iblk3 V c 1 ⟨0, hn⟩) (iblk3 V c 2 ⟨0, hn⟩),
     out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (cond3_0_of_eq ⟨0, hn⟩ rfl) (iblk3 V c 0 ⟨0, hn⟩) (iblk3 V c 1 ⟨0, hn⟩) (iblk3 V c 2 ⟨0, hn⟩))
  | n + 1, hn =>
    (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (not_cond3_0_succ n hn) (iblk3 V c 0 ⟨n + 1, hn⟩) (iblk3 V c 1 ⟨n + 1, hn⟩) (iblk3 V c 2 ⟨n + 1, hn⟩)
        (outsAt3 c n (Nat.lt_of_succ_lt hn)).1 (outsAt3 c n (Nat.lt_of_succ_lt hn)).2,
     out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (not_cond3_0_succ n hn) (iblk3 V c 0 ⟨n + 1, hn⟩) (iblk3 V c 1 ⟨n + 1, hn⟩) (iblk3 V c 2 ⟨n + 1, hn⟩)
        (outsAt3 c n (Nat.lt_of_succ_lt hn)).1 (outsAt3 c n (Nat.lt_of_succ_lt hn)).2)

theorem outsAt3_A (c : Dev nD) (t : Fin cfg3.N) (h0 : t.val = 0) :
    outsAt3 V c t.val t.isLt =
      (out3_A_3 c (grid3.coords t) (ms3_0 t) (hs3_0 t) (ms3_1 t) (hs3_1 t) (ms3_2 t) (hs3_2 t) (ms3_3 t) (hs3_3 t) (ms3_4 t) (hs3_4 t) (cond3_0_of_eq t h0) (iblk3 V c 0 t) (iblk3 V c 1 t) (iblk3 V c 2 t),
       out3_A_4 c (grid3.coords t) (ms3_0 t) (hs3_0 t) (ms3_1 t) (hs3_1 t) (ms3_2 t) (hs3_2 t) (ms3_3 t) (hs3_3 t) (ms3_4 t) (hs3_4 t) (cond3_0_of_eq t h0) (iblk3 V c 0 t) (iblk3 V c 1 t) (iblk3 V c 2 t)) := by
  obtain ⟨n, hn⟩ := t
  cases n with
  | zero => rfl
  | succ n => exact absurd h0 (Nat.succ_ne_zero n)

theorem outsAt3_B (c : Dev nD) (t : Fin cfg3.N) (h0 : t.val ≠ 0) :
    outsAt3 V c t.val t.isLt =
      (out3_B_3 c (grid3.coords t) (ms3_0 t) (hs3_0 t) (ms3_1 t) (hs3_1 t) (ms3_2 t) (hs3_2 t) (ms3_3 t) (hs3_3 t) (ms3_4 t) (hs3_4 t) (not_cond3_0_of_ne t h0) (iblk3 V c 0 t) (iblk3 V c 1 t) (iblk3 V c 2 t)
          (outsAt3 V c (t.val - 1) (Nat.lt_of_le_of_lt (Nat.sub_le _ _) t.isLt)).1 (outsAt3 V c (t.val - 1) (Nat.lt_of_le_of_lt (Nat.sub_le _ _) t.isLt)).2,
       out3_B_4 c (grid3.coords t) (ms3_0 t) (hs3_0 t) (ms3_1 t) (hs3_1 t) (ms3_2 t) (hs3_2 t) (ms3_3 t) (hs3_3 t) (ms3_4 t) (hs3_4 t) (not_cond3_0_of_ne t h0) (iblk3 V c 0 t) (iblk3 V c 1 t) (iblk3 V c 2 t)
          (outsAt3 V c (t.val - 1) (Nat.lt_of_le_of_lt (Nat.sub_le _ _) t.isLt)).1 (outsAt3 V c (t.val - 1) (Nat.lt_of_le_of_lt (Nat.sub_le _ _) t.isLt)).2) := by
  obtain ⟨n, hn⟩ := t
  cases n with
  | zero => exact absurd rfl h0
  | succ n => rfl

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2 := by dsimp only [dat3]

theorem before3_0 (c : Dev nD) (t : Fin cfg3.N) (d) : (dat3 V c).before 0 t d = iblk3 V c 0 t :=
  before3_0_of V (dat3 V c) (A_eq3 V c 0) (fun _ => rfl) t d
theorem before3_1 (c : Dev nD) (t : Fin cfg3.N) (d) : (dat3 V c).before 1 t d = iblk3 V c 1 t :=
  before3_1_of V (dat3 V c) (A_eq3 V c 1) (fun _ => rfl) t d
theorem before3_2 (c : Dev nD) (t : Fin cfg3.N) (d) : (dat3 V c).before 2 t d = iblk3 V c 2 t :=
  before3_2_of V (dat3 V c) (A_eq3 V c 2) (fun _ => rfl) t d

theorem before3_3_B (c : Dev nD) (t : Fin cfg3.N) (h0 : t.val ≠ 0) (d) :
    (dat3 V c).before 3 t d = (outsAt3 V c (t.val - 1) (Nat.lt_of_le_of_lt (Nat.sub_le _ _) t.isLt)).1 := by
  have hN : t.val < 4 := lt_of_lt_of_eq t.isLt (show cfg3.N = 4 from N_3)
  rw [Dat.before_out_kept _ 3 rfl t h0 (Bool.eq_false_iff.mpr fun h => by have := (flush3_3 _).mp h; dsimp only at this; omega)
    (fun _ => rfl) (fun _ _ => rfl)]
  dsimp only [dat3]

theorem before3_4_B (c : Dev nD) (t : Fin cfg3.N) (h0 : t.val ≠ 0) (d) :
    (dat3 V c).before 4 t d = (outsAt3 V c (t.val - 1) (Nat.lt_of_le_of_lt (Nat.sub_le _ _) t.isLt)).2 := by
  have hN : t.val < 4 := lt_of_lt_of_eq t.isLt (show cfg3.N = 4 from N_3)
  rw [Dat.before_out_kept _ 4 rfl t h0 (Bool.eq_false_iff.mpr fun h => by have := (flush3_4 _).mp h; dsimp only at this; omega)
    (fun _ => rfl) (fun _ _ => rfl)]
  dsimp only [dat3]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.castSucc ∗ (dat3 V c).owesAt () t.castSucc
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (outsAt3 V c t.val t.isLt).1
    ∗ owns (c : Thread nD τ) (ms3_4 t) fullShare (outsAt3 V c t.val t.isLt).2)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  by_cases h0 : t.val = 0
  · rw [outsAt3_A V c t h0]; dsimp only
    unfold out3_A_3 out3_A_4
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ (cond3_0_of_eq t h0) (iblk3 V c 0 t) (iblk3 V c 1 t) (iblk3 V c 2 t)).2.2 Set.univ _)
    iframe H0 H1 H2
    isplitl [H3]; · iexists _; iexact H3
    isplitl [H4]; · iexists _; iexact H4
    iintro ⟨H0, H1, H2, ⟨%e3, H3⟩, ⟨%e4, H4⟩⟩
    ihave H3 := owns_of_cover VO3_3 (cover3_A_3 c _ _ _ _ _ _ _ _ _ _ _ _ _ _ _) $$ H3
    ihave H4 := owns_of_cover VO3_4 (cover3_A_4 c _ _ _ _ _ _ _ _ _ _ _ _ _ _ _) $$ H4
    iframe
  · rw [outsAt3_B V c t h0]; dsimp only
    simp only [before3_3_B V c t h0, before3_4_B V c t h0]
    unfold out3_B_3 out3_B_4
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (not_cond3_0_of_ne t h0) (iblk3 V c 0 t) (iblk3 V c 1 t) (iblk3 V c 2 t) _ _).2.2 Set.univ _)
    iframe H0 H1 H2 H3 H4
    iintro ⟨H0, H1, H2, ⟨%e3, H3⟩, ⟨%e4, H4⟩⟩
    ihave H3 := owns_of_cover VO3_3 (cover3_B_3 c _ _ _ _ _ _ _ _ _ _ _ _ _ _ _ _ _) $$ H3
    ihave H4 := owns_of_cover VO3_4 (cover3_B_4 c _ _ _ _ _ _ _ _ _ _ _ _ _ _ _ _ _) $$ H4
    iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = Pipeline.ΦA spec3 c from rfl]

end Cert.Kernel.Hand

end
-- ==== Proof.K.Launch.lean ====
import proofs.«114212_j498216206442_1_alg».proof.Proof.K.R0Dat
import proofs.«114212_j498216206442_1_alg».proof.Proof.K.R1Dat
import proofs.«114212_j498216206442_1_alg».proof.Proof.K.R2Dat
import proofs.«114212_j498216206442_1_alg».proof.Proof.K.R3Dat
import proofs.«114212_j498216206442_1_alg».proof.Proof.Gen.Kernel.Regions
import Idealize.ShloMosaic.Lib.Pipeline.Frame
import Idealize.ShloMosaic.Lib.Pipeline.Regions

noncomputable section

namespace Cert.Kernel.Hand

open Idealize ShloMosaic ShloMosaic.TcCoe ShloMosaic.Tactic SL SL.RA SL.BI SL.BI.BIBase SL.BI.Laws SL.ProofMode SL.Sem ShloMosaic.Rounds
open Idealize.ShloMosaic.Pipeline (Dat BodyObligation)
open Cert.Kernel.Gen

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

abbrev B0 (c : Dev nD) : Valuation τ sig (Elt F) := fun b => m (c, b)
abbrev T0 : (c : Dev nD) → (b : Ref sig .tc) → Buf (Elt F) ((c : Thread nD τ).loc b) := fun c b => B0 m c b

def B1 (c : Dev nD) : Valuation τ sig (Elt F) :=
  Function.update (B0 m c) main_v0 ((dat0 (T0 m) c).arrAt 1 cfg0.N)
abbrev T1 : (c : Dev nD) → (b : Ref sig .tc) → Buf (Elt F) ((c : Thread nD τ).loc b) := fun c b => B1 m c b

def B2 (c : Dev nD) : Valuation τ sig (Elt F) := StableHlo.after hostOps1 (B1 m c)
abbrev T2 : (c : Dev nD) → (b : Ref sig .tc) → Buf (Elt F) ((c : Thread nD τ).loc b) := fun c b => B2 m c b

def B3 (c : Dev nD) : Valuation τ sig (Elt F) :=
  Function.update (Function.update (B2 m c) main_v6_0 ((dat1 (T2 m) c).arrAt 8 cfg1.N)) main_v6_1 ((dat1 (T2 m) c).arrAt 9 cfg1.N)
abbrev T3 : (c : Dev nD) → (b : Ref sig .tc) → Buf (Elt F) ((c : Thread nD τ).loc b) := fun c b => B3 m c b

def B4 (c : Dev nD) : Valuation τ sig (Elt F) :=
  Function.update (B3 m c) main_v7 ((dat2 (T3 m) c).arrAt 2 cfg2.N)
abbrev T4 : (c : Dev nD) → (b : Ref sig .tc) → Buf (Elt F) ((c : Thread nD τ).loc b) := fun c b => B4 m c b

def B5 (c : Dev nD) : Valuation τ sig (Elt F) :=
  Function.update (Function.update (B4 m c) main_v8_0 ((dat3 (T4 m) c).arrAt 3 cfg3.N)) main_v8_1 ((dat3 (T4 m) c).arrAt 4 cfg3.N)
abbrev T5 : (c : Dev nD) → (b : Ref sig .tc) → Buf (Elt F) ((c : Thread nD τ).loc b) := fun c b => B5 m c b

theorem B1_v0 (c : Dev nD) : B1 m c main_v0 = (dat0 (T0 m) c).arrAt 1 cfg0.N := by
  unfold B1; exact Function.update_self _ _ _
theorem B1_of (c : Dev nD) (r : Ref sig .tc) (h : r ≠ main_v0) : B1 m c r = B0 m c r := by
  unfold B1; exact Function.update_of_ne (StableHlo.devRef_ne_of_ne h) _ _
theorem B2_of (c : Dev nD) (r : Ref sig .tc) (h : r ∉ hostOps1_W) : B2 m c r = B1 m c r :=
  StableHlo.after_of_writes_sub hostOps1 _ hostOps1_writes h
theorem B3_v6_1 (c : Dev nD) : B3 m c main_v6_1 = (dat1 (T2 m) c).arrAt 9 cfg1.N := by
  unfold B3; exact Function.update_self _ _ _
theorem B3_v6_0 (c : Dev nD) : B3 m c main_v6_0 = (dat1 (T2 m) c).arrAt 8 cfg1.N := by
  unfold B3
  rw [Function.update_of_ne (StableHlo.devRef_ne_of_ne (by decide : (main_v6_0 : Ref sig .tc) ≠ main_v6_1))]
  exact Function.update_self _ _ _
theorem B3_of (c : Dev nD) (r : Ref sig .tc) (h0 : r ≠ main_v6_0) (h1 : r ≠ main_v6_1) : B3 m c r = B2 m c r := by
  unfold B3
  rw [Function.update_of_ne (StableHlo.devRef_ne_of_ne h1), Function.update_of_ne (StableHlo.devRef_ne_of_ne h0)]
theorem B4_v7 (c : Dev nD) : B4 m c main_v7 = (dat2 (T3 m) c).arrAt 2 cfg2.N := by
  unfold B4; exact Function.update_self _ _ _
theorem B4_of (c : Dev nD) (r : Ref sig .tc) (h : r ≠ main_v7) : B4 m c r = B3 m c r := by
  unfold B4; exact Function.update_of_ne (StableHlo.devRef_ne_of_ne h) _ _
theorem B5_v8_1 (c : Dev nD) : B5 m c main_v8_1 = (dat3 (T4 m) c).arrAt 4 cfg3.N := by
  unfold B5; exact Function.update_self _ _ _
theorem B5_v8_0 (c : Dev nD) : B5 m c main_v8_0 = (dat3 (T4 m) c).arrAt 3 cfg3.N := by
  unfold B5
  rw [Function.update_of_ne (StableHlo.devRef_ne_of_ne (by decide : (main_v8_0 : Ref sig .tc) ≠ main_v8_1))]
  exact Function.update_self _ _ _
theorem B5_of (c : Dev nD) (r : Ref sig .tc) (h0 : r ≠ main_v8_0) (h1 : r ≠ main_v8_1) : B5 m c r = B4 m c r := by
  unfold B5
  rw [Function.update_of_ne (StableHlo.devRef_ne_of_ne h1), Function.update_of_ne (StableHlo.devRef_ne_of_ne h0)]

def pdats : (p : Fin 4) → (c : Dev nD) → Dat τ (Elt F) Unit ℕ (Pipeline.UD sig nD τ) ℕ (Pipeline.pin (pcfgs (F := F)) adm p) c
  | ⟨0, _⟩ => fun c => dat0 (T0 m) c
  | ⟨1, _⟩ => fun c => dat1 (T2 m) c
  | ⟨2, _⟩ => fun c => dat2 (T3 m) c
  | ⟨3, _⟩ => fun c => dat3 (T4 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev heldAt (c : Dev nD) (B : Valuation τ sig (Elt F)) : sProp 𝕄 := StableHlo.held (c : Thread nD τ) (Pipeline.ucRefs τ sig) B

abbrev hseg1 : Pipeline.HostSeg (Name := ℕ) (U := Pipeline.UD sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(heldAt c (B5 m c) ∗ ∃ r, prngReg c r)

section
variable {p : Fin 4} (lf : Pipeline.LaunchFacts (nD := nD) (τ := τ) cfgs p) (Bi Bo : Dev nD → Valuation τ sig (Elt F))
  (hb : ∀ c, BodyObligation (pdats m p c) (defs₀ (F := F)) Variants.none () Set.univ)
  (hq : ∀ c w, (pdats m p c).q w = fullShare)
  (hA : ∀ c w, (pdats m p c).A w = Bi c (Pipeline.arrRef (Pipeline.pin (pcfgs (F := F)) adm p).spec w))
  (hF : ∀ c w, (pdats m p c).arrAt w (Pipeline.pin (pcfgs (F := F)) adm p).N = Bo c (Pipeline.arrRef (Pipeline.pin (pcfgs (F := F)) adm p).spec w))
  (hr : ∀ c b, b ∉ Finset.univ.image (Pipeline.arrRef (Pipeline.pin (pcfgs (F := F)) adm p).spec) → Bo c b = Bi c b)
  (hi : ∀ c, Pipeline.ΦA (Pipeline.pin (pcfgs (F := F)) adm p).spec c ⊢ (pdats m p c).Φ 0)
  (ho : ∀ c, (pdats m p c).Φ (Fin.last _) ⊢ Pipeline.ΦA (Pipeline.pin (pcfgs (F := F)) adm p).spec c)
  (h0 : ∀ c t, (pdats m p c).owed t = 0) (hrec : ∀ c t, (pdats m p c).recorded t = Set.univ)

set_option backward.isDefEq.respectTransparency.types false in
-- A region whose windows sit on distinct whole arrays: it takes them out of the valuation it is entered with and puts them back at the one it leaves.
def regOf : Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(heldAt c (Bi c) ∗ R c)
  post c := iprop(heldAt c (Bo c) ∗ R c)
  X c := iprop(∃ r, prngReg c r)
  Y c := iprop(∃ r, prngReg c r)
  Z c := Pipeline.unscopedRest (Ix := Unit) (Name := ℕ) (U := Pipeline.UD sig nD τ) (Lvl := ℕ) (Pipeline.pin (pcfgs (F := F)) adm p).spec c (fun b => Bi c b)
  hentry c := by
    rw [Pipeline.ownSems0_none]
    have hsplit := Pipeline.arrays_of_unscopedBufs (p := p) (pcfgs (F := F)) adm (pdats m) lf.win lf.arr_whole c
      ((pdats m p c).share_full (hq c)) (fun b => Bi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun _ _ => Or.inl (by rw [hrec c]; trivial)
      iexact HO
    isplitl [Hp]; · iexact Hp
    iexact Hrest
  hin c := by
    refine Idealize.SL.BI.BIBase.Entails.trans ?_ (hi c)
    unfold Pipeline.ΦA
    iintro ⟨Hp, -, Hr⟩
    isplitl [Hr]; · iexact Hr
    iexact Hp
  hout c := by
    rw [Pipeline.ownSems0_none]
    refine Idealize.SL.BI.BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := Pipeline.UD sig nD τ) (Lvl := ℕ)
      lf.win lf.arr_whole c (pdats m) ((pdats m p c).share_full (hq c))
      (fun b => Bi c b) (fun b => Bo c b) ((pdats m p c).arrAt · (Pipeline.pin (pcfgs (F := F)) adm p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

end

theorem hF0 (c : Dev nD) : ∀ w : Fin cfg0.W, (dat0 (T0 m) c).arrAt w cfg0.N = T1 m c (Pipeline.arrRef spec0 w)
  | ⟨0, _⟩ => ((dat0 (T0 m) c).arrAt_in 0 rfl _).trans ((A_eq0 (T0 m) c 0).trans (B1_of m c main_arg1 (by decide)).symm)
  | ⟨1, _⟩ => (B1_v0 m c).symm
theorem hrest0 (c : Dev nD) : ∀ b, b ∉ Finset.univ.image (Pipeline.arrRef spec0) → T1 m c b = T0 m c b :=
  fun b hb => B1_of m c b fun e => hb (Finset.mem_image.mpr ⟨1, Finset.mem_univ _, e.symm⟩)

set_option backward.isDefEq.respectTransparency.types false in
def reg0 : Pipeline.RegionSeg (pcfgs (F := F)) adm (pdats m) () defs₀ 𝒱₀ L lv 0 :=
  regOf m launch0 (B0 m) (B1 m) (body_obligation0 (T0 m)) (fun _ _ => rfl) (A_eq0 (T0 m)) (hF0 m) (hrest0 m)
    (hin0 (T0 m)) (hout0 (T0 m)) (fun _ _ => rfl) (fun _ _ => rfl)

open Idealize.SL.BI (bigSepL bigSep_eq_bigSepL_of_eq)

abbrev pt (c : Dev nD) (b : Ref sig .tc) (q : PosShare TreeShare) (f : Buf (Elt F) ((c : Thread nD τ).loc b)) : sProp 𝕄 :=
  ((c : Thread nD τ).loc b) ↦{q} f

theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄) = iprop(pt c main_arg1 fullShare (G 0) ∗ pt c main_v1 fullShare.left (G 1) ∗ pt c main_v1 fullShare.right (G 2)
      ∗ pt c main_v0 fullShare (G 3) ∗ pt c main_v2 fullShare (G 4) ∗ pt c main_v4 fullShare (G 5) ∗ pt c main_v3 fullShare (G 6)
      ∗ pt c main_v5 fullShare (G 7) ∗ pt c main_v6_0 fullShare (G 8) ∗ pt c main_v6_1 fullShare (G 9)) := by
  unfold Dat.arrays
  rw [bigSep_W1]
  rw [(arr_whole1 0).set_eq_univ, (arr_whole1 1).set_eq_univ, (arr_whole1 3).set_eq_univ, (arr_whole1 4).set_eq_univ,
    (arr_whole1 5).set_eq_univ, (arr_whole1 6).set_eq_univ, (arr_whole1 7).set_eq_univ, (arr_whole1 8).set_eq_univ, (arr_whole1 9).set_eq_univ]
  rfl

theorem arrBufs1_eq (c : Dev nD) (W : (b : Ref sig .tc) → Buf (Elt F) ((c : Thread nD τ).loc b)) :
    (Pipeline.arrBufs (Ix := Unit) (Name := ℕ) (U := Pipeline.UD sig nD τ) (Lvl := ℕ) spec1 c W : sProp 𝕄)
      = iprop(pt c main_arg1 fullShare (W main_arg1) ∗ pt c main_v1 fullShare (W main_v1) ∗ pt c main_v0 fullShare (W main_v0)
        ∗ pt c main_v2 fullShare (W main_v2) ∗ pt c main_v4 fullShare (W main_v4) ∗ pt c main_v3 fullShare (W main_v3)
        ∗ pt c main_v5 fullShare (W main_v5) ∗ pt c main_v6_0 fullShare (W main_v6_0) ∗ pt c main_v6_1 fullShare (W main_v6_1)) := by
  unfold Pipeline.arrBufs
  rw [bigSep_eq_bigSepL_of_eq [main_arg1, main_v1, main_v0, main_v2, main_v4, main_v3, main_v5, main_v6_0, main_v6_1] (by decide) (by decide)]
  rfl

theorem held_split1 (c : Dev nD) (B : Valuation τ sig (Elt F)) :
    (heldAt c B : sProp 𝕄) = iprop(Pipeline.arrBufs spec1 c (fun b => B b) ∗ Pipeline.unscopedRest spec1 c (fun b => B b)) := by
  exact (Pipeline.unscopedBufs_held c B).symm.trans (Pipeline.unscopedBufs_split₀ (cfgs) 1 winFacts₀1.arr_unscoped c (fun b => B b))

theorem hE1 (c : Dev nD) (w : Fin cfg1.W) : (dat1 (T2 m) c).arrAt w 0 = T2 m c (Pipeline.arrRef spec1 w) := A_eq1 (T2 m) c w

theorem hF1 (c : Dev nD) : ∀ w : Fin cfg1.W, (dat1 (T2 m) c).arrAt w cfg1.N = T3 m c (Pipeline.arrRef spec1 w)
  | ⟨0, _⟩ => ((dat1 (T2 m) c).arrAt_in 0 rfl _).trans ((A_eq1 (T2 m) c 0).trans (B3_of m c main_arg1 (by decide) (by decide)).symm)
  | ⟨1, _⟩ => ((dat1 (T2 m) c).arrAt_in 1 rfl _).trans ((A_eq1 (T2 m) c 1).trans (B3_of m c main_v1 (by decide) (by decide)).symm)
  | ⟨2, _⟩ => ((dat1 (T2 m) c).arrAt_in 2 rfl _).trans ((A_eq1 (T2 m) c 2).trans (B3_of m c main_v1 (by decide) (by decide)).symm)
  | ⟨3, _⟩ => ((dat1 (T2 m) c).arrAt_in 3 rfl _).trans ((A_eq1 (T2 m) c 3).trans (B3_of m c main_v0 (by decide) (by decide)).symm)
  | ⟨4, _⟩ => ((dat1 (T2 m) c).arrAt_in 4 rfl _).trans ((A_eq1 (T2 m) c 4).trans (B3_of m c main_v2 (by decide) (by decide)).symm)
  | ⟨5, _⟩ => ((dat1 (T2 m) c).arrAt_in 5 rfl _).trans ((A_eq1 (T2 m) c 5).trans (B3_of m c main_v4 (by decide) (by decide)).symm)
  | ⟨6, _⟩ => ((dat1 (T2 m) c).arrAt_in 6 rfl _).trans ((A_eq1 (T2 m) c 6).trans (B3_of m c main_v3 (by decide) (by decide)).symm)
  | ⟨7, _⟩ => ((dat1 (T2 m) c).arrAt_in 7 rfl _).trans ((A_eq1 (T2 m) c 7).trans (B3_of m c main_v5 (by decide) (by decide)).symm)
  | ⟨8, _⟩ => (B3_v6_0 m c).symm
  | ⟨9, _⟩ => (B3_v6_1 m c).symm

theorem hrest1 (c : Dev nD) : ∀ b, b ∉ Finset.univ.image (Pipeline.arrRef spec1) → T3 m c b = T2 m c b :=
  fun b hb => B3_of m c b (fun e => hb (Finset.mem_image.mpr ⟨8, Finset.mem_univ _, e.symm⟩))
    (fun e => hb (Finset.mem_image.mpr ⟨9, Finset.mem_univ _, e.symm⟩))

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(heldAt c (B2 m c) ∗ R c)
  post c := iprop(heldAt c (B3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (T2 m c)
  hentry c := by
    rw [Pipeline.ownSems0_none]
    iintro ⟨⟨Hub, Hp, HO⟩, -, -⟩
    ihave H := (Entails.of_eq (held_split1 c (B2 m c))) $$ Hub
    icases H with ⟨Ha, Hrest⟩
    ihave Ha' := (Entails.of_eq (arrBufs1_eq c (T2 m c))) $$ Ha
    icases Ha' with ⟨H0, H1, H3, H4, H5, H6, H7, H8, H9⟩
    ihave H12 := (pointsTo_share (PosShare.mem_left_op_right fullShare)).1 $$ H1
    icases H12 with ⟨H1, H2⟩
    imodintro
    isplitl [H0 H1 H2 H3 H4 H5 H6 H7 H8 H9]
    · rw [show ((pdats m 1 c).arrAt · 0) = fun w => T2 m c (Pipeline.arrRef spec1 w) from funext (hE1 m c)]
      iapply (Entails.of_eq (arrays1_eq (T2 m) c (fun w => T2 m c (Pipeline.arrRef spec1 w))).symm)
      iframe
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdats m 1 c).Φ 0 from hin1 (T2 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 1 c).Φ (Fin.last _) ⊢ Pipeline.ΦA spec1 c from hout1 (T2 m) c) ?_
    unfold Pipeline.ΦA
    iintro ⟨Hr, Hp⟩
    isplitl [Hp]; · iexact Hp
    isplitr; · iempintro
    iexact Hr
  hexit c := by
    have hr : (Pipeline.unscopedRest (Ix := Unit) (Name := ℕ) (U := Pipeline.UD sig nD τ) (Lvl := ℕ) spec1 c (T2 m c) : sProp 𝕄)
        = Pipeline.unscopedRest spec1 c (T3 m c) := by
      unfold Pipeline.unscopedRest
      exact bigSep_congr fun b hb => by rw [hrest1 m c b (Finset.mem_sdiff.mp hb).2]
    have hA : ((pdats m 1 c).arrays ((pdats m 1 c).arrAt · cfg1.N) : sProp 𝕄) = _ :=
      (congrArg (pdats m 1 c).arrays (funext (hF1 m c))).trans (arrays1_eq (T2 m) c (fun w => T3 m c (Pipeline.arrRef spec1 w)))
    iintro ⟨Ha, HO, HY, Hrest⟩
    ihave Ha' := (Entails.of_eq hA) $$ Ha
    icases Ha' with ⟨H0, H1, H2, H3, H4, H5, H6, H7, H8, H9⟩
    ihave H12 := (pointsTo_share (PosShare.mem_left_op_right fullShare)).2 $$ [H1 H2]
    · isplitl [H1]; · iexact H1
      iexact H2
    imodintro
    isplitl [H0 H12 H3 H4 H5 H6 H7 H8 H9 Hrest]
    · iapply (Entails.of_eq (held_split1 c (B3 m c)).symm)
      isplitl [H0 H12 H3 H4 H5 H6 H7 H8 H9]
      · iapply (Entails.of_eq (arrBufs1_eq c (T3 m c)).symm)
        iframe
      iapply (Entails.of_eq hr)
      iexact Hrest
    isplitl [HY]; · iexact HY
    unfold Pipeline.Dat.owesAt Pipeline.owesWithin
    icases HO with ⟨%W, -, HO⟩; iexists W; iexact HO

theorem hF2 (c : Dev nD) : ∀ w : Fin cfg2.W, (dat2 (T3 m) c).arrAt w cfg2.N = T4 m c (Pipeline.arrRef spec2 w)
  | ⟨0, _⟩ => ((dat2 (T3 m) c).arrAt_in 0 rfl _).trans ((A_eq2 (T3 m) c 0).trans (B4_of m c main_arg1 (by decide)).symm)
  | ⟨1, _⟩ => ((dat2 (T3 m) c).arrAt_in 1 rfl _).trans ((A_eq2 (T3 m) c 1).trans (B4_of m c main_v6_1 (by decide)).symm)
  | ⟨2, _⟩ => (B4_v7 m c).symm
theorem hrest2 (c : Dev nD) : ∀ b, b ∉ Finset.univ.image (Pipeline.arrRef spec2) → T4 m c b = T3 m c b :=
  fun b hb => B4_of m c b fun e => hb (Finset.mem_image.mpr ⟨2, Finset.mem_univ _, e.symm⟩)

set_option backward.isDefEq.respectTransparency.types false in
def reg2 : Pipeline.RegionSeg (pcfgs (F := F)) adm (pdats m) () defs₀ 𝒱₀ L lv 2 :=
  regOf m launch2 (B3 m) (B4 m) (body_obligation2 (T3 m)) (fun _ _ => rfl) (A_eq2 (T3 m)) (hF2 m) (hrest2 m)
    (hin2 (T3 m)) (hout2 (T3 m)) (fun _ _ => rfl) (fun _ _ => rfl)

theorem hF3 (c : Dev nD) : ∀ w : Fin cfg3.W, (dat3 (T4 m) c).arrAt w cfg3.N = T5 m c (Pipeline.arrRef spec3 w)
  | ⟨0, _⟩ => ((dat3 (T4 m) c).arrAt_in 0 rfl _).trans ((A_eq3 (T4 m) c 0).trans (B5_of m c main_v6_1 (by decide) (by decide)).symm)
  | ⟨1, _⟩ => ((dat3 (T4 m) c).arrAt_in 1 rfl _).trans ((A_eq3 (T4 m) c 1).trans (B5_of m c main_v6_0 (by decide) (by decide)).symm)
  | ⟨2, _⟩ => ((dat3 (T4 m) c).arrAt_in 2 rfl _).trans ((A_eq3 (T4 m) c 2).trans (B5_of m c main_v7 (by decide) (by decide)).symm)
  | ⟨3, _⟩ => (B5_v8_0 m c).symm
  | ⟨4, _⟩ => (B5_v8_1 m c).symm
theorem hrest3 (c : Dev nD) : ∀ b, b ∉ Finset.univ.image (Pipeline.arrRef spec3) → T5 m c b = T4 m c b :=
  fun b hb => B5_of m c b (fun e => hb (Finset.mem_image.mpr ⟨3, Finset.mem_univ _, e.symm⟩))
    (fun e => hb (Finset.mem_image.mpr ⟨4, Finset.mem_univ _, e.symm⟩))

set_option backward.isDefEq.respectTransparency.types false in
def reg3 : Pipeline.RegionSeg (pcfgs (F := F)) adm (pdats m) () defs₀ 𝒱₀ L lv 3 :=
  regOf m launch3 (B4 m) (B5 m) (body_obligation3 (T4 m)) (fun _ _ => rfl) (A_eq3 (T4 m)) (hF3 m) (hrest3 m)
    (hin3 (T4 m)) (hout3 (T4 m)) (fun _ _ => rfl) (fun _ _ => rfl)

abbrev segs : List (Pipeline.Seg (pcfgs (F := F)) adm (pdats m) () defs₀ 𝒱₀ L lv) :=
  [ .region (reg0 m), .host (hseg1 m), .region (reg1 m), .region (reg2 m), .region (reg3 m) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(heldAt c (B0 m c) ∗ R c)) (Tₙ := Tₙ m)
    (hch := ⟨fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold heldAt StableHlo.held
      imodintro
      iapply (pointsTo_read_all (Pipeline.ucRefs τ sig) (fun b => (((c : Thread nD τ)).1, b)) (B5 m c) s')
      isplitl [Hh] <;> iassumption)
    (hQ := fun s h c => h c)

theorem B5_keep (c : Dev nD) (r : Ref sig .tc) (h0 : r ≠ main_v0) (hW : r ∉ hostOps1_W) (h60 : r ≠ main_v6_0) (h61 : r ≠ main_v6_1)
    (h7 : r ≠ main_v7) (h80 : r ≠ main_v8_0) (h81 : r ≠ main_v8_1) : B5 m c r = m ((c : Thread nD τ).loc r) :=
  (B5_of m c r h80 h81).trans <| (B4_of m c r h7).trans <| (B3_of m c r h60 h61).trans <| (B2_of m c r hW).trans <| (B1_of m c r h0).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B5_keep m c main_arg0 (by decide) (by decide) (by decide) (by decide) (by decide) (by decide) (by decide)),
     (h c _ (mem_uc main_arg1 (by decide))).trans (B5_keep m c main_arg1 (by decide) (by decide) (by decide) (by decide) (by decide) (by decide) (by decide)),
     (h c _ (mem_uc main_arg2 (by decide))).trans (B5_keep m c main_arg2 (by decide) (by decide) (by decide) (by decide) (by decide) (by decide) (by decide)),
     (h c _ (mem_uc main_arg3 (by decide))).trans (B5_keep m c main_arg3 (by decide) (by decide) (by decide) (by decide) (by decide) (by decide) (by decide)),
     (h c _ (mem_uc main_arg4 (by decide))).trans (B5_keep m c main_arg4 (by decide) (by decide) (by decide) (by decide) (by decide) (by decide) (by decide)),
     (h c _ (mem_uc main_arg5 (by decide))).trans (B5_keep m c main_arg5 (by decide) (by decide) (by decide) (by decide) (by decide) (by decide) (by decide))⟩)
    (run_main m ρ)

end Cert.Kernel.Hand

end
-- ==== Proof.KI.Common.lean ====
import proofs.«114212_j498216206442_1_alg».proof.Proof.Gen.KernelIdeal.Launch
import proofs.«114212_j498216206442_1_alg».proof.Proof.Gen.KernelIdeal.Skeleton
import proofs.«114212_j498216206442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

-- A whole memref owned at `x` is its buffer's points-to at the one contents that read back as `x`.
theorem owns_unread {s : Shape} {e : EltTy} {m : Memref sig .tc .vmem s e} (h : m.IsWhole) (c : Dev nD) (x : Vec F s e) :
    (owns c.tc m fullShare x : sProp 𝕄) = (m.view.loc c.tc ↦[m.view.set]{fullShare} h.unread x) := by
  unfold owns
  refine BI.equiv_iff.mp ⟨?_, ?_⟩
  · show (_ : sProp 𝕄) ⊢ _
    iintro ⟨%f, %hf, H⟩; obtain rfl := h.eq_unread hf; iexact H
  · show (_ : sProp 𝕄) ⊢ _
    iintro H; iexists _; isplitr; · ipureintro; exact h.read_unread _
    iexact H

-- Pieces that cover a shape fix what is read back, whatever was there before.
theorem owns_of_cover {c : Dev nD} {s : Shape} {M : Memref sig .tc .vmem s .f32} {g} {L : List (View.Piece (Elt F) s .f32)} (v : View sig .tc .vmem s .f32)
    (h : ∀ y, ∃ pc ∈ L, y ∈ pc.1.set) :
    (M.view.loc (c : Thread nD τ) ↦[M.view.set]{fullShare} M.view.writes (Elt F) g L : sProp 𝕄) ⊢ owns (c : Thread nD τ) M fullShare (v.read (Elt F) (v.writes (Elt F) v.junk L)) := by
  unfold owns; iintro H; iexists M.view.writes (Elt F) g L; isplitr
  · ipureintro; exact View.read_writes_of_cover _ _ _ _ _ h
  · iexact H

end Cert.KernelIdeal.Hand
-- ==== Proof.KI.R0Runs.lean ====
import proofs.«114212_j498216206442_1_alg».proof.Proof.KI.Common

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

abbrev atRowStart0 (i : grid0.Coords) : Prop := (Scalar.cmpi .ne (Scalar.extui (Scalar.cmpi .eq (BitVec.ofNat 32 (i 1).val) 0#32)) 0#32) = 1#1

theorem atRowStart0_iff : ∀ t : Fin cfg0.N, atRowStart0 (grid0.coords t) ↔ t.val % 8 = 0 := by decide +kernel

abbrev atRowEnd0 (i : grid0.Coords) : Prop := k0_cond2 i = 1#1

theorem atRowEnd0_iff : ∀ t : Fin cfg0.N, atRowEnd0 (grid0.coords t) ↔ t.val % 8 = 7 := by decide +kernel

theorem live0_in : ∀ t : Fin cfg0.N, cfg0.idle 0 (grid0.coords t) = false := by decide +kernel

theorem idle0_out_A : ∀ t : Fin cfg0.N, atRowStart0 (grid0.coords t) → ¬atRowEnd0 (grid0.coords t) → cfg0.idle 1 (grid0.coords t) = true := by decide +kernel
theorem noFlush0_out_A : ∀ t : Fin cfg0.N, atRowStart0 (grid0.coords t) → ¬atRowEnd0 (grid0.coords t) → (cfg0.win 1).flush t = false := by decide +kernel

theorem idle0_out_B : ∀ t : Fin cfg0.N, ¬atRowStart0 (grid0.coords t) → ¬atRowEnd0 (grid0.coords t) → cfg0.idle 1 (grid0.coords t) = true := by decide +kernel
theorem noFlush0_out_B : ∀ t : Fin cfg0.N, ¬atRowStart0 (grid0.coords t) → ¬atRowEnd0 (grid0.coords t) → (cfg0.win 1).flush t = false := by decide +kernel

theorem live0_out_C : ∀ t : Fin cfg0.N, ¬atRowStart0 (grid0.coords t) → atRowEnd0 (grid0.coords t) → cfg0.idle 1 (grid0.coords t) = false := by decide +kernel

abbrev VO0_1 : View sig .tc .vmem S1024x128 .f32 := (Memref.whole cc0_stg1_0 : Memref sig .tc .vmem S1024x128 .f32).view

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)

abbrev scM0_0 : Memref sig .tc .vmem S1024x1 .f32 := Memref.whole cc0_scratch0

abbrev VS0_0 : View sig .tc .vmem S1024x1 .f32 := scM0_0.view

theorem PhiA0_eq (c : Dev nD) :
    (Pipeline.ΦA spec0 c : sProp 𝕄)
      = iprop(iprop(iprop((∃ d, owns c.tc scM0_0 fullShare d))
          ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand
-- ==== Proof.KI.R0RunA.lean ====
import proofs.«114212_j498216206442_1_alg».proof.Proof.KI.R0Runs

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (hc0 : atRowStart0 i) (hc1 : ¬atRowEnd0 i)
    (x0 : Vec F S1024x1024 .f32) :
    Σ' (L1 : List (View.Piece (Elt F) S1024x128 .f32)), { LS0 : List (View.Piece (Elt F) S1024x1 .f32) //
      ∀ (xi1 : Vec F S1024x128 .f32) (E : Set ℕ) (K : PUnit → sProp 𝕄),
        iprop(owns c.tc arg2 fullShare x0 ∗ owns c.tc arg3 fullShare xi1 ∗ (∃ d, owns c.tc arg4 fullShare d)
            ∗ (iprop(owns c.tc arg2 fullShare x0 ∗ owns c.tc arg3 fullShare xi1 ∗ (∃ f, arg4.view.loc c.tc ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton, owns_unread harg2, owns_unread harg3]; unfold cc0__deg_kernel_skel
    unfold owns
    iintro ⟨H0, H1, ⟨%ds0, %fs0, -, HS0⟩, Hk⟩
    sl_exec (disch := first | exact hc0 | exact hc1)
    sl_step
    iapply Hk
    iframe
    iexists _; iexact HS0

end Cert.KernelIdeal.Hand
-- ==== Proof.KI.R0RunB.lean ====
import proofs.«114212_j498216206442_1_alg».proof.Proof.KI.R0RunA

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (hc0 : ¬atRowStart0 i) (hc1 : ¬atRowEnd0 i)
    (x0 : Vec F S1024x1024 .f32) (xs0 : Vec F S1024x1 .f32) :
    Σ' (L1 : List (View.Piece (Elt F) S1024x128 .f32)), { LS0 : List (View.Piece (Elt F) S1024x1 .f32) //
      ∀ (xi1 : Vec F S1024x128 .f32) (E : Set ℕ) (K : PUnit → sProp 𝕄),
        iprop(owns c.tc arg2 fullShare x0 ∗ owns c.tc arg3 fullShare xi1 ∗ owns c.tc arg4 fullShare xs0
            ∗ (iprop(owns c.tc arg2 fullShare x0 ∗ owns c.tc arg3 fullShare xi1 ∗ (∃ f, arg4.view.loc c.tc ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton, owns_unread harg2, owns_unread harg3, owns_unread harg4]; unfold cc0__deg_kernel_skel
    iintro ⟨H0, H1, HS0, Hk⟩
    sl_exec (disch := first | exact hc0 | exact hc1)
    sl_step
    iapply Hk
    iframe
    iexists _; iexact HS0

end Cert.KernelIdeal.Hand
-- ==== Proof.KI.R0RunC.lean ====
import proofs.«114212_j498216206442_1_alg».proof.Proof.KI.R0RunB

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (hc0 : ¬atRowStart0 i) (hc1 : atRowEnd0 i)
    (x0 : Vec F S1024x1024 .f32) (xs0 : Vec F S1024x1 .f32) :
    Σ' (L1 : List (View.Piece (Elt F) S1024x128 .f32)), { LS0 : List (View.Piece (Elt F) S1024x1 .f32) //
      ∀ (E : Set ℕ) (K : PUnit → sProp 𝕄),
        iprop(owns c.tc arg2 fullShare x0 ∗ (∃ d, owns c.tc arg3 fullShare d) ∗ owns c.tc arg4 fullShare xs0
            ∗ (iprop(owns c.tc arg2 fullShare x0 ∗ (∃ f, arg3.view.loc c.tc ↦[arg3.view.set]{fullShare} arg3.view.writes (Elt F) f L1) ∗ (∃ f, arg4.view.loc c.tc ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton, owns_unread harg2, owns_unread harg4]; unfold cc0__deg_kernel_skel
    unfold owns
    iintro ⟨H0, ⟨%d1, %f1, -, H1⟩, HS0, Hk⟩
    sl_exec (disch := first | exact hc0 | exact hc1)
    sl_step
    iapply Hk
    iframe
    isplitl [H1]; · iexists _; iexact H1
    iexists _; iexact HS0

end Cert.KernelIdeal.Hand
-- ==== Proof.KI.R0Dat.lean ====
import proofs.«114212_j498216206442_1_alg».proof.Proof.KI.R0RunC

noncomputable section

namespace Cert.KernelIdeal.Hand

open Cert.KernelIdeal Cert.KernelIdeal.Gen
open Idealize ShloMosaic ShloMosaic.TcCoe ShloMosaic.Tactic SL SL.RA SL.BI SL.BI.BIBase SL.BI.Laws SL.ProofMode SL.Sem
open ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole)

section
variable (hc0 : atRowStart0 i) (hc1 : ¬atRowEnd0 i) (x0 : Vec F S1024x1024 .f32)

def out0_A_1 : Vec F S1024x128 .f32 :=
  VO0_1.read (Elt F) (VO0_1.writes (Elt F) VO0_1.junk (kernelRun0_A c i arg2 harg2 arg3 harg3 arg4 harg4 hc0 hc1 x0).1)

theorem scover0_A_0 (y : S1024x1.Idx) : ∃ pc ∈ (kernelRun0_A c i arg2 harg2 arg3 harg3 arg4 harg4 hc0 hc1 x0).2.1, y ∈ pc.1.set :=
  View.cover_of_tiledL _ S1024x1.size (by sl_kernel_rfl) y

def sout0_A_0 : Vec F S1024x1 .f32 :=
  VS0_0.read (Elt F) (VS0_0.writes (Elt F) VS0_0.junk (kernelRun0_A c i arg2 harg2 arg3 harg3 arg4 harg4 hc0 hc1 x0).2.1)

end

variable (hc0 : ¬atRowStart0 i)

section
variable (hc1 : ¬atRowEnd0 i) (x0 : Vec F S1024x1024 .f32) (xs0 : Vec F S1024x1 .f32)

def out0_B_1 : Vec F S1024x128 .f32 :=
  VO0_1.read (Elt F) (VO0_1.writes (Elt F) VO0_1.junk (kernelRun0_B c i arg2 harg2 arg3 harg3 arg4 harg4 hc0 hc1 x0 xs0).1)

theorem scover0_B_0 (y : S1024x1.Idx) : ∃ pc ∈ (kernelRun0_B c i arg2 harg2 arg3 harg3 arg4 harg4 hc0 hc1 x0 xs0).2.1, y ∈ pc.1.set :=
  View.cover_of_tiledL _ S1024x1.size (by sl_kernel_rfl) y

def sout0_B_0 : Vec F S1024x1 .f32 :=
  VS0_0.read (Elt F) (VS0_0.writes (Elt F) VS0_0.junk (kernelRun0_B c i arg2 harg2 arg3 harg3 arg4 harg4 hc0 hc1 x0 xs0).2.1)

end

variable (hc1 : atRowEnd0 i) (x0 : Vec F S1024x1024 .f32) (xs0 : Vec F S1024x1 .f32)

theorem cover0_C_1 (y : S1024x128.Idx) : ∃ pc ∈ (kernelRun0_C c i arg2 harg2 arg3 harg3 arg4 harg4 hc0 hc1 x0 xs0).1, y ∈ pc.1.set :=
  View.cover_of_tiledL _ S1024x128.size (by sl_kernel_rfl) y

def out0_C_1 : Vec F S1024x128 .f32 :=
  VO0_1.read (Elt F) (VO0_1.writes (Elt F) VO0_1.junk (kernelRun0_C c i arg2 harg2 arg3 harg3 arg4 harg4 hc0 hc1 x0 xs0).1)

theorem scover0_C_0 (y : S1024x1.Idx) : ∃ pc ∈ (kernelRun0_C c i arg2 harg2 arg3 harg3 arg4 harg4 hc0 hc1 x0 xs0).2.1, y ∈ pc.1.set :=
  View.cover_of_tiledL _ S1024x1.size (by sl_kernel_rfl) y

def sout0_C_0 : Vec F S1024x1 .f32 :=
  VS0_0.read (Elt F) (VS0_0.writes (Elt F) VS0_0.junk (kernelRun0_C c i arg2 harg2 arg3 harg3 arg4 harg4 hc0 hc1 x0 xs0).2.1)

end

def ptA0 (c : Dev nD) (t : Fin cfg0.N) (h0 : t.val % 8 = 0) (h1 : ¬t.val % 8 = 7) : Vec F S1024x128 .f32 × Vec F S1024x1 .f32 :=
  (out0_A_1 c (grid0.coords t) (ms0_0 t) (hs0_0 t) (ms0_1 t) (hs0_1 t) scM0_0 (Memref.isWhole_whole _) ((atRowStart0_iff t).mpr h0) (fun h => h1 ((atRowEnd0_iff t).mp h)) (iblk0 V c 0 t),
   sout0_A_0 c (grid0.coords t) (ms0_0 t) (hs0_0 t) (ms0_1 t) (hs0_1 t) scM0_0 (Memref.isWhole_whole _) ((atRowStart0_iff t).mpr h0) (fun h => h1 ((atRowEnd0_iff t).mp h)) (iblk0 V c 0 t))

def ptB0 (c : Dev nD) (t : Fin cfg0.N) (h0 : ¬t.val % 8 = 0) (h1 : ¬t.val % 8 = 7) (xs : Vec F S1024x1 .f32) : Vec F S1024x128 .f32 × Vec F S1024x1 .f32 :=
  (out0_B_1 c (grid0.coords t) (ms0_0 t) (hs0_0 t) (ms0_1 t) (hs0_1 t) scM0_0 (Memref.isWhole_whole _) (fun h => h0 ((atRowStart0_iff t).mp h)) (fun h => h1 ((atRowEnd0_iff t).mp h)) (iblk0 V c 0 t) xs,
   sout0_B_0 c (grid0.coords t) (ms0_0 t) (hs0_0 t) (ms0_1 t) (hs0_1 t) scM0_0 (Memref.isWhole_whole _) (fun h => h0 ((atRowStart0_iff t).mp h)) (fun h => h1 ((atRowEnd0_iff t).mp h)) (iblk0 V c 0 t) xs)

def ptC0 (c : Dev nD) (t : Fin cfg0.N) (h0 : ¬t.val % 8 = 0) (h1 : t.val % 8 = 7) (xs : Vec F S1024x1 .f32) : Vec F S1024x128 .f32 × Vec F S1024x1 .f32 :=
  (out0_C_1 c (grid0.coords t) (ms0_0 t) (hs0_0 t) (ms0_1 t) (hs0_1 t) scM0_0 (Memref.isWhole_whole _) (fun h => h0 ((atRowStart0_iff t).mp h)) ((atRowEnd0_iff t).mpr h1) (iblk0 V c 0 t) xs,
   sout0_C_0 c (grid0.coords t) (ms0_0 t) (hs0_0 t) (ms0_1 t) (hs0_1 t) scM0_0 (Memref.isWhole_whole _) (fun h => h0 ((atRowStart0_iff t).mp h)) ((atRowEnd0_iff t).mpr h1) (iblk0 V c 0 t) xs)

def outsAt0 (c : Dev nD) : (n : ℕ) → n < cfg0.N → Vec F S1024x128 .f32 × Vec F S1024x1 .f32
  | 0, hn => ptA0 V c ⟨0, hn⟩ (Nat.zero_mod _) (fun h => absurd (show (0 : ℕ) % 8 = 7 from h) (by decide))
  | n + 1, hn =>
    if h0 : (n + 1) % 8 = 0 then ptA0 V c ⟨n + 1, hn⟩ h0 (fun h => by have h' : (n + 1) % 8 = 7 := h; omega)
    else if h1 : (n + 1) % 8 = 7 then ptC0 V c ⟨n + 1, hn⟩ h0 h1 (outsAt0 c n (Nat.lt_of_succ_lt hn)).2
    else ptB0 V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = ptA0 V c t h0 h1 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 V c t.val t.isLt = ptB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = ptC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def accAt0 (c : Dev nD) (x : Vec F S1024x1 .f32) : sProp 𝕄 :=
  iprop(iprop(owns (c : Thread nD τ) scM0_0 fullShare x
      ∗ Pipeline.scopedRestBut spec0 c [cc0_scratch0]) ∗ (∃ r, prngReg c r))

def PhiS0 (c : Dev nD) : (n : ℕ) → n ≤ cfg0.N → sProp 𝕄
  | 0, _ => Pipeline.ΦA spec0 c
  | n + 1, hn => accAt0 c (outsAt0 V c n hn).2

theorem PhiS0_pos (c : Dev nD) (n : ℕ) (h : n ≤ cfg0.N) (hz : n ≠ 0) :
    PhiS0 V c n h = accAt0 c (outsAt0 V c (n - 1) (by omega)).2 := by
  cases n with
  | zero => exact absurd rfl hz
  | succ n => rfl

theorem PhiS0_forget (c : Dev nD) (n : ℕ) (h : n ≤ cfg0.N) : PhiS0 V c n h ⊢ Pipeline.ΦA spec0 c := by
  cases n with
  | zero => exact Entails.refl _
  | succ n =>
    rw [PhiA0_eq]; unfold PhiS0 accAt0
    iintro ⟨⟨HS0, HR⟩, Hg⟩
    iframe; iexists _; iexact HS0

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

def bodyPre0 (c : Dev nD) (t : Fin cfg0.N) : sProp 𝕄 :=
  iprop(PhiS0 V c t.val (Nat.le_of_lt t.isLt) ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop(accAt0 c (outsAt0 V c t.val t.isLt).2 ∗ (dat0 V c).owesAt () t.castSucc
    ∗ (dat0 V c).leavesExact 0 t
    ∗ (dat0 V c).leavesExact 1 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).leavesExact 0 t = owns (c : Thread nD τ) (ms0_0 t) fullShare (iblk0 V c 0 t) from by
      unfold Dat.leavesExact; rw [live0_in t] <;> rfl]
  by_cases hc0 : atRowStart0 (grid0.coords t)
  · have h0 := (atRowStart0_iff t).mp hc0
    have hc1 : ¬atRowEnd0 (grid0.coords t) := fun h => by have := (atRowEnd0_iff t).mp h; omega
    rw [Dat.leavesExact_idle (dat0 V c) 1 t (idle0_out_A t hc0 hc1) (noFlush0_out_A t hc0 hc1), outsAt0_A V c t h0 (by omega)]
    unfold ptA0 sout0_A_0 accAt0; (try dsimp only)
    refine (sep_mono_left (PhiS0_forget V c _ _)).trans ?_
    rw [PhiA0_eq]
    iintro ⟨⟨⟨HS0, HR⟩, Hg⟩, Ho, ⟨%d0, H0⟩, ⟨%d1, H1⟩⟩
    iapply ((kernelRun0_A c (grid0.coords t) _ _ _ _ _ _ hc0 hc1 (iblk0 V c 0 t)).2.2 _ Set.univ _)
    iframe H0 H1 HS0
    iintro ⟨H0, H1, ⟨%es0, HS0⟩⟩
    ihave HS0 := owns_of_cover VS0_0 (scover0_A_0 c _ _ _ _ _ _ _ _ _ _) $$ HS0
    iframe
    iexists _; iexact H1
  · have h0 : ¬t.val % 8 = 0 := fun h => hc0 ((atRowStart0_iff t).mpr h)
    rw [PhiS0_pos V c _ _ fun e => h0 (by rw [e])]
    by_cases hc1 : atRowEnd0 (grid0.coords t)
    · rw [show (dat0 V c).leavesExact 1 t = owns (c : Thread nD τ) (ms0_1 t) fullShare ((dat0 V c).after 1 t) from by
        unfold Dat.leavesExact; rw [live0_out_C t hc0 hc1], after0_1, outsAt0_C V c t h0 ((atRowEnd0_iff t).mp hc1)]
      unfold ptC0 out0_C_1 sout0_C_0 accAt0; (try dsimp only)
      iintro ⟨⟨⟨HS0, HR⟩, Hg⟩, Ho, ⟨%d0, H0⟩, ⟨%d1, H1⟩⟩
      iapply ((kernelRun0_C c (grid0.coords t) _ _ _ _ _ _ hc0 hc1 (iblk0 V c 0 t) _).2.2 Set.univ _)
      iframe H0 HS0
      isplitl [H1]; · iexists _; iexact H1
      iintro ⟨H0, ⟨%e1, H1⟩, ⟨%es0, HS0⟩⟩
      ihave HS0 := owns_of_cover VS0_0 (scover0_C_0 c _ _ _ _ _ _ _ _ _ _ _) $$ HS0
      ihave H1 := owns_of_cover VO0_1 (cover0_C_1 c _ _ _ _ _ _ _ _ _ _ _) $$ H1
      iframe
    · rw [Dat.leavesExact_idle (dat0 V c) 1 t (idle0_out_B t hc0 hc1) (noFlush0_out_B t hc0 hc1), outsAt0_B V c t h0 fun h => hc1 ((atRowEnd0_iff t).mpr h)]
      unfold ptB0 sout0_B_0 accAt0; (try dsimp only)
      iintro ⟨⟨⟨HS0, HR⟩, Hg⟩, Ho, ⟨%d0, H0⟩, ⟨%d1, H1⟩⟩
      iapply ((kernelRun0_B c (grid0.coords t) _ _ _ _ _ _ hc0 hc1 (iblk0 V c 0 t) _).2.2 _ Set.univ _)
      iframe H0 H1 HS0
      iintro ⟨H0, H1, ⟨%es0, HS0⟩⟩
      ihave HS0 := owns_of_cover VS0_0 (scover0_B_0 c _ _ _ _ _ _ _ _ _ _ _) $$ HS0
      iframe
      iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Entails.refl _

theorem hout0 (c : Dev nD) : (dat0 V c).Φ (Fin.last cfg0.N) ⊢ Pipeline.ΦA spec0 c :=
  PhiS0_forget V c (Fin.last cfg0.N).val _

end Cert.KernelIdeal.Hand

end
-- ==== Proof.KI.R1Runs.lean ====
import proofs.«114212_j498216206442_1_alg».proof.Proof.KI.Common

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem blockOf1_eq {c : Dev nD} (dat : Pipeline.Dat τ (Elt F) Unit ℕ (Pipeline.UD sig nD τ) ℕ cfg1 c) (w : Fin cfg1.W) (hA : dat.A w = V c (Pipeline.arrRef spec1 w)) (t : Fin cfg1.N) :
    dat.blockOf w t = iblk1 V c w t := by
  unfold Pipeline.Dat.blockOf iblk1; rw [hA]

section
variable {c : Dev nD} (dat : Pipeline.Dat τ (Elt F) Unit ℕ (Pipeline.UD sig nD τ) ℕ cfg1 c)

theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => (hafter t).trans (blockOf1_eq V dat 0 hA t).symm) t d).trans (blockOf1_eq V dat 0 hA t)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => (hafter t).trans (blockOf1_eq V dat 1 hA t).symm) t d).trans (blockOf1_eq V dat 1 hA t)
theorem before1_2_of (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => (hafter t).trans (blockOf1_eq V dat 2 hA t).symm) t d).trans (blockOf1_eq V dat 2 hA t)
theorem before1_3_of (hA : dat.A 3 = V c (Pipeline.arrRef spec1 3)) (hafter : ∀ t, dat.after 3 t = iblk1 V c 3 t) (t : Fin cfg1.N) (d) :
    dat.before 3 t d = iblk1 V c 3 t :=
  (dat.before_in_eq_fetched 3 rfl (fun _ => rfl) (fun _ _ _ => rfl) (fun t => (hafter t).trans (blockOf1_eq V dat 3 hA t).symm) t d).trans (blockOf1_eq V dat 3 hA t)
theorem before1_4_of (hA : dat.A 4 = V c (Pipeline.arrRef spec1 4)) (hafter : ∀ t, dat.after 4 t = iblk1 V c 4 t) (t : Fin cfg1.N) (d) :
    dat.before 4 t d = iblk1 V c 4 t :=
  (dat.before_in_eq_fetched 4 rfl (fun _ => rfl) (fun _ _ _ => rfl) (fun t => (hafter t).trans (blockOf1_eq V dat 4 hA t).symm) t d).trans (blockOf1_eq V dat 4 hA t)
theorem before1_5_of (hA : dat.A 5 = V c (Pipeline.arrRef spec1 5)) (hafter : ∀ t, dat.after 5 t = iblk1 V c 5 t) (t : Fin cfg1.N) (d) :
    dat.before 5 t d = iblk1 V c 5 t :=
  (dat.before_in_eq_fetched 5 rfl (fun _ => rfl) (fun _ _ _ => rfl) (fun t => (hafter t).trans (blockOf1_eq V dat 5 hA t).symm) t d).trans (blockOf1_eq V dat 5 hA t)
theorem before1_6_of (hA : dat.A 6 = V c (Pipeline.arrRef spec1 6)) (hafter : ∀ t, dat.after 6 t = iblk1 V c 6 t) (t : Fin cfg1.N) (d) :
    dat.before 6 t d = iblk1 V c 6 t :=
  (dat.before_in_eq_fetched 6 rfl (fun _ => rfl) (fun _ _ _ => rfl) (fun t => (hafter t).trans (blockOf1_eq V dat 6 hA t).symm) t d).trans (blockOf1_eq V dat 6 hA t)
theorem before1_7_of (hA : dat.A 7 = V c (Pipeline.arrRef spec1 7)) (hafter : ∀ t, dat.after 7 t = iblk1 V c 7 t) (t : Fin cfg1.N) (d) :
    dat.before 7 t d = iblk1 V c 7 t :=
  (dat.before_in_eq_fetched 7 rfl (fun _ => rfl) (fun _ _ _ => rfl) (fun t => (hafter t).trans (blockOf1_eq V dat 7 hA t).symm) t d).trans (blockOf1_eq V dat 7 hA t)

end

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 := by decide +kernel

abbrev cond1_1 (i : grid1.Coords) : Prop := k1_cond2 i = 1#1

theorem hcond1_1 : ∀ t : Fin cfg1.N, cond1_1 (grid1.coords t) ↔ t.val % 8 = 7 := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl

theorem idleAt1_8 : ∀ (t : Fin cfg1.N) (h : ¬t.val % 8 = 7), cfg1.idle 8 (grid1.coords t) = true := by decide +kernel
theorem idleAt1_9 : ∀ (t : Fin cfg1.N) (h : ¬t.val % 8 = 7), cfg1.idle 9 (grid1.coords t) = true := by decide +kernel
theorem liveAt1_8 : ∀ (t : Fin cfg1.N) (h : t.val % 8 = 7), cfg1.idle 8 (grid1.coords t) = false := by decide +kernel
theorem liveAt1_9 : ∀ (t : Fin cfg1.N) (h : t.val % 8 = 7), cfg1.idle 9 (grid1.coords t) = false := by decide +kernel
theorem noFlush1_8 : ∀ (t : Fin cfg1.N) (h : ¬t.val % 8 = 7), (cfg1.win 8).flush t = false := by decide +kernel
theorem noFlush1_9 : ∀ (t : Fin cfg1.N) (h : ¬t.val % 8 = 7), (cfg1.win 9).flush t = false := by decide +kernel

abbrev VO1_8 : View sig .tc .vmem S1024x128 .f32 := (Memref.whole cc1_stg8_0 : Memref sig .tc .vmem S1024x128 .f32).view
abbrev VO1_9 : View sig .tc .vmem S1024x128 .f32 := (Memref.whole cc1_stg9_0 : Memref sig .tc .vmem S1024x128 .f32).view

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x128 .f32 := win1_9.stage (cfg1.slots t 9)
abbrev hs1_9 (t : Fin cfg1.N) : (ms1_9 t).IsWhole := hstage1_9 ((cfg1.slots t 9).cast nbuf1_9)

abbrev scM1_0 : Memref sig .tc .vmem S1024x128 .f32 := Memref.whole cc1_scratch0

abbrev VS1_0 : View sig .tc .vmem S1024x128 .f32 := scM1_0.view

theorem PhiA1_eq (c : Dev nD) :
    (Pipeline.ΦA spec1 c : sProp 𝕄)
      = iprop(iprop((∃ f : Buf (Elt F) (c.tc.loc cc0_stg0_0), (c.tc.loc cc0_stg0_0) ↦{fullShare} f) ∗ (∃ f : Buf (Elt F) (c.tc.loc cc0_stg0_1), (c.tc.loc cc0_stg0_1) ↦{fullShare} f) ∗ (∃ f : Buf (Elt F) (c.tc.loc cc0_stg1_0), (c.tc.loc cc0_stg1_0) ↦{fullShare} f) ∗ (∃ f : Buf (Elt F) (c.tc.loc cc0_stg1_1), (c.tc.loc cc0_stg1_1) ↦{fullShare} f) ∗ (∃ f : Buf (Elt F) (c.tc.loc cc0_scratch0), (c.tc.loc cc0_scratch0) ↦{fullShare} f) ∗ (∃ d, owns c.tc scM1_0 fullShare d) ∗ (∃ f : Buf (Elt F) (c.tc.loc cc2_stg0_0), (c.tc.loc cc2_stg0_0) ↦{fullShare} f) ∗ (∃ f : Buf (Elt F) (c.tc.loc cc2_stg0_1), (c.tc.loc cc2_stg0_1) ↦{fullShare} f) ∗ (∃ f : Buf (Elt F) (c.tc.loc cc2_stg1_0), (c.tc.loc cc2_stg1_0) ↦{fullShare} f) ∗ (∃ f : Buf (Elt F) (c.tc.loc cc2_stg1_1), (c.tc.loc cc2_stg1_1) ↦{fullShare} f) ∗ (∃ f : Buf (Elt F) (c.tc.loc cc2_stg2_0), (c.tc.loc cc2_stg2_0) ↦{fullShare} f) ∗ (∃ f : Buf (Elt F) (c.tc.loc cc2_stg2_1), (c.tc.loc cc2_stg2_1) ↦{fullShare} f) ∗ (∃ f : Buf (Elt F) (c.tc.loc cc2_scratch0), (c.tc.loc cc2_scratch0) ↦{fullShare} f) ∗ (∃ f : Buf (Elt F) (c.tc.loc cc3_stg0_0), (c.tc.loc cc3_stg0_0) ↦{fullShare} f) ∗ (∃ f : Buf (Elt F) (c.tc.loc cc3_stg0_1), (c.tc.loc cc3_stg0_1) ↦{fullShare} f) ∗ (∃ f : Buf (Elt F) (c.tc.loc cc3_stg1_0), (c.tc.loc cc3_stg1_0) ↦{fullShare} f) ∗ (∃ f : Buf (Elt F) (c.tc.loc cc3_stg1_1), (c.tc.loc cc3_stg1_1) ↦{fullShare} f) ∗ (∃ f : Buf (Elt F) (c.tc.loc cc3_stg2_0), (c.tc.loc cc3_stg2_0) ↦{fullShare} f) ∗ (∃ f : Buf (Elt F) (c.tc.loc cc3_stg2_1), (c.tc.loc cc3_stg2_1) ↦{fullShare} f) ∗ (∃ f : Buf (Elt F) (c.tc.loc cc3_stg3_0), (c.tc.loc cc3_stg3_0) ↦{fullShare} f) ∗ (∃ f : Buf (Elt F) (c.tc.loc cc3_stg4_0), (c.tc.loc cc3_stg4_0) ↦{fullShare} f)) ∗ (∃ r, prngReg c r)) := by
  unfold Pipeline.ΦA; rw [scopedRest1_eq]; simp only [scM1_0, owns_whole]; try rfl

end Cert.KernelIdeal.Hand
-- ==== Proof.KI.R1RunA.lean ====
import proofs.«114212_j498216206442_1_alg».proof.Proof.KI.R1Runs

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 2000000 in
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : cond1_0 i) (hc1 : ¬cond1_1 i)
    (x0 : Vec F S1024x1024 .f32) (x1 x2 x3 : Vec F S1024x128 .f32) (x4 : Vec F S128x128 .f32) (x5 : Vec F S1x128 .f32) (x6 : Vec F S128x128 .f32) (x7 : Vec F S1x128 .f32) :
    Σ' (L8 : List (View.Piece (Elt F) S1024x128 .f32)) (L9 : List (View.Piece (Elt F) S1024x128 .f32)), { LS0 : List (View.Piece (Elt F) S1024x128 .f32) //
      ∀ (xi8 xi9 : Vec F S1024x128 .f32) (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare xi8 ∗ owns c.tc arg11 fullShare xi9 ∗ (∃ d, owns c.tc arg12 fullShare d)
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare xi8 ∗ owns c.tc arg11 fullShare xi9 ∗ (∃ f, arg12.view.loc c.tc ↦[arg12.view.set]{fullShare} arg12.view.writes (Elt F) f LS0)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12) K } := by
  refine ⟨[], [], ?_, fun xi8 xi9 E K => ?run⟩
  case run =>
    simp only [cc1__stageB_kernel_eq_skeleton, owns_unread harg2, owns_unread harg3, owns_unread harg4, owns_unread harg5, owns_unread harg6, owns_unread harg7, owns_unread harg8, owns_unread harg9, owns_unread harg10, owns_unread harg11]; unfold cc1__stageB_kernel_skel
    unfold owns
    iintro ⟨H0, H1, H2, H3, H4, H5, H6, H7, H8, H9, ⟨%ds0, %fs0, -, HS0⟩, Hk⟩
    sl_exec (disch := first | exact hc0 | exact hc1)
    sl_step
    iapply Hk
    iframe
    iexists _; iexact HS0

end Cert.KernelIdeal.Hand
-- ==== Proof.KI.R1RunB.lean ====
import proofs.«114212_j498216206442_1_alg».proof.Proof.KI.R1RunA

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 2000000 in
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond1_0 i) (hc1 : ¬cond1_1 i)
    (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32) :
    Σ' (L8 : List (View.Piece (Elt F) S1024x128 .f32)) (L9 : List (View.Piece (Elt F) S1024x128 .f32)), { LS0 : List (View.Piece (Elt F) S1024x128 .f32) //
      ∀ (xi8 xi9 : Vec F S1024x128 .f32) (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare xi8 ∗ owns c.tc arg11 fullShare xi9 ∗ owns c.tc arg12 fullShare xs0
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare xi8 ∗ owns c.tc arg11 fullShare xi9 ∗ (∃ f, arg12.view.loc c.tc ↦[arg12.view.set]{fullShare} arg12.view.writes (Elt F) f LS0)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12) K } := by
  refine ⟨[], [], ?_, fun xi8 xi9 E K => ?run⟩
  case run =>
    simp only [cc1__stageB_kernel_eq_skeleton, owns_unread harg2, owns_unread harg3, owns_unread harg4, owns_unread harg5, owns_unread harg6, owns_unread harg7, owns_unread harg8, owns_unread harg9, owns_unread harg10, owns_unread harg11, owns_unread harg12]; unfold cc1__stageB_kernel_skel
    iintro ⟨H0, H1, H2, H3, H4, H5, H6, H7, H8, H9, HS0, Hk⟩
    sl_exec (disch := first | exact hc0 | exact hc1)
    sl_step
    iapply Hk
    iframe
    iexists _; iexact HS0

end Cert.KernelIdeal.Hand
-- ==== Proof.KI.R1RunC.lean ====
import proofs.«114212_j498216206442_1_alg».proof.Proof.KI.R1RunB

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 2000000 in
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond1_0 i) (hc1 : cond1_1 i)
    (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32) :
    Σ' (L8 : List (View.Piece (Elt F) S1024x128 .f32)) (L9 : List (View.Piece (Elt F) S1024x128 .f32)), { LS0 : List (View.Piece (Elt F) S1024x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ d, owns c.tc arg10 fullShare d) ∗ (∃ d, owns c.tc arg11 fullShare d) ∗ owns c.tc arg12 fullShare xs0
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ f, arg10.view.loc c.tc ↦[arg10.view.set]{fullShare} arg10.view.writes (Elt F) f L8) ∗ (∃ f, arg11.view.loc c.tc ↦[arg11.view.set]{fullShare} arg11.view.writes (Elt F) f L9) ∗ (∃ f, arg12.view.loc c.tc ↦[arg12.view.set]{fullShare} arg12.view.writes (Elt F) f LS0)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__stageB_kernel_eq_skeleton]; unfold cc1__stageB_kernel_skel
    simp only [k1_part1_eq_skeleton, owns_unread harg2, owns_unread harg3, owns_unread harg4, owns_unread harg5, owns_unread harg6, owns_unread harg7, owns_unread harg8, owns_unread harg9, owns_unread harg12]; unfold k1_part1_skel
    unfold owns
    iintro ⟨H0, H1, H2, H3, H4, H5, H6, H7, ⟨%d8, %f8, -, H8⟩, ⟨%d9, %f9, -, H9⟩, HS0, Hk⟩
    sl_exec (disch := first | exact hc0 | exact hc1)
    sl_step
    iapply Hk
    iframe
    isplitl [H8]; · iexists _; iexact H8
    isplitl [H9]; · iexists _; iexact H9
    iexists _; iexact HS0

end Cert.KernelIdeal.Hand
-- ==== Proof.KI.R1Dat.lean ====
import proofs.«114212_j498216206442_1_alg».proof.Proof.KI.R1RunC

noncomputable section

namespace Cert.KernelIdeal.Hand

open Cert.KernelIdeal Gen Idealize ShloMosaic TcCoe Tactic SL RA BI BIBase Laws ProofMode Sem
open scoped Idealize.SL.BI
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

-- What each case's run leaves in the two heads' blocks and in the accumulator, read back over arbitrary contents; a store of the whole block covers it.
section
variable (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole)

section
variable (hc0 : cond1_0 i) (hc1 : ¬cond1_1 i) (x0 : Vec F S1024x1024 .f32) (x1 x2 x3 : Vec F S1024x128 .f32) (x4 : Vec F S128x128 .f32) (x5 : Vec F S1x128 .f32) (x6 : Vec F S128x128 .f32) (x7 : Vec F S1x128 .f32)

def out1_A_8 : Vec F S1024x128 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

def out1_A_9 : Vec F S1024x128 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

theorem scover1_A_0 (y : S1024x128.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL _ S1024x128.size (by sl_kernel_rfl) y

def sout1_A_0 : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

end

section
variable (hc0 : ¬cond1_0 i) (hc1 : ¬cond1_1 i) (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32)

def out1_B_8 : Vec F S1024x128 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

def out1_B_9 : Vec F S1024x128 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

theorem scover1_B_0 (y : S1024x128.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL _ S1024x128.size (by sl_kernel_rfl) y

def sout1_B_0 : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

end

section
variable (hc0 : ¬cond1_0 i) (hc1 : cond1_1 i) (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32)

theorem cover1_C_8 (y : S1024x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL _ S1024x128.size (by sl_kernel_rfl) y

def out1_C_8 : Vec F S1024x128 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

theorem cover1_C_9 (y : S1024x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL _ S1024x128.size (by sl_kernel_rfl) y

def out1_C_9 : Vec F S1024x128 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

theorem scover1_C_0 (y : S1024x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL _ S1024x128.size (by sl_kernel_rfl) y

def sout1_C_0 : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

end

end

theorem zero_not_last (n : ℕ) (hz : n = 0) : ¬n % 8 = 7 := by omega

-- The three contents after the body at point `t`, by the case its block column is in.
def ptA1 (c : Dev nD) (t : Fin cfg1.N) (h0 : t.val % 8 = 0) (h1 : ¬t.val % 8 = 7) : Vec F S1024x128 .f32 × Vec F S1024x128 .f32 × Vec F S1024x128 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
  out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
  sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))

def ptB1 (c : Dev nD) (t : Fin cfg1.N) (h0 : ¬t.val % 8 = 0) (h1 : ¬t.val % 8 = 7) (xs : Vec F S1024x128 .f32) : Vec F S1024x128 .f32 × Vec F S1024x128 .f32 × Vec F S1024x128 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) xs,
  out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) xs,
  sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) xs)

def ptC1 (c : Dev nD) (t : Fin cfg1.N) (h0 : ¬t.val % 8 = 0) (h1 : t.val % 8 = 7) (xs : Vec F S1024x128 .f32) : Vec F S1024x128 .f32 × Vec F S1024x128 .f32 × Vec F S1024x128 .f32 :=
  (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs,
  out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs,
  sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs)

def outsAt1 (c : Dev nD) : (n : ℕ) → n < cfg1.N → Vec F S1024x128 .f32 × Vec F S1024x128 .f32 × Vec F S1024x128 .f32
  | 0, hn => ptA1 V c ⟨0, hn⟩ (Nat.zero_mod _) (zero_not_last 0 rfl)
  | n + 1, hn =>
    if h0 : (n + 1) % 8 = 0 then
      if h1 : (n + 1) % 8 = 7 then False.elim (by omega) else ptA1 V c ⟨n + 1, hn⟩ h0 h1
    else if h1 : (n + 1) % 8 = 7 then ptC1 V c ⟨n + 1, hn⟩ h0 h1 (outsAt1 c n (Nat.lt_of_succ_lt hn)).2.2
    else ptB1 V c ⟨n + 1, hn⟩ h0 h1 (outsAt1 c n (Nat.lt_of_succ_lt hn)).2.2

theorem outsAt1_A (c : Dev nD) (t : Fin cfg1.N) (h0 : t.val % 8 = 0) (h1 : ¬t.val % 8 = 7) :
    outsAt1 V c t.val t.isLt = ptA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = ptB1 V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = ptC1 V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

-- The invariant after a point, as a function of what the accumulator holds.
def PhiR1 (c : Dev nD) (x : Vec F S1024x128 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1_0 fullShare x ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f)) ∗ (∃ r, prngReg c r))

def PhiS1 (c : Dev nD) : (n : ℕ) → n ≤ cfg1.N → sProp 𝕄
  | 0, _ => Pipeline.ΦA spec1 c
  | n + 1, hn => PhiR1 c (outsAt1 V c n hn).2.2

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiR1 c (outsAt1 V c n hn).2.2 := rfl

theorem PhiS1_pos (c : Dev nD) (n : ℕ) (h : n ≤ cfg1.N) (hz : n ≠ 0) :
    PhiS1 V c n h = PhiR1 c (outsAt1 V c (n - 1) (by omega)).2.2 := by
  cases n with
  | zero => exact absurd rfl hz
  | succ n => rfl

-- What the accumulator holds may be forgotten: every invariant gives back what the launch handed over.
theorem PhiS1_le (c : Dev nD) (n : ℕ) (h : n ≤ cfg1.N) : PhiS1 V c n h ⊢ Pipeline.ΦA spec1 c := by
  cases n with
  | zero => rw [PhiS1_zero V c 0 h rfl]
  | succ n =>
    rw [PhiS1_succ, PhiA1_eq]; unfold PhiR1
    iintro ⟨⟨HR0, HR1, HR2, HR3, HR4, HS0, HR6, HR7, HR8, HR9, HR10, HR11, HR12, HR13, HR14, HR15, HR16, HR17, HR18, HR19, HR20⟩, Hg⟩
    iframe
    iexists _; iexact HS0

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2.1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

-- Block column 0 takes the accumulator at any contents; the other columns at what the point before left.
set_option maxHeartbeats 2000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 8 = 0
  · have h1 : ¬t.val % 8 = 7 := by omega
    rw [Dat.leavesExact_idle (dat1 V c) 8 t (idleAt1_8 t h1) (noFlush1_8 t h1), Dat.leavesExact_idle (dat1 V c) 9 t (idleAt1_9 t h1) (noFlush1_9 t h1), outsAt1_A V c t h0 h1]
    unfold ptA1 sout1_A_0 PhiR1; (try dsimp only)
    refine (sep_mono_left (PhiS1_le V c _ _)).trans ?_
    rw [PhiA1_eq]
    iintro ⟨⟨⟨HR0, HR1, HR2, HR3, HR4, HS0, HR6, HR7, HR8, HR9, HR10, HR11, HR12, HR13, HR14, HR15, HR16, HR17, HR18, HR19, HR20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, ⟨%es0, HS0⟩⟩
    isplitl [HR0 HR1 HR2 HR3 HR4 HS0 HR6 HR7 HR8 HR9 HR10 HR11 HR12 HR13 HR14 HR15 HR16 HR17 HR18 HR19 HR20 Hg]
    · isplitl [HR0 HR1 HR2 HR3 HR4 HS0 HR6 HR7 HR8 HR9 HR10 HR11 HR12 HR13 HR14 HR15 HR16 HR17 HR18 HR19 HR20]
      · isplitl [HR0]; · iexact HR0
        isplitl [HR1]; · iexact HR1
        isplitl [HR2]; · iexact HR2
        isplitl [HR3]; · iexact HR3
        isplitl [HR4]; · iexact HR4
        isplitl [HS0]; · iapply (owns_of_cover _ (scover1_A_0 _ _ _ _ _ _ _ _ _ _ _ _ _ _ _ _ _ _ _ _ _ _ _ _ _ _ _ _ _ _ _ _ _ _)); iexact HS0
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        isplitl [HR18]; · iexact HR18
        isplitl [HR19]; · iexact HR19
        iexact HR20
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have hz : t.val ≠ 0 := fun h => h0 (by rw [h])
    rw [PhiS1_pos V c _ _ hz]
    by_cases h1 : t.val % 8 = 7
    · rw [show (dat1 V c).leavesExact 8 t = owns (c : Thread nD τ) (ms1_8 t) fullShare ((dat1 V c).after 8 t) from by
        unfold Dat.leavesExact; rw [liveAt1_8 t h1], after1_8]
      rw [show (dat1 V c).leavesExact 9 t = owns (c : Thread nD τ) (ms1_9 t) fullShare ((dat1 V c).after 9 t) from by
        unfold Dat.leavesExact; rw [liveAt1_9 t h1], after1_9]
      rw [outsAt1_C V c t h0 h1]
      unfold ptC1 out1_C_8 out1_C_9 sout1_C_0 PhiR1; (try dsimp only)
      iintro ⟨⟨⟨HR0, HR1, HR2, HR3, HR4, HS0, HR6, HR7, HR8, HR9, HR10, HR11, HR12, HR13, HR14, HR15, HR16, HR17, HR18, HR19, HR20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HR0 HR1 HR2 HR3 HR4 HS0 HR6 HR7 HR8 HR9 HR10 HR11 HR12 HR13 HR14 HR15 HR16 HR17 HR18 HR19 HR20 Hg]
      · isplitl [HR0 HR1 HR2 HR3 HR4 HS0 HR6 HR7 HR8 HR9 HR10 HR11 HR12 HR13 HR14 HR15 HR16 HR17 HR18 HR19 HR20]
        · isplitl [HR0]; · iexact HR0
          isplitl [HR1]; · iexact HR1
          isplitl [HR2]; · iexact HR2
          isplitl [HR3]; · iexact HR3
          isplitl [HR4]; · iexact HR4
          isplitl [HS0]; · iapply (owns_of_cover _ (scover1_C_0 _ _ _ _ _ _ _ _ _ _ _ _ _ _ _ _ _ _ _ _ _ _ _ _ _ _ _ _ _ _ _ _ _ _ _)); iexact HS0
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          iexact HR20
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iapply (owns_of_cover _ (cover1_C_8 _ _ _ _ _ _ _ _ _ _ _ _ _ _ _ _ _ _ _ _ _ _ _ _ _ _ _ _ _ _ _ _ _ _ _)); iexact H8
      iapply (owns_of_cover _ (cover1_C_9 _ _ _ _ _ _ _ _ _ _ _ _ _ _ _ _ _ _ _ _ _ _ _ _ _ _ _ _ _ _ _ _ _ _ _)); iexact H9
    · rw [Dat.leavesExact_idle (dat1 V c) 8 t (idleAt1_8 t h1) (noFlush1_8 t h1), Dat.leavesExact_idle (dat1 V c) 9 t (idleAt1_9 t h1) (noFlush1_9 t h1), outsAt1_B V c t h0 h1]
      unfold ptB1 sout1_B_0 PhiR1; (try dsimp only)
      iintro ⟨⟨⟨HR0, HR1, HR2, HR3, HR4, HS0, HR6, HR7, HR8, HR9, HR10, HR11, HR12, HR13, HR14, HR15, HR16, HR17, HR18, HR19, HR20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HR0 HR1 HR2 HR3 HR4 HS0 HR6 HR7 HR8 HR9 HR10 HR11 HR12 HR13 HR14 HR15 HR16 HR17 HR18 HR19 HR20 Hg]
      · isplitl [HR0 HR1 HR2 HR3 HR4 HS0 HR6 HR7 HR8 HR9 HR10 HR11 HR12 HR13 HR14 HR15 HR16 HR17 HR18 HR19 HR20]
        · isplitl [HR0]; · iexact HR0
          isplitl [HR1]; · iexact HR1
          isplitl [HR2]; · iexact HR2
          isplitl [HR3]; · iexact HR3
          isplitl [HR4]; · iexact HR4
          isplitl [HS0]; · iapply (owns_of_cover _ (scover1_B_0 _ _ _ _ _ _ _ _ _ _ _ _ _ _ _ _ _ _ _ _ _ _ _ _ _ _ _ _ _ _ _ _ _ _ _)); iexact HS0
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          iexact HR20
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c :=
  PhiS1_le V c (Fin.last cfg1.N).val (Nat.le_of_lt_succ (Fin.last cfg1.N).isLt)

end Cert.KernelIdeal.Hand

end
-- ==== Proof.KI.R2Runs.lean ====
import proofs.«114212_j498216206442_1_alg».proof.Proof.KI.Common

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem blockOf2_eq {c : Dev nD} (dat : Pipeline.Dat τ (Elt F) Unit ℕ (Pipeline.UD sig nD τ) ℕ cfg2 c) (w : Fin cfg2.W) (hA : dat.A w = V c (Pipeline.arrRef spec2 w)) (t : Fin cfg2.N) :
    dat.blockOf w t = iblk2 V c w t := by
  unfold Pipeline.Dat.blockOf iblk2; rw [hA]

section
variable {c : Dev nD} (dat : Pipeline.Dat τ (Elt F) Unit ℕ (Pipeline.UD sig nD τ) ℕ cfg2 c)

theorem before2_0_of (hA : dat.A 0 = V c (Pipeline.arrRef spec2 0)) (hafter : ∀ t, dat.after 0 t = iblk2 V c 0 t) (t : Fin cfg2.N) (d) :
    dat.before 0 t d = iblk2 V c 0 t :=
  (dat.before_in_eq_fetched 0 rfl (fun _ => rfl) (fun _ _ _ => rfl) (fun t => (hafter t).trans (blockOf2_eq V dat 0 hA t).symm) t d).trans (blockOf2_eq V dat 0 hA t)
theorem before2_1_of (hA : dat.A 1 = V c (Pipeline.arrRef spec2 1)) (hafter : ∀ t, dat.after 1 t = iblk2 V c 1 t) (t : Fin cfg2.N) (d) :
    dat.before 1 t d = iblk2 V c 1 t :=
  (dat.before_in_eq_fetched 1 rfl (fun _ => rfl) (fun _ _ _ => rfl) (fun t => (hafter t).trans (blockOf2_eq V dat 1 hA t).symm) t d).trans (blockOf2_eq V dat 1 hA t)

end

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 := by decide +kernel

abbrev cond2_1 (i : grid2.Coords) : Prop := k2_cond2 i = 1#1

theorem hcond2_1 : ∀ t : Fin cfg2.N, cond2_1 (grid2.coords t) ↔ t.val % 8 = 7 := by decide +kernel

theorem liveAt2_0 : ∀ t : Fin cfg2.N, cfg2.idle 0 (grid2.coords t) = false := by decide +kernel
theorem liveAt2_1 : ∀ t : Fin cfg2.N, cfg2.idle 1 (grid2.coords t) = false := by decide +kernel

theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel

theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel

theorem liveAt2_2_C : ∀ t : Fin cfg2.N, ¬cond2_0 (grid2.coords t) → cond2_1 (grid2.coords t) → cfg2.idle 2 (grid2.coords t) = false := by decide +kernel

abbrev VO2_2 : View sig .tc .vmem S1024x128 .f32 := (Memref.whole cc2_stg2_0 : Memref sig .tc .vmem S1024x128 .f32).view

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)

abbrev scM2_0 : Memref sig .tc .vmem S1024x128 .f32 := Memref.whole cc2_scratch0

abbrev VS2_0 : View sig .tc .vmem S1024x128 .f32 := scM2_0.view

theorem PhiA2_eq (c : Dev nD) :
    (Pipeline.ΦA spec2 c : sProp 𝕄)
      = iprop(iprop(iprop((∃ d, owns c.tc scM2_0 fullShare d)) ∗ Pipeline.scopedRestBut spec2 c [cc2_scratch0]) ∗ (∃ r, prngReg c r)) := by
  unfold Pipeline.ΦA; rw [scopedRest2_split]; simp only [scM2_0, owns_whole]; try rfl

end Cert.KernelIdeal.Hand
-- ==== Proof.KI.R2RunA.lean ====
import proofs.«114212_j498216206442_1_alg».proof.Proof.KI.R2Runs

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 4000000 in
noncomputable def kernelRun2_A (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .f32) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns c.tc arg2 fullShare x0 ∗ owns c.tc arg3 fullShare x1 ∗ owns c.tc arg4 fullShare xi2 ∗ (∃ d, owns c.tc arg5 fullShare d)
            ∗ (iprop(owns c.tc arg2 fullShare x0 ∗ owns c.tc arg3 fullShare x1 ∗ owns c.tc arg4 fullShare xi2 ∗ (∃ f, arg5.view.loc c.tc ↦[arg5.view.set]{fullShare} arg5.view.writes (Elt F) f LS0)) -∗ K ⟨⟩))
          ⊢ wp frame (wpE (defs₀ (F := F)) Variants.none c none) E (cc2__stageC_kernel i arg2 harg2 arg3 harg3 arg4 harg4 arg5 harg5) K } := by
  refine ⟨[], ?_, fun xi2 E K => ?run⟩
  case run =>
    simp only [cc2__stageC_kernel_eq_skeleton, owns_unread harg2, owns_unread harg3, owns_unread harg4]; unfold cc2__stageC_kernel_skel
    unfold owns
    iintro ⟨H0, H1, H2, ⟨%ds0, %fs0, -, HS0⟩, Hk⟩
    sl_exec (disch := first | exact hc0 | exact hc1)
    sl_step
    iapply Hk
    iframe
    iexists _; iexact HS0

end Cert.KernelIdeal.Hand
-- ==== Proof.KI.R2RunB.lean ====
import proofs.«114212_j498216206442_1_alg».proof.Proof.KI.R2RunA

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 4000000 in
noncomputable def kernelRun2_B (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .f32) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns c.tc arg2 fullShare x0 ∗ owns c.tc arg3 fullShare x1 ∗ owns c.tc arg4 fullShare xi2 ∗ owns c.tc arg5 fullShare xs0
            ∗ (iprop(owns c.tc arg2 fullShare x0 ∗ owns c.tc arg3 fullShare x1 ∗ owns c.tc arg4 fullShare xi2 ∗ (∃ f, arg5.view.loc c.tc ↦[arg5.view.set]{fullShare} arg5.view.writes (Elt F) f LS0)) -∗ K ⟨⟩))
          ⊢ wp frame (wpE (defs₀ (F := F)) Variants.none c none) E (cc2__stageC_kernel i arg2 harg2 arg3 harg3 arg4 harg4 arg5 harg5) K } := by
  refine ⟨[], ?_, fun xi2 E K => ?run⟩
  case run =>
    simp only [cc2__stageC_kernel_eq_skeleton, owns_unread harg2, owns_unread harg3, owns_unread harg4, owns_unread harg5]; unfold cc2__stageC_kernel_skel
    iintro ⟨H0, H1, H2, HS0, Hk⟩
    sl_exec (disch := first | exact hc0 | exact hc1)
    sl_step
    iapply Hk
    iframe
    iexists _; iexact HS0

end Cert.KernelIdeal.Hand
-- ==== Proof.KI.R2RunC.lean ====
import proofs.«114212_j498216206442_1_alg».proof.Proof.KI.R2RunB

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 4000000 in
noncomputable def kernelRun2_C (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .f32) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns c.tc arg2 fullShare x0 ∗ owns c.tc arg3 fullShare x1 ∗ (∃ d, owns c.tc arg4 fullShare d) ∗ owns c.tc arg5 fullShare xs0
            ∗ (iprop(owns c.tc arg2 fullShare x0 ∗ owns c.tc arg3 fullShare x1 ∗ (∃ f, arg4.view.loc c.tc ↦[arg4.view.set]{fullShare} arg4.view.writes (Elt F) f L2) ∗ (∃ f, arg5.view.loc c.tc ↦[arg5.view.set]{fullShare} arg5.view.writes (Elt F) f LS0)) -∗ K ⟨⟩))
          ⊢ wp frame (wpE (defs₀ (F := F)) Variants.none c none) E (cc2__stageC_kernel i arg2 harg2 arg3 harg3 arg4 harg4 arg5 harg5) K } := by
  refine ⟨?_, ?_, fun E K => ?run⟩
  case run =>
    simp only [cc2__stageC_kernel_eq_skeleton, owns_unread harg2, owns_unread harg3, owns_unread harg5]; unfold cc2__stageC_kernel_skel
    unfold owns
    iintro ⟨H0, H1, ⟨%d2, %f2, -, H2⟩, HS0, Hk⟩
    sl_exec (disch := first | exact hc0 | exact hc1)
    sl_step
    iapply Hk
    iframe
    isplitl [H2]; · iexists _; iexact H2
    iexists _; iexact HS0

end Cert.KernelIdeal.Hand
-- ==== Proof.KI.R2Dat.lean ====
import proofs.«114212_j498216206442_1_alg».proof.Proof.KI.R2RunC

noncomputable section

namespace Cert.KernelIdeal.Hand

open Cert.KernelIdeal Cert.KernelIdeal.Gen
open Idealize ShloMosaic ShloMosaic.TcCoe ShloMosaic.Tactic SL SL.RA SL.BI SL.BI.BIBase SL.BI.Laws SL.ProofMode SL.Sem
open ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

section
variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)

section
variable (hc0 : cond2_0 i) (hc1 : ¬cond2_1 i) (x0 : Vec F S1024x1024 .f32) (x1 : Vec F S1024x128 .f32)

def out2_A_2 : Vec F S1024x128 .f32 :=
  VO2_2.read (Elt F) (VO2_2.writes (Elt F) VO2_2.junk (kernelRun2_A c i arg2 harg2 arg3 harg3 arg4 harg4 arg5 harg5 hc0 hc1 x0 x1).1)

theorem scover2_A_0 (y : S1024x128.Idx) : ∃ pc ∈ (kernelRun2_A c i arg2 harg2 arg3 harg3 arg4 harg4 arg5 harg5 hc0 hc1 x0 x1).2.1, y ∈ pc.1.set :=
  View.cover_of_tiledL _ S1024x128.size (by sl_kernel_rfl) y

def sout2_A_0 : Vec F S1024x128 .f32 :=
  VS2_0.read (Elt F) (VS2_0.writes (Elt F) VS2_0.junk (kernelRun2_A c i arg2 harg2 arg3 harg3 arg4 harg4 arg5 harg5 hc0 hc1 x0 x1).2.1)

end

variable (hc0 : ¬cond2_0 i)

section
variable (hc1 : ¬cond2_1 i) (x0 : Vec F S1024x1024 .f32) (x1 : Vec F S1024x128 .f32) (xs0 : Vec F S1024x128 .f32)

def out2_B_2 : Vec F S1024x128 .f32 :=
  VO2_2.read (Elt F) (VO2_2.writes (Elt F) VO2_2.junk (kernelRun2_B c i arg2 harg2 arg3 harg3 arg4 harg4 arg5 harg5 hc0 hc1 x0 x1 xs0).1)

theorem scover2_B_0 (y : S1024x128.Idx) : ∃ pc ∈ (kernelRun2_B c i arg2 harg2 arg3 harg3 arg4 harg4 arg5 harg5 hc0 hc1 x0 x1 xs0).2.1, y ∈ pc.1.set :=
  View.cover_of_tiledL _ S1024x128.size (by sl_kernel_rfl) y

def sout2_B_0 : Vec F S1024x128 .f32 :=
  VS2_0.read (Elt F) (VS2_0.writes (Elt F) VS2_0.junk (kernelRun2_B c i arg2 harg2 arg3 harg3 arg4 harg4 arg5 harg5 hc0 hc1 x0 x1 xs0).2.1)

end

variable (hc1 : cond2_1 i) (x0 : Vec F S1024x1024 .f32) (x1 : Vec F S1024x128 .f32) (xs0 : Vec F S1024x128 .f32)

theorem cover2_C_2 (y : S1024x128.Idx) : ∃ pc ∈ (kernelRun2_C c i arg2 harg2 arg3 harg3 arg4 harg4 arg5 harg5 hc0 hc1 x0 x1 xs0).1, y ∈ pc.1.set :=
  View.cover_of_tiledL _ S1024x128.size (by sl_kernel_rfl) y

def out2_C_2 : Vec F S1024x128 .f32 :=
  VO2_2.read (Elt F) (VO2_2.writes (Elt F) VO2_2.junk (kernelRun2_C c i arg2 harg2 arg3 harg3 arg4 harg4 arg5 harg5 hc0 hc1 x0 x1 xs0).1)

theorem scover2_C_0 (y : S1024x128.Idx) : ∃ pc ∈ (kernelRun2_C c i arg2 harg2 arg3 harg3 arg4 harg4 arg5 harg5 hc0 hc1 x0 x1 xs0).2.1, y ∈ pc.1.set :=
  View.cover_of_tiledL _ S1024x128.size (by sl_kernel_rfl) y

def sout2_C_0 : Vec F S1024x128 .f32 :=
  VS2_0.read (Elt F) (VS2_0.writes (Elt F) VS2_0.junk (kernelRun2_C c i arg2 harg2 arg3 harg3 arg4 harg4 arg5 harg5 hc0 hc1 x0 x1 xs0).2.1)

end

def leaves2_A (c : Dev nD) (t : Fin cfg2.N) (h0 : t.val % 8 = 0) (h1 : ¬t.val % 8 = 7) : Vec F S1024x128 .f32 × Vec F S1024x128 .f32 :=
  (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
   sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t))

def leaves2_B (c : Dev nD) (t : Fin cfg2.N) (h0 : ¬t.val % 8 = 0) (h1 : ¬t.val % 8 = 7) (xs : Vec F S1024x128 .f32) : Vec F S1024x128 .f32 × Vec F S1024x128 .f32 :=
  (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs,
   sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs)

def leaves2_C (c : Dev nD) (t : Fin cfg2.N) (h0 : ¬t.val % 8 = 0) (h1 : t.val % 8 = 7) (xs : Vec F S1024x128 .f32) : Vec F S1024x128 .f32 × Vec F S1024x128 .f32 :=
  (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs,
   sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs)

def outsAt2 (c : Dev nD) : (n : ℕ) → n < cfg2.N → Vec F S1024x128 .f32 × Vec F S1024x128 .f32
  | 0, hn => leaves2_A V c ⟨0, hn⟩ (Nat.zero_mod _) (by show ¬(0 % 8 = 7); omega)
  | n + 1, hn =>
    if h0 : (n + 1) % 8 = 0 then
      if h1 : (n + 1) % 8 = 7 then False.elim (by omega)
      else leaves2_A V c ⟨n + 1, hn⟩ h0 h1
    else
      if h1 : (n + 1) % 8 = 7 then leaves2_C V c ⟨n + 1, hn⟩ h0 h1 (outsAt2 c n (Nat.lt_of_succ_lt hn)).2
      else leaves2_B V c ⟨n + 1, hn⟩ h0 h1 (outsAt2 c n (Nat.lt_of_succ_lt hn)).2

theorem outsAt2_A (c : Dev nD) (t : Fin cfg2.N) (h0 : t.val % 8 = 0) (h1 : ¬t.val % 8 = 7) :
    outsAt2 V c t.val t.isLt = leaves2_A V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = leaves2_B V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 8 = 0) (h1 : t.val % 8 = 7) :
    outsAt2 V c t.val t.isLt = leaves2_C V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def accAt2 (c : Dev nD) (x : Vec F S1024x128 .f32) : sProp 𝕄 :=
  iprop(iprop(owns (c : Thread nD τ) scM2_0 fullShare x ∗ Pipeline.scopedRestBut spec2 c [cc2_scratch0]) ∗ (∃ r, prngReg c r))

def PhiS2 (c : Dev nD) : (n : ℕ) → n ≤ cfg2.N → sProp 𝕄
  | 0, _ => Pipeline.ΦA spec2 c
  | n + 1, hn => accAt2 c (outsAt2 V c n hn).2

theorem PhiS2_pos (c : Dev nD) (n : ℕ) (h : n ≤ cfg2.N) (hz : n ≠ 0) :
    PhiS2 V c n h = accAt2 c (outsAt2 V c (n - 1) (by omega)).2 := by
  cases n with
  | zero => exact absurd rfl hz
  | succ n => rfl

theorem PhiS2_forget (c : Dev nD) (n : ℕ) (h : n ≤ cfg2.N) : PhiS2 V c n h ⊢ Pipeline.ΦA spec2 c := by
  cases n with
  | zero => exact Entails.refl _
  | succ n =>
    rw [PhiA2_eq]; unfold PhiS2 accAt2
    iintro ⟨⟨HS0, HR⟩, Hg⟩
    iframe; iexists _; iexact HS0

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (fun _ => rfl) t d
theorem before2_1 (c : Dev nD) (t : Fin cfg2.N) (d) : (dat2 V c).before 1 t d = iblk2 V c 1 t :=
  before2_1_of V (dat2 V c) (A_eq2 V c 1) (fun _ => rfl) t d

def bodyPre2 (c : Dev nD) (t : Fin cfg2.N) : sProp 𝕄 :=
  iprop(PhiS2 V c t.val (Nat.le_of_lt t.isLt) ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop(accAt2 c (outsAt2 V c t.val t.isLt).2 ∗ (dat2 V c).owesAt () t.castSucc
    ∗ (dat2 V c).leavesExact 0 t
    ∗ (dat2 V c).leavesExact 1 t
    ∗ (dat2 V c).leavesExact 2 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).leavesExact 0 t = owns (c : Thread nD τ) (ms2_0 t) fullShare (iblk2 V c 0 t) from by
      unfold Dat.leavesExact; rw [liveAt2_0 t] <;> rfl,
    show (dat2 V c).leavesExact 1 t = owns (c : Thread nD τ) (ms2_1 t) fullShare (iblk2 V c 1 t) from by
      unfold Dat.leavesExact; rw [liveAt2_1 t] <;> rfl]
  by_cases hc0 : cond2_0 (grid2.coords t)
  · have h0 := (hcond2_0 t).mp hc0
    have hc1 : ¬cond2_1 (grid2.coords t) := fun h => by have := (hcond2_1 t).mp h; omega
    rw [Dat.leavesExact_idle (dat2 V c) 2 t (idleAt2_2_A t hc0 hc1) (noFlush2_2_A t hc0 hc1), outsAt2_A V c t h0 (by omega)]
    unfold leaves2_A sout2_A_0 accAt2; (try dsimp only)
    refine (sep_mono_left (PhiS2_forget V c _ _)).trans ?_
    rw [PhiA2_eq]
    iintro ⟨⟨⟨HS0, HR⟩, Hg⟩, Ho, ⟨%d0, H0⟩, ⟨%d1, H1⟩, ⟨%d2, H2⟩⟩
    iapply ((kernelRun2_A c (grid2.coords t) _ _ _ _ _ _ _ _ hc0 hc1 (iblk2 V c 0 t) (iblk2 V c 1 t)).2.2 _ Set.univ _)
    iframe H0 H1 H2 HS0
    iintro ⟨H0, H1, H2, ⟨%es0, HS0⟩⟩
    ihave HS0 := owns_of_cover VS2_0 (scover2_A_0 c _ _ _ _ _ _ _ _ _ _ _ _ _) $$ HS0
    iframe
    iexists _; iexact H2
  · have h0 : ¬t.val % 8 = 0 := fun h => hc0 ((hcond2_0 t).mpr h)
    rw [PhiS2_pos V c _ _ fun e => h0 (by rw [e])]
    by_cases hc1 : cond2_1 (grid2.coords t)
    · rw [show (dat2 V c).leavesExact 2 t = owns (c : Thread nD τ) (ms2_2 t) fullShare ((dat2 V c).after 2 t) from by
        unfold Dat.leavesExact; rw [liveAt2_2_C t hc0 hc1], after2_2, outsAt2_C V c t h0 ((hcond2_1 t).mp hc1)]
      unfold leaves2_C out2_C_2 sout2_C_0 accAt2; (try dsimp only)
      iintro ⟨⟨⟨HS0, HR⟩, Hg⟩, Ho, ⟨%d0, H0⟩, ⟨%d1, H1⟩, ⟨%d2, H2⟩⟩
      iapply ((kernelRun2_C c (grid2.coords t) _ _ _ _ _ _ _ _ hc0 hc1 (iblk2 V c 0 t) (iblk2 V c 1 t) _).2.2 Set.univ _)
      iframe H0 H1 HS0
      isplitl [H2]; · iexists _; iexact H2
      iintro ⟨H0, H1, ⟨%e2, H2⟩, ⟨%es0, HS0⟩⟩
      ihave HS0 := owns_of_cover VS2_0 (scover2_C_0 c _ _ _ _ _ _ _ _ _ _ _ _ _ _) $$ HS0
      ihave H2 := owns_of_cover VO2_2 (cover2_C_2 c _ _ _ _ _ _ _ _ _ _ _ _ _ _) $$ H2
      iframe
    · rw [Dat.leavesExact_idle (dat2 V c) 2 t (idleAt2_2_B t hc0 hc1) (noFlush2_2_B t hc0 hc1), outsAt2_B V c t h0 fun h => hc1 ((hcond2_1 t).mpr h)]
      unfold leaves2_B sout2_B_0 accAt2; (try dsimp only)
      iintro ⟨⟨⟨HS0, HR⟩, Hg⟩, Ho, ⟨%d0, H0⟩, ⟨%d1, H1⟩, ⟨%d2, H2⟩⟩
      iapply ((kernelRun2_B c (grid2.coords t) _ _ _ _ _ _ _ _ hc0 hc1 (iblk2 V c 0 t) (iblk2 V c 1 t) _).2.2 _ Set.univ _)
      iframe H0 H1 H2 HS0
      iintro ⟨H0, H1, H2, ⟨%es0, HS0⟩⟩
      ihave HS0 := owns_of_cover VS2_0 (scover2_B_0 c _ _ _ _ _ _ _ _ _ _ _ _ _ _) $$ HS0
      iframe
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 :=
  Entails.refl _

theorem hout2 (c : Dev nD) : (dat2 V c).Φ (Fin.last cfg2.N) ⊢ Pipeline.ΦA spec2 c :=
  PhiS2_forget V c (Fin.last cfg2.N).val _

end Cert.KernelIdeal.Hand

end
-- ==== Proof.KI.R3Runs.lean ====
import proofs.«114212_j498216206442_1_alg».proof.Proof.KI.Common

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem blockOf3_eq {c : Dev nD} (dat : Pipeline.Dat τ (Elt F) Unit ℕ (Pipeline.UD sig nD τ) ℕ cfg3 c) (w : Fin cfg3.W) (hA : dat.A w = V c (Pipeline.arrRef spec3 w)) (t : Fin cfg3.N) :
    dat.blockOf w t = iblk3 V c w t := by
  unfold Pipeline.Dat.blockOf iblk3; rw [hA]

section
variable {c : Dev nD} (dat : Pipeline.Dat τ (Elt F) Unit ℕ (Pipeline.UD sig nD τ) ℕ cfg3 c)

theorem before3_0_of (hA : dat.A 0 = V c (Pipeline.arrRef spec3 0)) (hafter : ∀ t, dat.after 0 t = iblk3 V c 0 t) (t : Fin cfg3.N) (d) :
    dat.before 0 t d = iblk3 V c 0 t :=
  (dat.before_in_eq_fetched 0 rfl (fun _ => rfl) (fun _ _ _ => rfl) (fun t => (hafter t).trans (blockOf3_eq V dat 0 hA t).symm) t d).trans (blockOf3_eq V dat 0 hA t)
theorem before3_1_of (hA : dat.A 1 = V c (Pipeline.arrRef spec3 1)) (hafter : ∀ t, dat.after 1 t = iblk3 V c 1 t) (t : Fin cfg3.N) (d) :
    dat.before 1 t d = iblk3 V c 1 t :=
  (dat.before_in_eq_fetched 1 rfl (fun _ => rfl) (fun _ _ _ => rfl) (fun t => (hafter t).trans (blockOf3_eq V dat 1 hA t).symm) t d).trans (blockOf3_eq V dat 1 hA t)
theorem before3_2_of (hA : dat.A 2 = V c (Pipeline.arrRef spec3 2)) (hafter : ∀ t, dat.after 2 t = iblk3 V c 2 t) (t : Fin cfg3.N) (d) :
    dat.before 2 t d = iblk3 V c 2 t :=
  (dat.before_in_eq_fetched 2 rfl (fun _ => rfl) (fun _ _ _ => rfl) (fun t => (hafter t).trans (blockOf3_eq V dat 2 hA t).symm) t d).trans (blockOf3_eq V dat 2 hA t)

end

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 4 = 0 := by decide +kernel

abbrev VO3_3 : View sig .tc .vmem S128x128 .f32 := (Memref.whole cc3_stg3_0 : Memref sig .tc .vmem S128x128 .f32).view
abbrev VO3_4 : View sig .tc .vmem S128x128 .f32 := (Memref.whole cc3_stg4_0 : Memref sig .tc .vmem S128x128 .f32).view

abbrev ms3_0 (t : Fin cfg3.N) : Memref sig .tc .vmem S2048x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x128 .f32 := win3_4.stage (cfg3.slots t 4)
abbrev hs3_4 (t : Fin cfg3.N) : (ms3_4 t).IsWhole := hstage3_4 ((cfg3.slots t 4).cast nbuf3_4)

end Cert.KernelIdeal.Hand
-- ==== Proof.KI.R3RunA.lean ====
import proofs.«114212_j498216206442_1_alg».proof.Proof.KI.R3Runs

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun3_A (c : Dev nD) (i : grid3.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x128 .f32) (harg4 : arg4.IsWhole)
    (arg5 : Memref sig .tc .vmem S128x128 .f32) (harg5 : arg5.IsWhole) (hc0 : cond3_0 i)
    (x0 x1 x2 : Vec F S2048x128 .f32) :
    Σ' (L3 : List (View.Piece (Elt F) S128x128 .f32)), { L4 : List (View.Piece (Elt F) S128x128 .f32) //
      ∀ (E : Set ℕ) (K : PUnit → sProp 𝕄),
        iprop(owns c.tc arg1 fullShare x0 ∗ owns c.tc arg2 fullShare x1 ∗ owns c.tc arg3 fullShare x2
            ∗ (∃ d, owns c.tc arg4 fullShare d) ∗ (∃ d, owns c.tc arg5 fullShare d)
            ∗ (iprop(owns c.tc arg1 fullShare x0 ∗ owns c.tc arg2 fullShare x1 ∗ owns c.tc arg3 fullShare x2
                ∗ (∃ f, arg4.view.loc c.tc ↦[arg4.view.set]{fullShare} arg4.view.writes (Elt F) f L3)
                ∗ (∃ f, arg5.view.loc c.tc ↦[arg5.view.set]{fullShare} arg5.view.writes (Elt F) f L4)) -∗ K ⟨⟩))
          ⊢ wp frame (wpE (defs₀ (F := F)) Variants.none c none) E (cc3__pool_kernel i arg1 harg1 arg2 harg2 arg3 harg3 arg4 harg4 arg5 harg5) K } := by
  refine ⟨?_, ?_, fun E K => ?run⟩
  case run =>
    simp only [cc3__pool_kernel_eq_skeleton, owns_unread harg1, owns_unread harg2, owns_unread harg3]; unfold cc3__pool_kernel_skel
    unfold owns
    iintro ⟨H0, H1, H2, ⟨%d3, %f3, -, H3⟩, ⟨%d4, %f4, -, H4⟩, Hk⟩
    sl_exec (disch := first | exact hc0)
    sl_step
    iapply Hk
    iframe
    isplitl [H3]
    · iexists _; iexact H3
    iexists _; iexact H4

end Cert.KernelIdeal.Hand
-- ==== Proof.KI.R3RunB.lean ====
import proofs.«114212_j498216206442_1_alg».proof.Proof.KI.R3RunA

namespace Cert.KernelIdeal.Hand

open Cert.KernelIdeal Cert.KernelIdeal.Gen
open Idealize ShloMosaic ShloMosaic.TcCoe ShloMosaic.Tactic SL SL.RA SL.BI SL.BI.BIBase SL.ProofMode SL.Sem

variable {F : FTy → Type} [FloatOps F]

local notation "𝕄" => MT nD τ sig Unit (Elt F) ℕ (Pipeline.UD sig nD τ) ℕ

set_option maxHeartbeats 1000000 in
noncomputable def kernelRun3_B (c : Dev nD) (i : grid3.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x128 .f32) (harg4 : arg4.IsWhole)
    (arg5 : Memref sig .tc .vmem S128x128 .f32) (harg5 : arg5.IsWhole) (hc0 : ¬cond3_0 i)
    (x0 x1 x2 : Vec F S2048x128 .f32) (xo3 xo4 : Vec F S128x128 .f32) :
    Σ' (L3 : List (View.Piece (Elt F) S128x128 .f32)), { L4 : List (View.Piece (Elt F) S128x128 .f32) //
      ∀ (E : Set ℕ) (K : PUnit → sProp 𝕄),
        iprop(owns c.tc arg1 fullShare x0 ∗ owns c.tc arg2 fullShare x1 ∗ owns c.tc arg3 fullShare x2
            ∗ owns c.tc arg4 fullShare xo3 ∗ owns c.tc arg5 fullShare xo4
            ∗ (iprop(owns c.tc arg1 fullShare x0 ∗ owns c.tc arg2 fullShare x1 ∗ owns c.tc arg3 fullShare x2
                ∗ (∃ f, arg4.view.loc c.tc ↦[arg4.view.set]{fullShare} arg4.view.writes (Elt F) f L3)
                ∗ (∃ f, arg5.view.loc c.tc ↦[arg5.view.set]{fullShare} arg5.view.writes (Elt F) f L4)) -∗ K ⟨⟩))
          ⊢ wp frame (wpE (defs₀ (F := F)) Variants.none c none) E (cc3__pool_kernel i arg1 harg1 arg2 harg2 arg3 harg3 arg4 harg4 arg5 harg5) K } := by
  refine ⟨?_, ?_, fun E K => ?run⟩
  case run =>
    simp only [cc3__pool_kernel_eq_skeleton, owns_unread harg1, owns_unread harg2, owns_unread harg3, owns_unread harg4, owns_unread harg5]; unfold cc3__pool_kernel_skel
    iintro ⟨H0, H1, H2, H3, H4, Hk⟩
    sl_exec (disch := first | exact hc0)
    sl_step
    iapply Hk
    iframe
    isplitl [H3]
    · iexists _; iexact H3
    iexists _; iexact H4

end Cert.KernelIdeal.Hand
-- ==== Proof.KI.R3Dat.lean ====
import proofs.«114212_j498216206442_1_alg».proof.Proof.KI.R3RunB

noncomputable section

namespace Cert.KernelIdeal.Hand

open Cert.KernelIdeal Cert.KernelIdeal.Gen
open Idealize ShloMosaic ShloMosaic.TcCoe ShloMosaic.Tactic SL SL.RA SL.BI SL.BI.BIBase SL.ProofMode SL.Sem
open ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

section
variable (c : Dev nD) (i : grid3.Coords) (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x128 .f32) (harg4 : arg4.IsWhole)
    (arg5 : Memref sig .tc .vmem S128x128 .f32) (harg5 : arg5.IsWhole)

section
variable (hc0 : cond3_0 i) (x0 x1 x2 : Vec F S2048x128 .f32)

theorem cover3_A_3 (y : S128x128.Idx) : ∃ pc ∈ (kernelRun3_A c i arg1 harg1 arg2 harg2 arg3 harg3 arg4 harg4 arg5 harg5 hc0 x0 x1 x2).1, y ∈ pc.1.set :=
  View.cover_of_tiledL _ S128x128.size (by sl_kernel_rfl) y

def out3_A_3 : Vec F S128x128 .f32 :=
  VO3_3.read (Elt F) (VO3_3.writes (Elt F) VO3_3.junk (kernelRun3_A c i arg1 harg1 arg2 harg2 arg3 harg3 arg4 harg4 arg5 harg5 hc0 x0 x1 x2).1)

theorem cover3_A_4 (y : S128x128.Idx) : ∃ pc ∈ (kernelRun3_A c i arg1 harg1 arg2 harg2 arg3 harg3 arg4 harg4 arg5 harg5 hc0 x0 x1 x2).2.1, y ∈ pc.1.set :=
  View.cover_of_tiledL _ S128x128.size (by sl_kernel_rfl) y

def out3_A_4 : Vec F S128x128 .f32 :=
  VO3_4.read (Elt F) (VO3_4.writes (Elt F) VO3_4.junk (kernelRun3_A c i arg1 harg1 arg2 harg2 arg3 harg3 arg4 harg4 arg5 harg5 hc0 x0 x1 x2).2.1)

end

variable (hc0 : ¬cond3_0 i) (x0 x1 x2 : Vec F S2048x128 .f32) (xo3 xo4 : Vec F S128x128 .f32)

theorem cover3_B_3 (y : S128x128.Idx) : ∃ pc ∈ (kernelRun3_B c i arg1 harg1 arg2 harg2 arg3 harg3 arg4 harg4 arg5 harg5 hc0 x0 x1 x2 xo3 xo4).1, y ∈ pc.1.set :=
  View.cover_of_tiledL _ S128x128.size (by sl_kernel_rfl) y

def out3_B_3 : Vec F S128x128 .f32 :=
  VO3_3.read (Elt F) (VO3_3.writes (Elt F) VO3_3.junk (kernelRun3_B c i arg1 harg1 arg2 harg2 arg3 harg3 arg4 harg4 arg5 harg5 hc0 x0 x1 x2 xo3 xo4).1)

theorem cover3_B_4 (y : S128x128.Idx) : ∃ pc ∈ (kernelRun3_B c i arg1 harg1 arg2 harg2 arg3 harg3 arg4 harg4 arg5 harg5 hc0 x0 x1 x2 xo3 xo4).2.1, y ∈ pc.1.set :=
  View.cover_of_tiledL _ S128x128.size (by sl_kernel_rfl) y

def out3_B_4 : Vec F S128x128 .f32 :=
  VO3_4.read (Elt F) (VO3_4.writes (Elt F) VO3_4.junk (kernelRun3_B c i arg1 harg1 arg2 harg2 arg3 harg3 arg4 harg4 arg5 harg5 hc0 x0 x1 x2 xo3 xo4).2.1)

end

theorem not_cond3_0_succ (n : ℕ) (hn : n + 1 < cfg3.N) : ¬cond3_0 (grid3.coords ⟨n + 1, hn⟩) := fun h => by
  have h4 := (hcond3_0 ⟨n + 1, hn⟩).mp h
  have hN : n + 1 < 4 := lt_of_lt_of_eq hn (show cfg3.N = 4 from N_3)
  dsimp only at h4; omega

theorem not_cond3_0_of_ne (t : Fin cfg3.N) (h0 : t.val ≠ 0) : ¬cond3_0 (grid3.coords t) := fun h => by
  have h4 := (hcond3_0 t).mp h
  have hN : t.val < 4 := lt_of_lt_of_eq t.isLt (show cfg3.N = 4 from N_3)
  omega

theorem cond3_0_of_eq (t : Fin cfg3.N) (h0 : t.val = 0) : cond3_0 (grid3.coords t) := (hcond3_0 t).mpr (by rw [h0])

def outsAt3 (c : Dev nD) : (n : ℕ) → n < cfg3.N → Vec F S128x128 .f32 × Vec F S128x128 .f32
  | 0, hn =>
    (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (cond3_0_of_eq ⟨0, hn⟩ rfl) (iblk3 V c 0 ⟨0, hn⟩) (iblk3 V c 1 ⟨0, hn⟩) (iblk3 V c 2 ⟨0, hn⟩),
     out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (cond3_0_of_eq ⟨0, hn⟩ rfl) (iblk3 V c 0 ⟨0, hn⟩) (iblk3 V c 1 ⟨0, hn⟩) (iblk3 V c 2 ⟨0, hn⟩))
  | n + 1, hn =>
    (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (not_cond3_0_succ n hn) (iblk3 V c 0 ⟨n + 1, hn⟩) (iblk3 V c 1 ⟨n + 1, hn⟩) (iblk3 V c 2 ⟨n + 1, hn⟩)
        (outsAt3 c n (Nat.lt_of_succ_lt hn)).1 (outsAt3 c n (Nat.lt_of_succ_lt hn)).2,
     out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (not_cond3_0_succ n hn) (iblk3 V c 0 ⟨n + 1, hn⟩) (iblk3 V c 1 ⟨n + 1, hn⟩) (iblk3 V c 2 ⟨n + 1, hn⟩)
        (outsAt3 c n (Nat.lt_of_succ_lt hn)).1 (outsAt3 c n (Nat.lt_of_succ_lt hn)).2)

theorem outsAt3_A (c : Dev nD) (t : Fin cfg3.N) (h0 : t.val = 0) :
    outsAt3 V c t.val t.isLt =
      (out3_A_3 c (grid3.coords t) (ms3_0 t) (hs3_0 t) (ms3_1 t) (hs3_1 t) (ms3_2 t) (hs3_2 t) (ms3_3 t) (hs3_3 t) (ms3_4 t) (hs3_4 t) (cond3_0_of_eq t h0) (iblk3 V c 0 t) (iblk3 V c 1 t) (iblk3 V c 2 t),
       out3_A_4 c (grid3.coords t) (ms3_0 t) (hs3_0 t) (ms3_1 t) (hs3_1 t) (ms3_2 t) (hs3_2 t) (ms3_3 t) (hs3_3 t) (ms3_4 t) (hs3_4 t) (cond3_0_of_eq t h0) (iblk3 V c 0 t) (iblk3 V c 1 t) (iblk3 V c 2 t)) := by
  obtain ⟨n, hn⟩ := t
  cases n with
  | zero => rfl
  | succ n => exact absurd h0 (Nat.succ_ne_zero n)

theorem outsAt3_B (c : Dev nD) (t : Fin cfg3.N) (h0 : t.val ≠ 0) :
    outsAt3 V c t.val t.isLt =
      (out3_B_3 c (grid3.coords t) (ms3_0 t) (hs3_0 t) (ms3_1 t) (hs3_1 t) (ms3_2 t) (hs3_2 t) (ms3_3 t) (hs3_3 t) (ms3_4 t) (hs3_4 t) (not_cond3_0_of_ne t h0) (iblk3 V c 0 t) (iblk3 V c 1 t) (iblk3 V c 2 t)
          (outsAt3 V c (t.val - 1) (Nat.lt_of_le_of_lt (Nat.sub_le _ _) t.isLt)).1 (outsAt3 V c (t.val - 1) (Nat.lt_of_le_of_lt (Nat.sub_le _ _) t.isLt)).2,
       out3_B_4 c (grid3.coords t) (ms3_0 t) (hs3_0 t) (ms3_1 t) (hs3_1 t) (ms3_2 t) (hs3_2 t) (ms3_3 t) (hs3_3 t) (ms3_4 t) (hs3_4 t) (not_cond3_0_of_ne t h0) (iblk3 V c 0 t) (iblk3 V c 1 t) (iblk3 V c 2 t)
          (outsAt3 V c (t.val - 1) (Nat.lt_of_le_of_lt (Nat.sub_le _ _) t.isLt)).1 (outsAt3 V c (t.val - 1) (Nat.lt_of_le_of_lt (Nat.sub_le _ _) t.isLt)).2) := by
  obtain ⟨n, hn⟩ := t
  cases n with
  | zero => exact absurd rfl h0
  | succ n => rfl

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2 := by dsimp only [dat3]

theorem before3_0 (c : Dev nD) (t : Fin cfg3.N) (d) : (dat3 V c).before 0 t d = iblk3 V c 0 t :=
  before3_0_of V (dat3 V c) (A_eq3 V c 0) (fun _ => rfl) t d
theorem before3_1 (c : Dev nD) (t : Fin cfg3.N) (d) : (dat3 V c).before 1 t d = iblk3 V c 1 t :=
  before3_1_of V (dat3 V c) (A_eq3 V c 1) (fun _ => rfl) t d
theorem before3_2 (c : Dev nD) (t : Fin cfg3.N) (d) : (dat3 V c).before 2 t d = iblk3 V c 2 t :=
  before3_2_of V (dat3 V c) (A_eq3 V c 2) (fun _ => rfl) t d

theorem before3_3_B (c : Dev nD) (t : Fin cfg3.N) (h0 : t.val ≠ 0) (d) :
    (dat3 V c).before 3 t d = (outsAt3 V c (t.val - 1) (Nat.lt_of_le_of_lt (Nat.sub_le _ _) t.isLt)).1 := by
  have hN : t.val < 4 := lt_of_lt_of_eq t.isLt (show cfg3.N = 4 from N_3)
  rw [Dat.before_out_kept _ 3 rfl t h0 (Bool.eq_false_iff.mpr fun h => by have := (flush3_3 _).mp h; dsimp only at this; omega)
    (fun _ => rfl) (fun _ _ => rfl)]
  dsimp only [dat3]

theorem before3_4_B (c : Dev nD) (t : Fin cfg3.N) (h0 : t.val ≠ 0) (d) :
    (dat3 V c).before 4 t d = (outsAt3 V c (t.val - 1) (Nat.lt_of_le_of_lt (Nat.sub_le _ _) t.isLt)).2 := by
  have hN : t.val < 4 := lt_of_lt_of_eq t.isLt (show cfg3.N = 4 from N_3)
  rw [Dat.before_out_kept _ 4 rfl t h0 (Bool.eq_false_iff.mpr fun h => by have := (flush3_4 _).mp h; dsimp only at this; omega)
    (fun _ => rfl) (fun _ _ => rfl)]
  dsimp only [dat3]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.castSucc ∗ (dat3 V c).owesAt () t.castSucc
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (outsAt3 V c t.val t.isLt).1
    ∗ owns (c : Thread nD τ) (ms3_4 t) fullShare (outsAt3 V c t.val t.isLt).2)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  by_cases h0 : t.val = 0
  · rw [outsAt3_A V c t h0]; dsimp only
    unfold out3_A_3 out3_A_4
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ (cond3_0_of_eq t h0) (iblk3 V c 0 t) (iblk3 V c 1 t) (iblk3 V c 2 t)).2.2 Set.univ _)
    iframe H0 H1 H2
    isplitl [H3]; · iexists _; iexact H3
    isplitl [H4]; · iexists _; iexact H4
    iintro ⟨H0, H1, H2, ⟨%e3, H3⟩, ⟨%e4, H4⟩⟩
    ihave H3 := owns_of_cover VO3_3 (cover3_A_3 c _ _ _ _ _ _ _ _ _ _ _ _ _ _ _) $$ H3
    ihave H4 := owns_of_cover VO3_4 (cover3_A_4 c _ _ _ _ _ _ _ _ _ _ _ _ _ _ _) $$ H4
    iframe
  · rw [outsAt3_B V c t h0]; dsimp only
    simp only [before3_3_B V c t h0, before3_4_B V c t h0]
    unfold out3_B_3 out3_B_4
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (not_cond3_0_of_ne t h0) (iblk3 V c 0 t) (iblk3 V c 1 t) (iblk3 V c 2 t) _ _).2.2 Set.univ _)
    iframe H0 H1 H2 H3 H4
    iintro ⟨H0, H1, H2, ⟨%e3, H3⟩, ⟨%e4, H4⟩⟩
    ihave H3 := owns_of_cover VO3_3 (cover3_B_3 c _ _ _ _ _ _ _ _ _ _ _ _ _ _ _ _ _) $$ H3
    ihave H4 := owns_of_cover VO3_4 (cover3_B_4 c _ _ _ _ _ _ _ _ _ _ _ _ _ _ _ _ _) $$ H4
    iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = Pipeline.ΦA spec3 c from rfl]

end Cert.KernelIdeal.Hand

end
-- ==== Proof.KI.Launch.lean ====
import proofs.«114212_j498216206442_1_alg».proof.Proof.KI.R0Dat
import proofs.«114212_j498216206442_1_alg».proof.Proof.KI.R1Dat
import proofs.«114212_j498216206442_1_alg».proof.Proof.KI.R2Dat
import proofs.«114212_j498216206442_1_alg».proof.Proof.KI.R3Dat
import proofs.«114212_j498216206442_1_alg».proof.Proof.Gen.KernelIdeal.Regions
import Idealize.ShloMosaic.Lib.Pipeline.Frame
import Idealize.ShloMosaic.Lib.Pipeline.Regions

noncomputable section

namespace Cert.KernelIdeal.Hand

open Idealize ShloMosaic ShloMosaic.TcCoe ShloMosaic.Tactic SL SL.RA SL.BI SL.BI.BIBase SL.BI.Laws SL.ProofMode SL.Sem ShloMosaic.Rounds
open Idealize.ShloMosaic.Pipeline (Dat BodyObligation)
open Cert.KernelIdeal.Gen

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

abbrev B0 (c : Dev nD) : Valuation τ sig (Elt F) := fun b => m (c, b)
abbrev T0 : (c : Dev nD) → (b : Ref sig .tc) → Buf (Elt F) ((c : Thread nD τ).loc b) := fun c b => B0 m c b

def B1 (c : Dev nD) : Valuation τ sig (Elt F) :=
  Function.update (B0 m c) main_v0 ((dat0 (T0 m) c).arrAt 1 cfg0.N)
abbrev T1 : (c : Dev nD) → (b : Ref sig .tc) → Buf (Elt F) ((c : Thread nD τ).loc b) := fun c b => B1 m c b

def B2 (c : Dev nD) : Valuation τ sig (Elt F) := StableHlo.after hostOps1 (B1 m c)
abbrev T2 : (c : Dev nD) → (b : Ref sig .tc) → Buf (Elt F) ((c : Thread nD τ).loc b) := fun c b => B2 m c b

def B3 (c : Dev nD) : Valuation τ sig (Elt F) :=
  Function.update (Function.update (B2 m c) main_v6_0 ((dat1 (T2 m) c).arrAt 8 cfg1.N)) main_v6_1 ((dat1 (T2 m) c).arrAt 9 cfg1.N)
abbrev T3 : (c : Dev nD) → (b : Ref sig .tc) → Buf (Elt F) ((c : Thread nD τ).loc b) := fun c b => B3 m c b

def B4 (c : Dev nD) : Valuation τ sig (Elt F) :=
  Function.update (B3 m c) main_v7 ((dat2 (T3 m) c).arrAt 2 cfg2.N)
abbrev T4 : (c : Dev nD) → (b : Ref sig .tc) → Buf (Elt F) ((c : Thread nD τ).loc b) := fun c b => B4 m c b

def B5 (c : Dev nD) : Valuation τ sig (Elt F) :=
  Function.update (Function.update (B4 m c) main_v8_0 ((dat3 (T4 m) c).arrAt 3 cfg3.N)) main_v8_1 ((dat3 (T4 m) c).arrAt 4 cfg3.N)
abbrev T5 : (c : Dev nD) → (b : Ref sig .tc) → Buf (Elt F) ((c : Thread nD τ).loc b) := fun c b => B5 m c b

theorem B1_v0 (c : Dev nD) : B1 m c main_v0 = (dat0 (T0 m) c).arrAt 1 cfg0.N := by
  unfold B1; exact Function.update_self _ _ _
theorem B1_of (c : Dev nD) (r : Ref sig .tc) (h : r ≠ main_v0) : B1 m c r = B0 m c r := by
  unfold B1; exact Function.update_of_ne (StableHlo.devRef_ne_of_ne h) _ _
theorem B2_of (c : Dev nD) (r : Ref sig .tc) (h : r ∉ hostOps1_W) : B2 m c r = B1 m c r :=
  StableHlo.after_of_writes_sub hostOps1 _ hostOps1_writes h
theorem B3_v6_1 (c : Dev nD) : B3 m c main_v6_1 = (dat1 (T2 m) c).arrAt 9 cfg1.N := by
  unfold B3; exact Function.update_self _ _ _
theorem B3_v6_0 (c : Dev nD) : B3 m c main_v6_0 = (dat1 (T2 m) c).arrAt 8 cfg1.N := by
  unfold B3
  rw [Function.update_of_ne (StableHlo.devRef_ne_of_ne (by decide : (main_v6_0 : Ref sig .tc) ≠ main_v6_1))]
  exact Function.update_self _ _ _
theorem B3_of (c : Dev nD) (r : Ref sig .tc) (h0 : r ≠ main_v6_0) (h1 : r ≠ main_v6_1) : B3 m c r = B2 m c r := by
  unfold B3
  rw [Function.update_of_ne (StableHlo.devRef_ne_of_ne h1), Function.update_of_ne (StableHlo.devRef_ne_of_ne h0)]
theorem B4_v7 (c : Dev nD) : B4 m c main_v7 = (dat2 (T3 m) c).arrAt 2 cfg2.N := by
  unfold B4; exact Function.update_self _ _ _
theorem B4_of (c : Dev nD) (r : Ref sig .tc) (h : r ≠ main_v7) : B4 m c r = B3 m c r := by
  unfold B4; exact Function.update_of_ne (StableHlo.devRef_ne_of_ne h) _ _
theorem B5_v8_1 (c : Dev nD) : B5 m c main_v8_1 = (dat3 (T4 m) c).arrAt 4 cfg3.N := by
  unfold B5; exact Function.update_self _ _ _
theorem B5_v8_0 (c : Dev nD) : B5 m c main_v8_0 = (dat3 (T4 m) c).arrAt 3 cfg3.N := by
  unfold B5
  rw [Function.update_of_ne (StableHlo.devRef_ne_of_ne (by decide : (main_v8_0 : Ref sig .tc) ≠ main_v8_1))]
  exact Function.update_self _ _ _
theorem B5_of (c : Dev nD) (r : Ref sig .tc) (h0 : r ≠ main_v8_0) (h1 : r ≠ main_v8_1) : B5 m c r = B4 m c r := by
  unfold B5
  rw [Function.update_of_ne (StableHlo.devRef_ne_of_ne h1), Function.update_of_ne (StableHlo.devRef_ne_of_ne h0)]

def pdats : (p : Fin 4) → (c : Dev nD) → Dat τ (Elt F) Unit ℕ (Pipeline.UD sig nD τ) ℕ (Pipeline.pin (pcfgs (F := F)) adm p) c
  | ⟨0, _⟩ => fun c => dat0 (T0 m) c
  | ⟨1, _⟩ => fun c => dat1 (T2 m) c
  | ⟨2, _⟩ => fun c => dat2 (T3 m) c
  | ⟨3, _⟩ => fun c => dat3 (T4 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev heldAt (c : Dev nD) (B : Valuation τ sig (Elt F)) : sProp 𝕄 := StableHlo.held (c : Thread nD τ) (Pipeline.ucRefs τ sig) B

abbrev hseg1 : Pipeline.HostSeg (Name := ℕ) (U := Pipeline.UD sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(heldAt c (B5 m c) ∗ ∃ r, prngReg c r)

section
variable {p : Fin 4} (lf : Pipeline.LaunchFacts (nD := nD) (τ := τ) cfgs p) (Bi Bo : Dev nD → Valuation τ sig (Elt F))
  (hb : ∀ c, BodyObligation (pdats m p c) (defs₀ (F := F)) Variants.none () Set.univ)
  (hq : ∀ c w, (pdats m p c).q w = fullShare)
  (hA : ∀ c w, (pdats m p c).A w = Bi c (Pipeline.arrRef (Pipeline.pin (pcfgs (F := F)) adm p).spec w))
  (hF : ∀ c w, (pdats m p c).arrAt w (Pipeline.pin (pcfgs (F := F)) adm p).N = Bo c (Pipeline.arrRef (Pipeline.pin (pcfgs (F := F)) adm p).spec w))
  (hr : ∀ c b, b ∉ Finset.univ.image (Pipeline.arrRef (Pipeline.pin (pcfgs (F := F)) adm p).spec) → Bo c b = Bi c b)
  (hi : ∀ c, Pipeline.ΦA (Pipeline.pin (pcfgs (F := F)) adm p).spec c ⊢ (pdats m p c).Φ 0)
  (ho : ∀ c, (pdats m p c).Φ (Fin.last _) ⊢ Pipeline.ΦA (Pipeline.pin (pcfgs (F := F)) adm p).spec c)
  (h0 : ∀ c t, (pdats m p c).owed t = 0) (hrec : ∀ c t, (pdats m p c).recorded t = Set.univ)

set_option backward.isDefEq.respectTransparency.types false in
-- A region whose windows sit on distinct whole arrays: it takes them out of the valuation it is entered with and puts them back at the one it leaves.
def regOf : Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(heldAt c (Bi c) ∗ R c)
  post c := iprop(heldAt c (Bo c) ∗ R c)
  X c := iprop(∃ r, prngReg c r)
  Y c := iprop(∃ r, prngReg c r)
  Z c := Pipeline.unscopedRest (Ix := Unit) (Name := ℕ) (U := Pipeline.UD sig nD τ) (Lvl := ℕ) (Pipeline.pin (pcfgs (F := F)) adm p).spec c (fun b => Bi c b)
  hentry c := by
    rw [Pipeline.ownSems0_none]
    have hsplit := Pipeline.arrays_of_unscopedBufs (p := p) (pcfgs (F := F)) adm (pdats m) lf.win lf.arr_whole c
      ((pdats m p c).share_full (hq c)) (fun b => Bi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun _ _ => Or.inl (by rw [hrec c]; trivial)
      iexact HO
    isplitl [Hp]; · iexact Hp
    iexact Hrest
  hin c := by
    refine Idealize.SL.BI.BIBase.Entails.trans ?_ (hi c)
    unfold Pipeline.ΦA
    iintro ⟨Hp, -, Hr⟩
    isplitl [Hr]; · iexact Hr
    iexact Hp
  hout c := by
    rw [Pipeline.ownSems0_none]
    refine Idealize.SL.BI.BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := Pipeline.UD sig nD τ) (Lvl := ℕ)
      lf.win lf.arr_whole c (pdats m) ((pdats m p c).share_full (hq c))
      (fun b => Bi c b) (fun b => Bo c b) ((pdats m p c).arrAt · (Pipeline.pin (pcfgs (F := F)) adm p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

end

theorem hF0 (c : Dev nD) : ∀ w : Fin cfg0.W, (dat0 (T0 m) c).arrAt w cfg0.N = T1 m c (Pipeline.arrRef spec0 w)
  | ⟨0, _⟩ => ((dat0 (T0 m) c).arrAt_in 0 rfl _).trans ((A_eq0 (T0 m) c 0).trans (B1_of m c main_arg1 (by decide)).symm)
  | ⟨1, _⟩ => (B1_v0 m c).symm
theorem hrest0 (c : Dev nD) : ∀ b, b ∉ Finset.univ.image (Pipeline.arrRef spec0) → T1 m c b = T0 m c b :=
  fun b hb => B1_of m c b fun e => hb (Finset.mem_image.mpr ⟨1, Finset.mem_univ _, e.symm⟩)

set_option backward.isDefEq.respectTransparency.types false in
def reg0 : Pipeline.RegionSeg (pcfgs (F := F)) adm (pdats m) () defs₀ 𝒱₀ L lv 0 :=
  regOf m launch0 (B0 m) (B1 m) (body_obligation0 (T0 m)) (fun _ _ => rfl) (A_eq0 (T0 m)) (hF0 m) (hrest0 m)
    (hin0 (T0 m)) (hout0 (T0 m)) (fun _ _ => rfl) (fun _ _ => rfl)

open Idealize.SL.BI (bigSepL bigSep_eq_bigSepL_of_eq)

abbrev pt (c : Dev nD) (b : Ref sig .tc) (q : PosShare TreeShare) (f : Buf (Elt F) ((c : Thread nD τ).loc b)) : sProp 𝕄 :=
  ((c : Thread nD τ).loc b) ↦{q} f

theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄) = iprop(pt c main_arg1 fullShare (G 0) ∗ pt c main_v1 fullShare.left (G 1) ∗ pt c main_v1 fullShare.right (G 2)
      ∗ pt c main_v0 fullShare (G 3) ∗ pt c main_v2 fullShare (G 4) ∗ pt c main_v4 fullShare (G 5) ∗ pt c main_v3 fullShare (G 6)
      ∗ pt c main_v5 fullShare (G 7) ∗ pt c main_v6_0 fullShare (G 8) ∗ pt c main_v6_1 fullShare (G 9)) := by
  unfold Dat.arrays
  rw [bigSep_W1]
  rw [(arr_whole1 0).set_eq_univ, (arr_whole1 1).set_eq_univ, (arr_whole1 3).set_eq_univ, (arr_whole1 4).set_eq_univ,
    (arr_whole1 5).set_eq_univ, (arr_whole1 6).set_eq_univ, (arr_whole1 7).set_eq_univ, (arr_whole1 8).set_eq_univ, (arr_whole1 9).set_eq_univ]
  rfl

theorem arrBufs1_eq (c : Dev nD) (W : (b : Ref sig .tc) → Buf (Elt F) ((c : Thread nD τ).loc b)) :
    (Pipeline.arrBufs (Ix := Unit) (Name := ℕ) (U := Pipeline.UD sig nD τ) (Lvl := ℕ) spec1 c W : sProp 𝕄)
      = iprop(pt c main_arg1 fullShare (W main_arg1) ∗ pt c main_v1 fullShare (W main_v1) ∗ pt c main_v0 fullShare (W main_v0)
        ∗ pt c main_v2 fullShare (W main_v2) ∗ pt c main_v4 fullShare (W main_v4) ∗ pt c main_v3 fullShare (W main_v3)
        ∗ pt c main_v5 fullShare (W main_v5) ∗ pt c main_v6_0 fullShare (W main_v6_0) ∗ pt c main_v6_1 fullShare (W main_v6_1)) := by
  unfold Pipeline.arrBufs
  rw [bigSep_eq_bigSepL_of_eq [main_arg1, main_v1, main_v0, main_v2, main_v4, main_v3, main_v5, main_v6_0, main_v6_1] (by decide) (by decide)]
  rfl

theorem held_split1 (c : Dev nD) (B : Valuation τ sig (Elt F)) :
    (heldAt c B : sProp 𝕄) = iprop(Pipeline.arrBufs spec1 c (fun b => B b) ∗ Pipeline.unscopedRest spec1 c (fun b => B b)) := by
  exact (Pipeline.unscopedBufs_held c B).symm.trans (Pipeline.unscopedBufs_split₀ (cfgs) 1 winFacts₀1.arr_unscoped c (fun b => B b))

theorem hE1 (c : Dev nD) (w : Fin cfg1.W) : (dat1 (T2 m) c).arrAt w 0 = T2 m c (Pipeline.arrRef spec1 w) := A_eq1 (T2 m) c w

theorem hF1 (c : Dev nD) : ∀ w : Fin cfg1.W, (dat1 (T2 m) c).arrAt w cfg1.N = T3 m c (Pipeline.arrRef spec1 w)
  | ⟨0, _⟩ => ((dat1 (T2 m) c).arrAt_in 0 rfl _).trans ((A_eq1 (T2 m) c 0).trans (B3_of m c main_arg1 (by decide) (by decide)).symm)
  | ⟨1, _⟩ => ((dat1 (T2 m) c).arrAt_in 1 rfl _).trans ((A_eq1 (T2 m) c 1).trans (B3_of m c main_v1 (by decide) (by decide)).symm)
  | ⟨2, _⟩ => ((dat1 (T2 m) c).arrAt_in 2 rfl _).trans ((A_eq1 (T2 m) c 2).trans (B3_of m c main_v1 (by decide) (by decide)).symm)
  | ⟨3, _⟩ => ((dat1 (T2 m) c).arrAt_in 3 rfl _).trans ((A_eq1 (T2 m) c 3).trans (B3_of m c main_v0 (by decide) (by decide)).symm)
  | ⟨4, _⟩ => ((dat1 (T2 m) c).arrAt_in 4 rfl _).trans ((A_eq1 (T2 m) c 4).trans (B3_of m c main_v2 (by decide) (by decide)).symm)
  | ⟨5, _⟩ => ((dat1 (T2 m) c).arrAt_in 5 rfl _).trans ((A_eq1 (T2 m) c 5).trans (B3_of m c main_v4 (by decide) (by decide)).symm)
  | ⟨6, _⟩ => ((dat1 (T2 m) c).arrAt_in 6 rfl _).trans ((A_eq1 (T2 m) c 6).trans (B3_of m c main_v3 (by decide) (by decide)).symm)
  | ⟨7, _⟩ => ((dat1 (T2 m) c).arrAt_in 7 rfl _).trans ((A_eq1 (T2 m) c 7).trans (B3_of m c main_v5 (by decide) (by decide)).symm)
  | ⟨8, _⟩ => (B3_v6_0 m c).symm
  | ⟨9, _⟩ => (B3_v6_1 m c).symm

theorem hrest1 (c : Dev nD) : ∀ b, b ∉ Finset.univ.image (Pipeline.arrRef spec1) → T3 m c b = T2 m c b :=
  fun b hb => B3_of m c b (fun e => hb (Finset.mem_image.mpr ⟨8, Finset.mem_univ _, e.symm⟩))
    (fun e => hb (Finset.mem_image.mpr ⟨9, Finset.mem_univ _, e.symm⟩))

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(heldAt c (B2 m c) ∗ R c)
  post c := iprop(heldAt c (B3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (T2 m c)
  hentry c := by
    rw [Pipeline.ownSems0_none]
    iintro ⟨⟨Hub, Hp, HO⟩, -, -⟩
    ihave H := (Entails.of_eq (held_split1 c (B2 m c))) $$ Hub
    icases H with ⟨Ha, Hrest⟩
    ihave Ha' := (Entails.of_eq (arrBufs1_eq c (T2 m c))) $$ Ha
    icases Ha' with ⟨H0, H1, H3, H4, H5, H6, H7, H8, H9⟩
    ihave H12 := (pointsTo_share (PosShare.mem_left_op_right fullShare)).1 $$ H1
    icases H12 with ⟨H1, H2⟩
    imodintro
    isplitl [H0 H1 H2 H3 H4 H5 H6 H7 H8 H9]
    · rw [show ((pdats m 1 c).arrAt · 0) = fun w => T2 m c (Pipeline.arrRef spec1 w) from funext (hE1 m c)]
      iapply (Entails.of_eq (arrays1_eq (T2 m) c (fun w => T2 m c (Pipeline.arrRef spec1 w))).symm)
      iframe
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdats m 1 c).Φ 0 from hin1 (T2 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 1 c).Φ (Fin.last _) ⊢ Pipeline.ΦA spec1 c from hout1 (T2 m) c) ?_
    unfold Pipeline.ΦA
    iintro ⟨Hr, Hp⟩
    isplitl [Hp]; · iexact Hp
    isplitr; · iempintro
    iexact Hr
  hexit c := by
    have hr : (Pipeline.unscopedRest (Ix := Unit) (Name := ℕ) (U := Pipeline.UD sig nD τ) (Lvl := ℕ) spec1 c (T2 m c) : sProp 𝕄)
        = Pipeline.unscopedRest spec1 c (T3 m c) := by
      unfold Pipeline.unscopedRest
      exact bigSep_congr fun b hb => by rw [hrest1 m c b (Finset.mem_sdiff.mp hb).2]
    have hA : ((pdats m 1 c).arrays ((pdats m 1 c).arrAt · cfg1.N) : sProp 𝕄) = _ :=
      (congrArg (pdats m 1 c).arrays (funext (hF1 m c))).trans (arrays1_eq (T2 m) c (fun w => T3 m c (Pipeline.arrRef spec1 w)))
    iintro ⟨Ha, HO, HY, Hrest⟩
    ihave Ha' := (Entails.of_eq hA) $$ Ha
    icases Ha' with ⟨H0, H1, H2, H3, H4, H5, H6, H7, H8, H9⟩
    ihave H12 := (pointsTo_share (PosShare.mem_left_op_right fullShare)).2 $$ [H1 H2]
    · isplitl [H1]; · iexact H1
      iexact H2
    imodintro
    isplitl [H0 H12 H3 H4 H5 H6 H7 H8 H9 Hrest]
    · iapply (Entails.of_eq (held_split1 c (B3 m c)).symm)
      isplitl [H0 H12 H3 H4 H5 H6 H7 H8 H9]
      · iapply (Entails.of_eq (arrBufs1_eq c (T3 m c)).symm)
        iframe
      iapply (Entails.of_eq hr)
      iexact Hrest
    isplitl [HY]; · iexact HY
    unfold Pipeline.Dat.owesAt Pipeline.owesWithin
    icases HO with ⟨%W, -, HO⟩; iexists W; iexact HO

theorem hF2 (c : Dev nD) : ∀ w : Fin cfg2.W, (dat2 (T3 m) c).arrAt w cfg2.N = T4 m c (Pipeline.arrRef spec2 w)
  | ⟨0, _⟩ => ((dat2 (T3 m) c).arrAt_in 0 rfl _).trans ((A_eq2 (T3 m) c 0).trans (B4_of m c main_arg1 (by decide)).symm)
  | ⟨1, _⟩ => ((dat2 (T3 m) c).arrAt_in 1 rfl _).trans ((A_eq2 (T3 m) c 1).trans (B4_of m c main_v6_1 (by decide)).symm)
  | ⟨2, _⟩ => (B4_v7 m c).symm
theorem hrest2 (c : Dev nD) : ∀ b, b ∉ Finset.univ.image (Pipeline.arrRef spec2) → T4 m c b = T3 m c b :=
  fun b hb => B4_of m c b fun e => hb (Finset.mem_image.mpr ⟨2, Finset.mem_univ _, e.symm⟩)

set_option backward.isDefEq.respectTransparency.types false in
def reg2 : Pipeline.RegionSeg (pcfgs (F := F)) adm (pdats m) () defs₀ 𝒱₀ L lv 2 :=
  regOf m launch2 (B3 m) (B4 m) (body_obligation2 (T3 m)) (fun _ _ => rfl) (A_eq2 (T3 m)) (hF2 m) (hrest2 m)
    (hin2 (T3 m)) (hout2 (T3 m)) (fun _ _ => rfl) (fun _ _ => rfl)

theorem hF3 (c : Dev nD) : ∀ w : Fin cfg3.W, (dat3 (T4 m) c).arrAt w cfg3.N = T5 m c (Pipeline.arrRef spec3 w)
  | ⟨0, _⟩ => ((dat3 (T4 m) c).arrAt_in 0 rfl _).trans ((A_eq3 (T4 m) c 0).trans (B5_of m c main_v6_1 (by decide) (by decide)).symm)
  | ⟨1, _⟩ => ((dat3 (T4 m) c).arrAt_in 1 rfl _).trans ((A_eq3 (T4 m) c 1).trans (B5_of m c main_v6_0 (by decide) (by decide)).symm)
  | ⟨2, _⟩ => ((dat3 (T4 m) c).arrAt_in 2 rfl _).trans ((A_eq3 (T4 m) c 2).trans (B5_of m c main_v7 (by decide) (by decide)).symm)
  | ⟨3, _⟩ => (B5_v8_0 m c).symm
  | ⟨4, _⟩ => (B5_v8_1 m c).symm
theorem hrest3 (c : Dev nD) : ∀ b, b ∉ Finset.univ.image (Pipeline.arrRef spec3) → T5 m c b = T4 m c b :=
  fun b hb => B5_of m c b (fun e => hb (Finset.mem_image.mpr ⟨3, Finset.mem_univ _, e.symm⟩))
    (fun e => hb (Finset.mem_image.mpr ⟨4, Finset.mem_univ _, e.symm⟩))

set_option backward.isDefEq.respectTransparency.types false in
def reg3 : Pipeline.RegionSeg (pcfgs (F := F)) adm (pdats m) () defs₀ 𝒱₀ L lv 3 :=
  regOf m launch3 (B4 m) (B5 m) (body_obligation3 (T4 m)) (fun _ _ => rfl) (A_eq3 (T4 m)) (hF3 m) (hrest3 m)
    (hin3 (T4 m)) (hout3 (T4 m)) (fun _ _ => rfl) (fun _ _ => rfl)

abbrev segs : List (Pipeline.Seg (pcfgs (F := F)) adm (pdats m) () defs₀ 𝒱₀ L lv) :=
  [ .region (reg0 m), .host (hseg1 m), .region (reg1 m), .region (reg2 m), .region (reg3 m) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(heldAt c (B0 m c) ∗ R c)) (Tₙ := Tₙ m)
    (hch := ⟨fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold heldAt StableHlo.held
      imodintro
      iapply (pointsTo_read_all (Pipeline.ucRefs τ sig) (fun b => (((c : Thread nD τ)).1, b)) (B5 m c) s')
      isplitl [Hh] <;> iassumption)
    (hQ := fun s h c => h c)

theorem B5_keep (c : Dev nD) (r : Ref sig .tc) (h0 : r ≠ main_v0) (hW : r ∉ hostOps1_W) (h60 : r ≠ main_v6_0) (h61 : r ≠ main_v6_1)
    (h7 : r ≠ main_v7) (h80 : r ≠ main_v8_0) (h81 : r ≠ main_v8_1) : B5 m c r = m ((c : Thread nD τ).loc r) :=
  (B5_of m c r h80 h81).trans <| (B4_of m c r h7).trans <| (B3_of m c r h60 h61).trans <| (B2_of m c r hW).trans <| (B1_of m c r h0).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B5_keep m c main_arg0 (by decide) (by decide) (by decide) (by decide) (by decide) (by decide) (by decide)),
     (h c _ (mem_uc main_arg1 (by decide))).trans (B5_keep m c main_arg1 (by decide) (by decide) (by decide) (by decide) (by decide) (by decide) (by decide)),
     (h c _ (mem_uc main_arg2 (by decide))).trans (B5_keep m c main_arg2 (by decide) (by decide) (by decide) (by decide) (by decide) (by decide) (by decide)),
     (h c _ (mem_uc main_arg3 (by decide))).trans (B5_keep m c main_arg3 (by decide) (by decide) (by decide) (by decide) (by decide) (by decide) (by decide)),
     (h c _ (mem_uc main_arg4 (by decide))).trans (B5_keep m c main_arg4 (by decide) (by decide) (by decide) (by decide) (by decide) (by decide) (by decide)),
     (h c _ (mem_uc main_arg5 (by decide))).trans (B5_keep m c main_arg5 (by decide) (by decide) (by decide) (by decide) (by decide) (by decide) (by decide))⟩)
    (run_main m ρ)

end Cert.KernelIdeal.Hand

end
-- ==== Proof.Spec.lean ====
import Idealize.ShloMosaic.PureOps.Ideal.Laws
import Idealize.ShloMosaic.Lib.ValueIdx

noncomputable section

namespace Cert.Spec

open Idealize ShloMosaic ShloMosaic.ValueIdx

abbrev SNN : Shape := ⟨2, ![8192, 8192]⟩
abbrev SNF : Shape := ⟨2, ![8192, 128]⟩
abbrev SFF : Shape := ⟨2, ![128, 128]⟩
abbrev S1F : Shape := ⟨2, ![1, 128]⟩
abbrev SF : Shape := ⟨1, ![128]⟩

abbrev zeroW : EReal := Ideal.ofBits .f32 0x00000000#32
abbrev oneW : EReal := Ideal.ofBits .f32 0x3F800000#32
abbrev negInfW : EReal := Ideal.ofBits .f32 0xFF800000#32

def invSqrtOrZero (d : EReal) : EReal := Scalar.select (Ideal.cmp .ogt d zeroW) (Ideal.rsqrt d) zeroW

def degK (A : SNN.Idx → EReal) (p : Fin 8192) : EReal := (∑ j : Fin 8192, A (ix2 p j)) + oneW

def dinvK (A : SNN.Idx → EReal) (p : Fin 8192) : EReal := invSqrtOrZero (degK A p)

def eye (i j : Fin 8192) : EReal := if i = j then 1 else 0

def degR (A : SNN.Idx → EReal) (p : Fin 8192) : EReal := zeroW + ∑ j : Fin 8192, (A (ix2 p j) + eye p j)

def dinvR (A : SNN.Idx → EReal) (p : Fin 8192) : EReal := invSqrtOrZero (degR A p)

def axB (A : SNN.Idx → EReal) (Xs Dv : SNF.Idx → EReal) (p : Fin 8192) (f : Fin 128) : EReal :=
  Dv (ix2 p f) * ((∑ j : Fin 8192, A (ix2 p j) * Xs (ix2 j f)) + Xs (ix2 p f))

def axK (A : SNN.Idx → EReal) (X : SNF.Idx → EReal) (p : Fin 8192) (f : Fin 128) : EReal :=
  dinvK A p * ((∑ j : Fin 8192, A (ix2 p j) * (dinvK A j * X (ix2 j f))) + dinvK A p * X (ix2 p f))

def axR (A : SNN.Idx → EReal) (X : SNF.Idx → EReal) (p : Fin 8192) (f : Fin 128) : EReal :=
  ∑ j : Fin 8192, ((dinvR A p * (A (ix2 p j) + eye p j)) * dinvR A j) * X (ix2 j f)

def linB (ax : Fin 8192 → Fin 128 → EReal) (WT : SFF.Idx → EReal) (b2 : S1F.Idx → EReal) (p : Fin 8192) (q : Fin 128) : EReal :=
  (∑ f : Fin 128, ax p f * WT (ix2 f q)) + b2 (ix2 0 q)

def lin (ax : Fin 8192 → Fin 128 → EReal) (W : SFF.Idx → EReal) (b : SF.Idx → EReal) (p : Fin 8192) (q : Fin 128) : EReal :=
  (∑ f : Fin 128, ax p f * W (ix2 q f)) + b (ix1 q)

def rowMax (l : Fin 128 → EReal) : EReal := max negInfW ((Finset.univ : Finset (Fin 128)).fold max negInfW l)

def smax (l : Fin 128 → EReal) (q : Fin 128) : EReal :=
  Ideal.div (Ideal.exp (l q - rowMax l)) (∑ n : Fin 128, Ideal.exp (l n - rowMax l))

def asOf (A : SNN.Idx → EReal) (S : SNF.Idx → EReal) (p : Fin 8192) (q : Fin 128) : EReal :=
  ∑ j : Fin 8192, A (ix2 p j) * S (ix2 j q)

def pool (S Z : SNF.Idx → EReal) (a b : Fin 128) : EReal := ∑ n : Fin 8192, S (ix2 n a) * Z (ix2 n b)

def arr (g : Fin 8192 → Fin 128 → EReal) : SNF.Idx → EReal := fun y => g (y 0) (y 1)

theorem arr_ix2 (g : Fin 8192 → Fin 128 → EReal) (p : Fin 8192) (q : Fin 128) : arr g (ix2 p q) = g p q := rfl

def arrFF (g : Fin 128 → Fin 128 → EReal) : SFF.Idx → EReal := fun y => g (y 0) (y 1)

def sOf (ax : Fin 8192 → Fin 128 → EReal) (Wa : SFF.Idx → EReal) (ba : SF.Idx → EReal) (p : Fin 8192) (q : Fin 128) : EReal :=
  smax (lin ax Wa ba p) q

def blockIdx (K B : ℕ) (k : Fin K) (j : Fin B) : Fin (K * B) :=
  ⟨B * k.val + j.val, by
    have hk := k.isLt; have hj := j.isLt
    calc B * k.val + j.val < B * k.val + B := by omega
      _ = B * (k.val + 1) := by ring
      _ ≤ B * K := Nat.mul_le_mul_left _ hk
      _ = K * B := Nat.mul_comm _ _⟩

theorem sum_blocks {M : Type*} [AddCommMonoid M] (K B : ℕ) (f : Fin (K * B) → M) :
    ∑ k : Fin K, ∑ j : Fin B, f (blockIdx K B k j) = ∑ n : Fin (K * B), f n := by
  rw [← Fintype.sum_prod_type' (f := fun k j => f (blockIdx K B k j))]
  exact Fintype.sum_equiv finProdFinEquiv _ _ fun x => congrArg f (Fin.ext (by
    simp only [blockIdx, finProdFinEquiv, Equiv.coe_fn_mk]; omega))

end Cert.Spec

end
-- ==== Proof.KI.HostOps.lean ====
import proofs.«114212_j498216206442_1_alg».proof.Proof.Gen.KernelIdeal.Launch
import proofs.«114212_j498216206442_1_alg».proof.Proof.Spec
import Idealize.ShloMosaic.Lib.StableHlo.Run
import Idealize.ShloMosaic.Lib.Pipeline.Value
import Idealize.ShloMosaic.Lib.ValueLayout
import Idealize.ShloMosaic.Lib.ValueIdx

namespace Cert.KernelIdeal.HostVal

open Cert.KernelIdeal Cert.KernelIdeal.Gen Idealize.ShloMosaic Idealize.ShloMosaic.TcCoe Idealize.ShloMosaic.ValueIdx Cert.Spec

variable (B : Valuation τ sig (Elt Ideal))

theorem after_v1_of (D X : SNF.Idx → EReal) (hD : (B main_v0 : SNF.Idx → EReal) = D)
    (hX : (B main_arg0 : SNF.Idx → EReal) = X) (i : SNF.Idx) :
    (StableHlo.after hostOps1 B main_v1 : SNF.Idx → EReal) i = D i * X i := by
  subst hD hX
  dsimp only [hostOps1]; after_results <;> rfl

theorem after_v2 (f q : Fin 128) :
    (StableHlo.after hostOps1 B main_v2 : SFF.Idx → EReal) (ix2 f q) = (B main_arg2 : SFF.Idx → EReal) (ix2 q f) := by
  dsimp only [hostOps1]; after_results; exact transpose_ix2_apply _ _ f q

theorem after_v3 (f q : Fin 128) :
    (StableHlo.after hostOps1 B main_v3 : SFF.Idx → EReal) (ix2 f q) = (B main_arg4 : SFF.Idx → EReal) (ix2 q f) := by
  dsimp only [hostOps1]; after_results; exact transpose_ix2_apply _ _ f q

theorem after_v4 (q : Fin 128) :
    (StableHlo.after hostOps1 B main_v4 : S1F.Idx → EReal) (ix2 0 q) = (B main_arg3 : SF.Idx → EReal) (ix1 q) := by
  dsimp only [hostOps1]; after_results
  exact shapeCast_a_1a_apply (B main_arg3 : SF.Idx → EReal) Facts₀.shapeCasts_S128_S1x128 0 q

theorem after_v5 (q : Fin 128) :
    (StableHlo.after hostOps1 B main_v5 : S1F.Idx → EReal) (ix2 0 q) = (B main_arg5 : SF.Idx → EReal) (ix1 q) := by
  dsimp only [hostOps1]; after_results
  exact shapeCast_a_1a_apply (B main_arg5 : SF.Idx → EReal) Facts₀.shapeCasts_S128_S1x128 0 q

end Cert.KernelIdeal.HostVal
-- ==== Proof.KI.R0Pay.lean ====
import proofs.«114212_j498216206442_1_alg».proof.Proof.Gen.KernelIdeal.Skeleton
import proofs.«114212_j498216206442_1_alg».proof.Proof.Spec
import Idealize.ShloMosaic.Lib.ValueIdx
import Idealize.ShloMosaic.Lib.Pipeline.Value
import Idealize.ShloMosaic.Lib.ValueLayout
import Idealize.ShloMosaic.PureOps.Ideal.Laws

namespace Cert.KernelIdeal.Hand

open Cert.KernelIdeal.Gen
open Idealize ShloMosaic ValueIdx

theorem column_of_vector {α : Type} (v : S1024.Idx → α) (h : S1024.ShapeCasts S1024x1) (p : Fin 1024) (u : Fin 1) :
    shapeCast S1024x1 v h (ix2 p u) = v (ix1 p) :=
  shapeCast_apply v h _ _ (by
    rw [Shape.rowMajor_val_two, Shape.rowMajor_val_one]
    show p.val = p.val * 1 + u.val
    omega)

theorem replicate_column {α : Type} (v : S1024x1.Idx → α) (h : S1024x1.Broadcasts S1024x128) (p : Fin 1024) (q : Fin 128) :
    broadcastTo S1024x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

theorem rowSum_at (x : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 x 0x00000000#32 h hφ hacc (ix1 p) = ∑ j : Fin 1024, x (ix2 p j) := by
  refine (Ideal.multiReduction_add_single x 0x00000000#32 h hφ hacc (ix1 p)).trans ?_
  refine Finset.sum_congr rfl fun j _ => congrArg x (funext fun a => Fin.ext ?_)
  match a with
  | ⟨0, _⟩ => rfl
  | ⟨1, _⟩ => rfl

theorem pay1_at (p : Fin 1024) (u : Fin 1) : (k0_pay1 (F := Ideal)) (ix2 p u) = Spec.zeroW := by
  unfold k0_pay1
  rw [shapeCast_self]
  rfl

theorem pay2_at (x : Vec Ideal S1024x1024 .f32) (a : Vec Ideal S1024x1 .f32) (p : Fin 1024) (u : Fin 1) :
    k0_pay2 (F := Ideal) x a (ix2 p u) = a (ix2 p u) + ∑ j : Fin 1024, x (ix2 p j) := by
  unfold k0_pay2
  rw [shapeCast_self]
  exact (addf_apply _ _ _).trans (congrArg (a (ix2 p u) + ·) ((column_of_vector _ _ p u).trans (rowSum_at x _ _ _ p)))

theorem pay3_at (a : Vec Ideal S1024x1 .f32) (p : Fin 1024) (q : Fin 128) :
    k0_pay3 (F := Ideal) a (ix2 p q) = Spec.invSqrtOrZero (a (ix2 p (0 : Fin 1)) + Spec.oneW) := by
  unfold k0_pay3
  refine (replicate_column _ _ p q).trans ?_
  rw [shapeCast_self]
  rfl

end Cert.KernelIdeal.Hand
-- ==== Proof.KI.R0Value.lean ====
import proofs.«114212_j498216206442_1_alg».proof.Proof.KI.R0Dat
import proofs.«114212_j498216206442_1_alg».proof.Proof.KI.R0Pay
import proofs.«114212_j498216206442_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal.Gen
open Idealize ShloMosaic TcCoe ValueIdx

theorem hz0 : (![0, 0] : Fin 2 → Nat) = fun _ => 0 := funext fun a => by fin_cases a <;> rfl

section Pieces

variable {F : FTy → Type} [FloatOps F] (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (x : Vec F S1024x1024 .f32) (xs : Vec F S1024x1 .f32)

theorem sout0_B_eq (hc0 : ¬atRowStart0 i) (hc1 : ¬atRowEnd0 i) :
    sout0_B_0 c i arg2 harg2 arg3 harg3 arg4 harg4 hc0 hc1 x xs = k0_pay2 x xs := by
  unfold sout0_B_0
  rw [View.read_writes_eq_canon _ _ _ (fun _ => scover0_B_0 ..)]
  unfold kernelRun0_B
  dsimp only
  sl_unfold_words
  rw [View.canon_unit_zero hz0]
  simp only [View.readAt_eq_ld, harg2.read_unread, harg4.read_unread, View.ld_unit_zero (S := S1024x1024) hz0, View.ld_unit_zero (S := S1024x1) hz0]

theorem sout0_C_eq (hc0 : ¬atRowStart0 i) (hc1 : atRowEnd0 i) :
    sout0_C_0 c i arg2 harg2 arg3 harg3 arg4 harg4 hc0 hc1 x xs = k0_pay2 x xs := by
  unfold sout0_C_0
  rw [View.read_writes_eq_canon _ _ _ (fun _ => scover0_C_0 ..)]
  unfold kernelRun0_C
  dsimp only
  sl_unfold_words
  rw [View.canon_unit_zero hz0]
  simp only [View.readAt_eq_ld, harg2.read_unread, harg4.read_unread, View.ld_unit_zero (S := S1024x1024) hz0, View.ld_unit_zero (S := S1024x1) hz0]

theorem out0_C_eq (hc0 : ¬atRowStart0 i) (hc1 : atRowEnd0 i) :
    out0_C_1 c i arg2 harg2 arg3 harg3 arg4 harg4 hc0 hc1 x xs = k0_pay3 (k0_pay2 x xs) := by
  unfold out0_C_1
  rw [View.read_writes_eq_canon _ _ _ (fun _ => cover0_C_1 ..)]
  unfold kernelRun0_C
  dsimp only
  sl_unfold_words
  rw [View.canon_unit_zero hz0]
  simp only [View.readAt_eq_ld, harg2.read_unread, harg4.read_unread, View.readCov_unit_zero (S := S1024x1) _ hz0, View.ld_unit_zero (S := S1024x1024) hz0, View.ld_unit_zero (S := S1024x1) hz0]

theorem sout0_A_eq (hc0 : atRowStart0 i) (hc1 : ¬atRowEnd0 i) :
    sout0_A_0 c i arg2 harg2 arg3 harg3 arg4 harg4 hc0 hc1 x = k0_pay2 x (k0_pay1 (F := F)) := by
  unfold sout0_A_0
  rw [View.read_writes_eq_canon _ _ _ (fun _ => scover0_A_0 ..)]
  unfold kernelRun0_A
  dsimp only
  sl_unfold_words
  rw [View.canon_cons_unit_zero (S := S1024x1) hz0, View.readCov_unit_zero (S := S1024x1) _ hz0]
  simp only [View.readAt_eq_ld, harg2.read_unread, View.readCov_unit_zero (S := S1024x1) _ hz0, View.ld_unit_zero (S := S1024x1024) hz0, View.ld_unit_zero (S := S1024x1) hz0]

end Pieces

variable (V : (c : Dev nD) → (b : Ref sig .tc) → Buf (Elt Ideal) ((c : Thread nD τ).loc b)) (c : Dev nD)

abbrev adj : Spec.SNN.Idx → EReal := V c main_arg1
abbrev ablk (t : Fin cfg0.N) : Vec Ideal S1024x1024 .f32 := iblk0 V c 0 t

def entryAt (A : Spec.SNN.Idx → EReal) (r s : ℕ) : EReal :=
  if h : r < 8192 ∧ s < 8192 then A (ix2 (⟨r, h.1⟩ : Fin 8192) (⟨s, h.2⟩ : Fin 8192)) else 0

def blockRowSum (A : Spec.SNN.Idx → EReal) (r k : ℕ) : EReal := ∑ j : Fin 1024, entryAt A r (1024 * k + j.val)

theorem blockIdx0_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0 :=
  (by decide +kernel : ∀ t : Fin grid0.N, _)

theorem ablk_rowSum (t : Fin cfg0.N) (p : Fin 1024) :
    ∑ j : Fin 1024, ablk V c t (ix2 p j) = blockRowSum (adj V c) (1024 * (t.val / 8) + p.val) (t.val % 8) :=
  Finset.sum_congr rfl fun j _ => by
    have hN : t.val < 64 := lt_of_lt_of_eq t.isLt (show cfg0.N = 64 from N_0)
    have hp := p.isLt; have hj := j.isLt
    obtain ⟨e0, e1, -, -⟩ := blockIdx0_facts t
    unfold entryAt
    rw [dif_pos ⟨by omega, by omega⟩]
    show V c main_arg1 _ = V c main_arg1 _
    refine congrArg _ (funext fun a => Fin.ext ?_)
    match a with
    | ⟨0, _⟩ => show win0_0.index t (0 : Fin 2) * 1024 + 1 * p.val = 1024 * (t.val / 8) + p.val; rw [e0]; omega
    | ⟨1, _⟩ => show win0_0.index t (1 : Fin 2) * 1024 + 1 * j.val = 1024 * (t.val % 8) + j.val; rw [e1]; omega

-- Along a block row the accumulator holds the zero word plus the row sums of the blocks met so far.
theorem acc_inv (n : ℕ) : ∀ (hn : n < cfg0.N) (p : Fin 1024) (u : Fin 1),
    ((outsAt0 V c n hn).2 (ix2 p u) : EReal)
      = Spec.zeroW + ∑ k ∈ Finset.range (n % 8 + 1), blockRowSum (adj V c) (1024 * (n / 8) + p.val) k := by
  induction n using Nat.strong_induction_on with
  | _ n ih =>
    intro hn p u
    by_cases h0 : n % 8 = 0
    · have h1 : ¬n % 8 = 7 := by omega
      rw [outsAt0_A V c ⟨n, hn⟩ h0 h1]
      unfold ptA0; dsimp only
      refine ((congrFun (sout0_A_eq ..) _).trans ((pay2_at _ _ p u).trans (congrArg (· + _) (pay1_at p u)))).trans ?_
      rw [ablk_rowSum V c ⟨n, hn⟩ p]
      show Spec.zeroW + blockRowSum (adj V c) (1024 * (n / 8) + p.val) (n % 8) = _
      rw [h0, Finset.sum_range_succ, Finset.sum_range_zero, zero_add]
    · have hprev : n - 1 < cfg0.N := Nat.lt_of_le_of_lt (Nat.sub_le _ _) hn
      have ihp := ih (n - 1) (by omega) hprev p u
      have e1 : (n - 1) % 8 + 1 = n % 8 := by omega
      have e2 : (n - 1) / 8 = n / 8 := by omega
      rw [e1, e2] at ihp
      have hstep : ((outsAt0 V c n hn).2 (ix2 p u) : EReal)
          = (outsAt0 V c (n - 1) hprev).2 (ix2 p u) + ∑ j : Fin 1024, ablk V c ⟨n, hn⟩ (ix2 p j) := by
        by_cases h1 : n % 8 = 7
        · rw [outsAt0_C V c ⟨n, hn⟩ h0 h1]
          unfold ptC0; dsimp only
          exact (congrFun (sout0_C_eq ..) _).trans (pay2_at _ _ p u)
        · rw [outsAt0_B V c ⟨n, hn⟩ h0 h1]
          unfold ptB0; dsimp only
          exact (congrFun (sout0_B_eq ..) _).trans (pay2_at _ _ p u)
      rw [hstep, ihp, ablk_rowSum V c ⟨n, hn⟩ p]
      show (Spec.zeroW + ∑ k ∈ Finset.range (n % 8), blockRowSum (adj V c) (1024 * (n / 8) + p.val) k)
          + blockRowSum (adj V c) (1024 * (n / 8) + p.val) (n % 8) = _
      rw [Finset.sum_range_succ, add_assoc]

theorem rowSum_blocks (A : Spec.SNN.Idx → EReal) (r : Fin 8192) :
    ∑ k ∈ Finset.range 8, blockRowSum A r.val k = ∑ j : Fin 8192, A (ix2 r j) := by
  rw [Finset.sum_range]
  refine Eq.trans ?_ (Spec.sum_blocks 8 1024 (fun n => A (ix2 r n)))
  refine Finset.sum_congr rfl fun k _ => Finset.sum_congr rfl fun j _ => ?_
  have hk := k.isLt; have hj := j.isLt; have hr := r.isLt
  unfold entryAt
  rw [dif_pos ⟨hr, by omega⟩]
  exact congrArg A (funext fun a => Fin.ext (by
    match a with
    | ⟨0, _⟩ => rfl
    | ⟨1, _⟩ => rfl))

-- At k = 7 the output block is the final value of the accumulator, which by then holds the whole row sum.
theorem out_at (t : Fin cfg0.N) (h7 : t.val % 8 = 7) (y : S1024x128.Idx) (r : Fin 8192)
    (hr : r.val = 1024 * (t.val / 8) + (y 0).val) :
    ((outsAt0 V c t.val t.isLt).1 y : EReal) = Spec.dinvK (adj V c) r := by
  obtain ⟨p, q, rfl⟩ : ∃ (p : Fin 1024) (q : Fin 128), y = ix2 p q := ⟨y 0, y 1, eq_ix2 y⟩
  have hr : r.val = 1024 * (t.val / 8) + p.val := hr
  have h0 : ¬t.val % 8 = 0 := by omega
  have hacc := acc_inv V c t.val t.isLt p (0 : Fin 1)
  rw [outsAt0_C V c t h0 h7] at hacc ⊢
  unfold ptC0 at hacc ⊢; dsimp only at hacc ⊢
  refine (congrFun (out0_C_eq ..) _).trans ((pay3_at _ p q).trans (congrArg (fun z : EReal => Spec.invSqrtOrZero (z + Spec.oneW))
    ((congrFun (sout0_C_eq ..) _).symm.trans (hacc.trans ?_))))
  rw [h7, ← hr]
  show Spec.zeroW + ∑ k ∈ Finset.range 8, blockRowSum (adj V c) r.val k = _
  rw [rowSum_blocks, show Spec.zeroW = (0 : EReal) from Ideal.ofBits_zero_f32, zero_add]

abbrev dinvArr : Spec.SNF.Idx → EReal := Spec.arr (fun p _ => Spec.dinvK (adj V c) p)

theorem flushed0_eq (t : Fin cfg0.N) (hf : (cfg0.win 1).flush t = true) :
    (dat0 V c).flushed 1 t = ((cfg0.win 1).blk t).view.read (Elt Ideal) (dinvArr V c) := by
  have h7 : t.val % 8 = 7 := (flush0_1 t).mp hf
  have hN : t.val < 64 := lt_of_lt_of_eq t.isLt (show cfg0.N = 64 from N_0)
  obtain ⟨-, -, e0, -⟩ := blockIdx0_facts t
  show (cfg0.win 1).cut (grid0.coords t) ((dat0 V c).after 1 t) = _
  rw [after0_1]
  funext y
  rw [View.read_apply]
  have hy0 : (y 0).val < 1024 := (y 0).isLt
  show (outsAt0 V c t.val t.isLt).1 ((cfg0.win 1).xinj (grid0.coords t) y) = dinvArr V c (((cfg0.win 1).blk t).view.emb y)
  refine (out_at V c t h7 ((cfg0.win 1).xinj (grid0.coords t) y) ⟨1024 * (t.val / 8) + (y 0).val, by omega⟩ rfl).trans ?_
  show Spec.dinvK (adj V c) _ = Spec.dinvK (adj V c) ((((cfg0.win 1).blk t).view.emb y) 0)
  refine congrArg (Spec.dinvK (adj V c)) (Fin.ext ?_)
  show 1024 * (t.val / 8) + (y 0).val = win0_1.index t (0 : Fin 2) * 1024 + 1 * (y 0).val
  rw [e0]; omega

-- Row r lies in the block of the last point of block row r / 1024.
theorem final0 :
    ((dat0 (F := Ideal) V c).arrAt 1 cfg0.N : Cert.Spec.SNF.Idx → EReal) = Cert.Spec.arr (fun p _ => Cert.Spec.dinvK (V c main_arg1 : Cert.Spec.SNN.Idx → EReal) p) :=
  (dat0 V c).arrAt_eq_of_cover 1 (dinvArr V c) (flushed0_eq V c) fun i => by
    have hi0 : (i 0).val < 8192 := (i 0).isLt
    have hi1 : (i 1).val < 128 := (i 1).isLt
    have hN : cfg0.N = 64 := N_0
    let t : Fin cfg0.N := ⟨8 * ((i 0).val / 1024) + 7, by omega⟩
    have ht : t.val = 8 * ((i 0).val / 1024) + 7 := rfl
    obtain ⟨-, -, e0, e1⟩ := blockIdx0_facts t
    refine ⟨t, (flush0_1 t).mpr (by omega), ?_⟩
    show i ∈ ((View.whole main_v0).slice (win0_1.rect t)).set
    rw [View.set_slice_whole, Rect.mem_set_unit]
    intro a
    match a with
    | ⟨0, _⟩ => show win0_1.index t (0 : Fin 2) * 1024 ≤ (i 0).val ∧ (i 0).val < win0_1.index t (0 : Fin 2) * 1024 + 1024; rw [e0]; omega
    | ⟨1, _⟩ => show win0_1.index t (1 : Fin 2) * 128 ≤ (i 1).val ∧ (i 1).val < win0_1.index t (1 : Fin 2) * 128 + 128; rw [e1]; omega

end Cert.KernelIdeal.Hand

end
-- ==== Proof.KI.ChainA.lean ====
import proofs.«114212_j498216206442_1_alg».proof.Proof.KI.Launch
import proofs.«114212_j498216206442_1_alg».proof.Proof.KI.HostOps
import proofs.«114212_j498216206442_1_alg».proof.Proof.KI.R0Value
import proofs.«114212_j498216206442_1_alg».proof.Proof.Spec

set_option maxRecDepth 16384

noncomputable section

namespace Cert.KernelIdeal.Chain

open Idealize ShloMosaic ShloMosaic.TcCoe ShloMosaic.ValueIdx SL.Sem
open Cert.KernelIdeal Cert.KernelIdeal.Gen Cert.KernelIdeal.Hand Cert.KernelIdeal.HostVal Cert.Spec

variable (m : (ℓ : Loc nD τ sig) → Buf (Elt Ideal) ℓ) (c : Dev nD)

abbrev aX : SNF.Idx → EReal := m ((c.tc : Thread nD τ).loc main_arg0)
abbrev aA : SNN.Idx → EReal := m ((c.tc : Thread nD τ).loc main_arg1)
abbrev aWe : SFF.Idx → EReal := m ((c.tc : Thread nD τ).loc main_arg2)
abbrev abe : SF.Idx → EReal := m ((c.tc : Thread nD τ).loc main_arg3)
abbrev aWa : SFF.Idx → EReal := m ((c.tc : Thread nD τ).loc main_arg4)
abbrev aba : SF.Idx → EReal := m ((c.tc : Thread nD τ).loc main_arg5)

theorem axB_eq_axK (A : SNN.Idx → EReal) (X Xs Dv : SNF.Idx → EReal) (hDv : ∀ p f, Dv (ix2 p f) = dinvK A p)
    (hXs : ∀ j f, Xs (ix2 j f) = dinvK A j * X (ix2 j f)) : axB A Xs Dv = axK A X := by
  funext p f
  unfold axB axK
  rw [hDv, hXs]
  exact congrArg (fun s => dinvK A p * (s + dinvK A p * X (ix2 p f))) (Finset.sum_congr rfl fun j _ => by rw [hXs])

theorem linB_eq_lin (ax : Fin 8192 → Fin 128 → EReal) (WT W : SFF.Idx → EReal) (b2 : S1F.Idx → EReal) (b : SF.Idx → EReal)
    (hW : ∀ f q, WT (ix2 f q) = W (ix2 q f)) (hb : ∀ q, b2 (ix2 0 q) = b (ix1 q)) : linB ax WT b2 = lin ax W b := by
  funext p q
  unfold linB lin
  rw [hb]
  exact congrArg (· + b (ix1 q)) (Finset.sum_congr rfl fun f _ => by rw [hW])

theorem b1_v0 : (B1 m c main_v0 : SNF.Idx → EReal) = arr (fun p _ => dinvK (aA m c) p) :=
  (B1_v0 m c).trans (final0 (T0 m) c)

theorem b2_arg1 : (T2 m c main_arg1 : SNN.Idx → EReal) = aA m c :=
  (B2_of m c main_arg1 (by decide)).trans (B1_of m c main_arg1 (by decide))

theorem b2_v0 (p : Fin 8192) (f : Fin 128) : (B2 m c main_v0 : SNF.Idx → EReal) (ix2 p f) = dinvK (aA m c) p :=
  congrFun ((B2_of m c main_v0 (by decide)).trans (b1_v0 m c)) _

theorem b2_v1 (j : Fin 8192) (f : Fin 128) : (B2 m c main_v1 : SNF.Idx → EReal) (ix2 j f) = dinvK (aA m c) j * aX m c (ix2 j f) := by
  unfold B2
  rw [after_v1_of (B1 m c) _ _ (b1_v0 m c) (B1_of m c main_arg0 (by decide))]
  rfl

theorem b2_v2 (f q : Fin 128) : (B2 m c main_v2 : SFF.Idx → EReal) (ix2 f q) = aWe m c (ix2 q f) := by
  unfold B2; rw [after_v2]; exact congrFun (B1_of m c main_arg2 (by decide)) _
theorem b2_v3 (f q : Fin 128) : (B2 m c main_v3 : SFF.Idx → EReal) (ix2 f q) = aWa m c (ix2 q f) := by
  unfold B2; rw [after_v3]; exact congrFun (B1_of m c main_arg4 (by decide)) _
theorem b2_v4 (q : Fin 128) : (B2 m c main_v4 : S1F.Idx → EReal) (ix2 0 q) = abe m c (ix1 q) := by
  unfold B2; rw [after_v4]; exact congrFun (B1_of m c main_arg3 (by decide)) _
theorem b2_v5 (q : Fin 128) : (B2 m c main_v5 : S1F.Idx → EReal) (ix2 0 q) = aba m c (ix1 q) := by
  unfold B2; rw [after_v5]; exact congrFun (B1_of m c main_arg5 (by decide)) _

theorem ax_entry : axB (T2 m c main_arg1 : SNN.Idx → EReal) (T2 m c main_v1 : SNF.Idx → EReal) (T2 m c main_v0 : SNF.Idx → EReal)
    = axK (aA m c) (aX m c) := by
  rw [b2_arg1 m c]
  exact axB_eq_axK (aA m c) (aX m c) _ _ (b2_v0 m c) (b2_v1 m c)

end Cert.KernelIdeal.Chain

end
-- ==== Proof.LibMatmulAt.lean ====
import Idealize.ShloMosaic.PureOps.Ideal.Laws
import Idealize.ShloMosaic.Lib.ValueIdx

namespace Cert.LibMatmulAt

open Idealize ShloMosaic ValueIdx

variable {M K N : ℕ} (D : DotDims ⟨2, ![M, K]⟩ ⟨2, ![K, N]⟩ ⟨2, ![M, N]⟩)

theorem coord_congr {s : Shape} (i : s.Idx) (p q : ℕ) (hp : p < s.rank) (hq : q < s.rank) (h : p = q) :
    (i ⟨p, hp⟩).val = (i ⟨q, hq⟩).val := by subst h; rfl

theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  refine congrArg₂ (fun x y => A x * B y) (funext fun a => Fin.ext ?_) (funext fun a => Fin.ext ?_)
  · match a with
    | ⟨0, _⟩ => exact lhs_row D hlb hln _ _
    | ⟨1, _⟩ => exact (D.lhsIdx_val_of_single hlc _ _).trans hk
  · match a with
    | ⟨0, _⟩ => exact (D.rhsIdx_val_of_single hrc _ _).trans hk
    | ⟨1, _⟩ => exact rhs_col D hrb hlb hln hrn _ _

end Cert.LibMatmulAt
-- ==== Proof.KI.R1Pay.lean ====
import proofs.«114212_j498216206442_1_alg».proof.Proof.Gen.KernelIdeal.Skeleton
import proofs.«114212_j498216206442_1_alg».proof.Proof.Spec
import proofs.«114212_j498216206442_1_alg».proof.Proof.LibMatmulAt
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.R1Pay

open Idealize ShloMosaic ShloMosaic.ValueIdx Cert.KernelIdeal Cert.KernelIdeal.Gen Cert.Spec

variable (A : SNN.Idx → EReal) (Xs Dv : SNF.Idx → EReal) (a : FVec Ideal S1024x1024 .f32)
  (x acc xi dv l : FVec Ideal S1024x128 .f32) (w : FVec Ideal S128x128 .f32) (b : FVec Ideal S1x128 .f32)
  (v : FVec Ideal S1024 .f32) (i k : Fin 8) (p : Fin 8192)

section
variable (r : Fin 1024) (f q : Fin 128)

theorem pay1_at : (k1_pay1 (F := Ideal)) (ix2 r f) = 0 := by
  unfold k1_pay1
  simp only [shapeCast_self]
  exact Ideal.ofBits_zero_f32

theorem pay2_at : k1_pay2 (F := Ideal) a x acc (ix2 r f) = acc (ix2 r f) + ∑ j : Fin 1024, a (ix2 r j) * x (ix2 j f) := by
  unfold k1_pay2
  simp only [shapeCast_self]
  exact congrArg (acc (ix2 r f) + ·)
    (Cert.LibMatmulAt.matmul_zero_at dot_S1024x1024_S1024x128_S1024x128_1_0_0_1_n_n rfl rfl rfl rfl rfl rfl none _ _ r f)

theorem pay3_at : k1_pay3 (F := Ideal) acc xi dv (ix2 r f) = dv (ix2 r f) * (acc (ix2 r f) + xi (ix2 r f)) := by
  unfold k1_pay3
  simp only [shapeCast_self]
  rfl

theorem pay4_at : k1_pay4 (F := Ideal) acc xi dv w b (ix2 r q)
    = (∑ f : Fin 128, k1_pay3 (F := Ideal) acc xi dv (ix2 r f) * w (ix2 f q)) + b (ix2 (0 : Fin 1) q) := by
  unfold k1_pay4
  simp only [shapeCast_self]
  exact congrArg₂ (· + ·)
    (Cert.LibMatmulAt.matmul_zero_at dot_S1024x128_S128x128_S1024x128_1_0_0_1_n_n rfl rfl rfl rfl rfl rfl none _ _ r q)
    (broadcastTo_1b_ab_apply b broadcasts_S1x128_S1024x128 r q)

/-- A column of 1024 values repeated along the 128 columns. -/
abbrev col : FVec Ideal S1024x128 .f32 :=
  broadcastTo S1024x128 (shapeCast S1024x1 v shapeCasts_S1024_S1024x1) broadcasts_S1024x1_S1024x128

theorem column_at : col v (ix2 r q) = v (ix1 r) := by
  refine (broadcastTo_apply _ broadcasts_S1024x1_S1024x128 (ix2 r q) (ix2 r (0 : Fin 1)) fun a => ?_).trans ?_
  · match a with
    | ⟨0, _⟩ => rfl
    | ⟨1, _⟩ => rfl
  · refine shapeCast_apply v shapeCasts_S1024_S1024x1 (ix2 r (0 : Fin 1)) (ix1 r) ?_
    rw [Shape.rowMajor_val_one, Shape.rowMajor_val_two]
    show r.val = r.val * 1 + 0
    omega

theorem lift_row (n : Fin 128) : reduces_S1024x128_S1024.lift (ix1 r) n = ix2 r n := eq_ix2 _

/-- The row maximum from minus infinity, twice. -/
abbrev mx2 : FVec Ideal S1024 .f32 :=
  maximumf (broadcast S1024 (Scalar.ofBits (F := Ideal) .f32 0xFF800000#32))
    (multiReduction (F := Ideal) .maximumf [1] S1024 l 0xFF800000#32 reduces_S1024x128_S1024 (.inl rfl) rfl)

abbrev ex : FVec Ideal S1024x128 .f32 := exp (subf l (col (mx2 l)))

/-- The softmax of every row of a block of logits. -/
def rowSoftmax : FVec Ideal S1024x128 .f32 :=
  divf (ex l) (col (multiReduction (F := Ideal) .add [1] S1024 (ex l) 0x00000000#32 reduces_S1024x128_S1024 (.inl rfl) rfl))

theorem pay5_eq : k1_pay5 (F := Ideal) acc xi dv w b = rowSoftmax (k1_pay4 (F := Ideal) acc xi dv w b) := rfl

theorem rowMax_at : mx2 l (ix1 r) = rowMax fun n => l (ix2 r n) := by
  refine congrArg (max negInfW)
    ((Ideal.multiReduction_maximumf_single l _ reduces_S1024x128_S1024 (.inl rfl) rfl (ix1 r)).trans ?_)
  exact congrArg (fun g : Fin 128 → EReal => Finset.univ.fold max negInfW g) (funext fun n => congrArg l (lift_row r n))

theorem ex_at (n : Fin 128) : ex l (ix2 r n) = Ideal.exp (l (ix2 r n) - rowMax fun n => l (ix2 r n)) := by
  show Ideal.exp (l (ix2 r n) - col (mx2 l) (ix2 r n)) = _
  rw [column_at, rowMax_at]

theorem rowSoftmax_at : rowSoftmax l (ix2 r q) = smax (fun n => l (ix2 r n)) q := by
  unfold rowSoftmax smax
  show Ideal.div _ _ = _
  rw [ex_at, column_at]
  refine congrArg (Ideal.div _) ?_
  refine (Ideal.multiReduction_add_single _ 0x00000000#32 reduces_S1024x128_S1024 (.inl rfl) rfl (ix1 r)).trans ?_
  show ∑ n : Fin 128, _ = _
  simp only [lift_row, ex_at]

abbrev at8 (k : Fin 8) (j : Fin 1024) : Fin 8192 := ⟨1024 * k.val + j.val, by have := k.isLt; have := j.isLt; omega⟩

def share (k : ℕ) : EReal :=
  if h : k < 8 then ∑ j : Fin 1024, A (ix2 p (at8 ⟨k, h⟩ j)) * Xs (ix2 (at8 ⟨k, h⟩ j) f) else 0

def partialSum (n : ℕ) : EReal := ∑ k ∈ Finset.range n, share A Xs p f k

theorem partialSum_succ (n : ℕ) : partialSum A Xs p f (n + 1) = partialSum A Xs p f n + share A Xs p f n :=
  Finset.sum_range_succ _ _

theorem partialSum_eight : partialSum A Xs p f 8 = ∑ j : Fin 8192, A (ix2 p j) * Xs (ix2 j f) := by
  unfold partialSum
  rw [← Fin.sum_univ_eq_sum_range (fun k => share A Xs p f k) 8]
  refine Eq.trans (Finset.sum_congr rfl fun k _ => ?_) (sum_blocks 8 1024 (fun n : Fin 8192 => A (ix2 p n) * Xs (ix2 n f)))
  unfold share
  rw [dif_pos k.isLt]
  rfl

end

section
variable (hk : k.val = 0) (ha : ∀ (r j : Fin 1024), a (ix2 r j) = A (ix2 (at8 i r) (at8 k j)))
  (hx : ∀ (j : Fin 1024) (f : Fin 128), x (ix2 j f) = Xs (ix2 (at8 k j) f))
  (hacc : ∀ (r : Fin 1024) (f : Fin 128), acc (ix2 r f) = partialSum A Xs (at8 i r) f k.val) (r : Fin 1024) (f : Fin 128)
include ha hx

/-- One accumulation step adds the point's column block's share. -/
theorem pay2_share : k1_pay2 (F := Ideal) a x acc (ix2 r f) = acc (ix2 r f) + share A Xs (at8 i r) f k.val := by
  rw [pay2_at]
  unfold share
  rw [dif_pos k.isLt]
  simp only [ha, hx]

include hk in
theorem pay2_first : k1_pay2 (F := Ideal) a x (k1_pay1 (F := Ideal)) (ix2 r f) = partialSum A Xs (at8 i r) f (k.val + 1) := by
  rw [pay2_share A Xs a x _ i k ha hx, pay1_at, hk, partialSum_succ]; rfl

include hacc in
theorem pay2_next : k1_pay2 (F := Ideal) a x acc (ix2 r f) = partialSum A Xs (at8 i r) f (k.val + 1) := by
  rw [pay2_share A Xs a x acc i k ha hx, hacc, partialSum_succ]

end

section
variable (hacc : ∀ (r : Fin 1024) (f : Fin 128), acc (ix2 r f) = ∑ j : Fin 8192, A (ix2 (at8 i r) j) * Xs (ix2 j f))
  (hxi : ∀ (r : Fin 1024) (f : Fin 128), xi (ix2 r f) = Xs (ix2 (at8 i r) f))
  (hdv : ∀ (r : Fin 1024) (f : Fin 128), dv (ix2 r f) = Dv (ix2 (at8 i r) f)) (r : Fin 1024) (f q : Fin 128)
include hacc hxi hdv

theorem pay3_axB : k1_pay3 (F := Ideal) acc xi dv (ix2 r f) = axB A Xs Dv (at8 i r) f := by
  rw [pay3_at, hacc, hxi, hdv]
  rfl

theorem pay4_linB : k1_pay4 (F := Ideal) acc xi dv w b (ix2 r q) = linB (axB A Xs Dv) w b (at8 i r) q := by
  rw [pay4_at]
  unfold linB
  simp only [pay3_axB A Xs Dv acc xi dv i hacc hxi hdv]

theorem pay5_smax : k1_pay5 (F := Ideal) acc xi dv w b (ix2 r q) = smax (linB (axB A Xs Dv) w b (at8 i r)) q := by
  rw [pay5_eq, rowSoftmax_at]
  exact congrArg (smax · q) (funext (pay4_linB A Xs Dv acc xi dv w b i hacc hxi hdv r))

end

end Cert.KernelIdeal.R1Pay

end
-- ==== Proof.KI.R1Value.lean ====
import proofs.«114212_j498216206442_1_alg».proof.Proof.KI.R1Dat
import proofs.«114212_j498216206442_1_alg».proof.Proof.KI.R1Pay

noncomputable section

open scoped BigOperators

namespace Cert.KernelIdeal.Hand

open Cert.KernelIdeal Gen R1Pay Idealize ShloMosaic TcCoe ValueIdx SL.Sem
open Idealize.ShloMosaic.Pipeline (Dat)

section Pieces

variable {F : FTy → Type} [FloatOps F]

theorem zeros1 : (![0, 0] : Fin 2 → Nat) = fun _ => 0 := funext fun a => by fin_cases a <;> rfl

variable (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole)

section
variable (hc0 : cond1_0 i) (hc1 : ¬cond1_1 i) (x0 : Vec F S1024x1024 .f32) (x1 x2 x3 : Vec F S1024x128 .f32) (x4 : Vec F S128x128 .f32) (x5 : Vec F S1x128 .f32) (x6 : Vec F S128x128 .f32) (x7 : Vec F S1x128 .f32)

theorem sout1_A_0_eq :
    sout1_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k1_pay2 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun1_A
  dsimp only
  sl_unfold_words
  rw [View.canon_cons_unit_zero (S := S1024x128) zeros1, View.readCov_unit_zero (S := S1024x128) _ zeros1]
  simp only [View.readAt_eq_ld, harg2.read_unread, harg3.read_unread, harg4.read_unread, harg5.read_unread, harg6.read_unread, harg7.read_unread, harg8.read_unread, harg9.read_unread, harg12.read_unread, View.ld_unit_zero (S := S1024x1024) zeros1, View.ld_unit_zero (S := S1024x128) zeros1, View.ld_unit_zero (S := S128x128) zeros1, View.ld_unit_zero (S := S1x128) zeros1]

end

section
variable (hc0 : ¬cond1_0 i) (hc1 : ¬cond1_1 i) (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32)

theorem sout1_B_0_eq :
    sout1_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k1_pay2 x0 x1 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_B
  dsimp only
  sl_unfold_words
  rw [View.canon_unit_zero zeros1]
  simp only [View.readAt_eq_ld, harg2.read_unread, harg3.read_unread, harg4.read_unread, harg5.read_unread, harg6.read_unread, harg7.read_unread, harg8.read_unread, harg9.read_unread, harg12.read_unread, View.ld_unit_zero (S := S1024x1024) zeros1, View.ld_unit_zero (S := S1024x128) zeros1, View.ld_unit_zero (S := S128x128) zeros1, View.ld_unit_zero (S := S1x128) zeros1]

end

section
variable (hc0 : ¬cond1_0 i) (hc1 : cond1_1 i) (x0 : Vec F S1024x1024 .f32) (x1 x2 x3 : Vec F S1024x128 .f32) (x4 : Vec F S128x128 .f32) (x5 : Vec F S1x128 .f32) (x6 : Vec F S128x128 .f32) (x7 : Vec F S1x128 .f32) (xs0 : Vec F S1024x128 .f32)

theorem sout1_C_0_eq :
    sout1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k1_pay2 x0 x1 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_C
  dsimp only
  sl_unfold_words
  rw [View.canon_unit_zero zeros1]
  simp only [View.readAt_eq_ld, harg2.read_unread, harg3.read_unread, harg4.read_unread, harg5.read_unread, harg6.read_unread, harg7.read_unread, harg8.read_unread, harg9.read_unread, harg12.read_unread, View.ld_unit_zero (S := S1024x1024) zeros1, View.ld_unit_zero (S := S1024x128) zeros1, View.ld_unit_zero (S := S128x128) zeros1, View.ld_unit_zero (S := S1x128) zeros1]

theorem out1_C_8_eq :
    out1_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k1_pay4 (k1_pay2 x0 x1 xs0) x2 x3 x4 x5 := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_C
  dsimp only
  sl_unfold_words
  rw [View.canon_unit_zero zeros1, View.readCov_unit_zero (S := S1024x128) _ zeros1]
  simp only [View.readAt_eq_ld, harg2.read_unread, harg3.read_unread, harg4.read_unread, harg5.read_unread, harg6.read_unread, harg7.read_unread, harg8.read_unread, harg9.read_unread, harg12.read_unread, View.ld_unit_zero (S := S1024x1024) zeros1, View.ld_unit_zero (S := S1024x128) zeros1, View.ld_unit_zero (S := S128x128) zeros1, View.ld_unit_zero (S := S1x128) zeros1]

theorem out1_C_9_eq :
    out1_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k1_pay5 (k1_pay2 x0 x1 xs0) x2 x3 x6 x7 := by
  unfold out1_C_9
  rw [View.read_writes_eq_canon _ _ _ (cover1_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_C
  dsimp only
  sl_unfold_words
  rw [View.canon_unit_zero zeros1, View.readCov_unit_zero (S := S1024x128) _ zeros1]
  simp only [View.readAt_eq_ld, harg2.read_unread, harg3.read_unread, harg4.read_unread, harg5.read_unread, harg6.read_unread, harg7.read_unread, harg8.read_unread, harg9.read_unread, harg12.read_unread, View.ld_unit_zero (S := S1024x1024) zeros1, View.ld_unit_zero (S := S1024x128) zeros1, View.ld_unit_zero (S := S128x128) zeros1, View.ld_unit_zero (S := S1x128) zeros1]

end

end Pieces

variable (V : (c : Dev nD) → (b : Ref sig .tc) → Buf (Elt Ideal) ((c : Thread nD τ).loc b))

abbrev arrA1 (c : Dev nD) : Cert.Spec.SNN.Idx → EReal := V c main_arg1
abbrev arrXs1 (c : Dev nD) : Cert.Spec.SNF.Idx → EReal := V c main_v1
abbrev arrDv1 (c : Dev nD) : Cert.Spec.SNF.Idx → EReal := V c main_v0
abbrev arrWe1 (c : Dev nD) : Cert.Spec.SFF.Idx → EReal := V c main_v2
abbrev arrBe1 (c : Dev nD) : Cert.Spec.S1F.Idx → EReal := V c main_v4
abbrev arrWa1 (c : Dev nD) : Cert.Spec.SFF.Idx → EReal := V c main_v3
abbrev arrBa1 (c : Dev nD) : Cert.Spec.S1F.Idx → EReal := V c main_v5

abbrev blkA1 (c : Dev nD) (t : Fin cfg1.N) : FVec Ideal S1024x1024 .f32 := iblk1 V c 0 t
abbrev blkXk1 (c : Dev nD) (t : Fin cfg1.N) : FVec Ideal S1024x128 .f32 := iblk1 V c 1 t
abbrev blkXi1 (c : Dev nD) (t : Fin cfg1.N) : FVec Ideal S1024x128 .f32 := iblk1 V c 2 t
abbrev blkDv1 (c : Dev nD) (t : Fin cfg1.N) : FVec Ideal S1024x128 .f32 := iblk1 V c 3 t
abbrev blkWe1 (c : Dev nD) (t : Fin cfg1.N) : FVec Ideal S128x128 .f32 := iblk1 V c 4 t
abbrev blkBe1 (c : Dev nD) (t : Fin cfg1.N) : FVec Ideal S1x128 .f32 := iblk1 V c 5 t
abbrev blkWa1 (c : Dev nD) (t : Fin cfg1.N) : FVec Ideal S128x128 .f32 := iblk1 V c 6 t
abbrev blkBa1 (c : Dev nD) (t : Fin cfg1.N) : FVec Ideal S1x128 .f32 := iblk1 V c 7 t

abbrev rowOf1 (t : Fin cfg1.N) : Fin 8 := ⟨t.val / 8, by have := t.isLt; have hN : cfg1.N = 64 := N_1; omega⟩
abbrev colOf1 (t : Fin cfg1.N) : Fin 8 := ⟨t.val % 8, Nat.mod_lt _ (by decide)⟩

theorem idx1_facts : ∀ t : Fin cfg1.N,
    (win1_0.index t 0 = t.val / 8 ∧ win1_0.index t 1 = t.val % 8) ∧ (win1_1.index t 0 = t.val % 8 ∧ win1_1.index t 1 = 0)
      ∧ (win1_2.index t 0 = t.val / 8 ∧ win1_2.index t 1 = 0) ∧ (win1_3.index t 0 = t.val / 8 ∧ win1_3.index t 1 = 0) :=
  (by decide +kernel : ∀ t : Fin grid1.N, _)

theorem blkA1_at (c : Dev nD) (t : Fin cfg1.N) (r j : Fin 1024) :
    blkA1 V c t (ix2 r j) = arrA1 V c (ix2 (at8 (rowOf1 t) r) (at8 (colOf1 t) j)) := by
  have hi := (idx1_facts t).1
  unfold blkA1 iblk1
  rw [View.read_apply]
  show V c main_arg1 _ = V c main_arg1 _
  congr 1
  funext a
  apply Fin.ext
  match a with
  | ⟨0, _⟩ => show win1_0.index t 0 * 1024 + 1 * r.val = 1024 * (t.val / 8) + r.val; rw [hi.1]; omega
  | ⟨1, _⟩ => show win1_0.index t 1 * 1024 + 1 * j.val = 1024 * (t.val % 8) + j.val; rw [hi.2]; omega

theorem idx1_fixed : ∀ t : Fin cfg1.N,
    (win1_4.index t 0 = 0 ∧ win1_4.index t 1 = 0) ∧ (win1_5.index t 0 = 0 ∧ win1_5.index t 1 = 0)
      ∧ (win1_6.index t 0 = 0 ∧ win1_6.index t 1 = 0) ∧ (win1_7.index t 0 = 0 ∧ win1_7.index t 1 = 0) :=
  (by decide +kernel : ∀ t : Fin grid1.N, _)

theorem blkXk1_at (c : Dev nD) (t : Fin cfg1.N) (j : Fin 1024) (f : Fin 128) :
    blkXk1 V c t (ix2 j f) = arrXs1 V c (ix2 (at8 (colOf1 t) j) f) := by
  have hi := (idx1_facts t).2.1
  unfold blkXk1 iblk1
  rw [View.read_apply]
  show V c main_v1 _ = V c main_v1 _
  congr 1
  funext a
  apply Fin.ext
  match a with
  | ⟨0, _⟩ => show win1_1.index t 0 * 1024 + 1 * j.val = 1024 * (t.val % 8) + j.val; rw [hi.1]; omega
  | ⟨1, _⟩ => show win1_1.index t 1 * 128 + 1 * f.val = f.val; rw [hi.2]; omega

theorem blkXi1_at (c : Dev nD) (t : Fin cfg1.N) (r : Fin 1024) (f : Fin 128) :
    blkXi1 V c t (ix2 r f) = arrXs1 V c (ix2 (at8 (rowOf1 t) r) f) := by
  have hi := (idx1_facts t).2.2.1
  unfold blkXi1 iblk1
  rw [View.read_apply]
  show V c main_v1 _ = V c main_v1 _
  congr 1
  funext a
  apply Fin.ext
  match a with
  | ⟨0, _⟩ => show win1_2.index t 0 * 1024 + 1 * r.val = 1024 * (t.val / 8) + r.val; rw [hi.1]; omega
  | ⟨1, _⟩ => show win1_2.index t 1 * 128 + 1 * f.val = f.val; rw [hi.2]; omega

theorem blkDv1_at (c : Dev nD) (t : Fin cfg1.N) (r : Fin 1024) (f : Fin 128) :
    blkDv1 V c t (ix2 r f) = arrDv1 V c (ix2 (at8 (rowOf1 t) r) f) := by
  have hi := (idx1_facts t).2.2.2
  unfold blkDv1 iblk1
  rw [View.read_apply]
  show V c main_v0 _ = V c main_v0 _
  congr 1
  funext a
  apply Fin.ext
  match a with
  | ⟨0, _⟩ => show win1_3.index t 0 * 1024 + 1 * r.val = 1024 * (t.val / 8) + r.val; rw [hi.1]; omega
  | ⟨1, _⟩ => show win1_3.index t 1 * 128 + 1 * f.val = f.val; rw [hi.2]; omega

theorem blkWe1_eq (c : Dev nD) (t : Fin cfg1.N) : blkWe1 V c t = arrWe1 V c := by
  have hi := (idx1_fixed t).1
  funext y
  unfold blkWe1 iblk1
  rw [View.read_apply]
  show V c main_v2 _ = V c main_v2 _
  congr 1
  funext a
  apply Fin.ext
  match a with
  | ⟨0, _⟩ => show win1_4.index t 0 * 128 + 1 * (y 0).val = (y 0).val; rw [hi.1]; omega
  | ⟨1, _⟩ => show win1_4.index t 1 * 128 + 1 * (y 1).val = (y 1).val; rw [hi.2]; omega

theorem blkBe1_eq (c : Dev nD) (t : Fin cfg1.N) : blkBe1 V c t = arrBe1 V c := by
  have hi := (idx1_fixed t).2.1
  funext y
  unfold blkBe1 iblk1
  rw [View.read_apply]
  show V c main_v4 _ = V c main_v4 _
  congr 1
  funext a
  apply Fin.ext
  match a with
  | ⟨0, _⟩ => show win1_5.index t 0 * 1 + 1 * (y 0).val = (y 0).val; rw [hi.1]; omega
  | ⟨1, _⟩ => show win1_5.index t 1 * 128 + 1 * (y 1).val = (y 1).val; rw [hi.2]; omega

theorem blkWa1_eq (c : Dev nD) (t : Fin cfg1.N) : blkWa1 V c t = arrWa1 V c := by
  have hi := (idx1_fixed t).2.2.1
  funext y
  unfold blkWa1 iblk1
  rw [View.read_apply]
  show V c main_v3 _ = V c main_v3 _
  congr 1
  funext a
  apply Fin.ext
  match a with
  | ⟨0, _⟩ => show win1_6.index t 0 * 128 + 1 * (y 0).val = (y 0).val; rw [hi.1]; omega
  | ⟨1, _⟩ => show win1_6.index t 1 * 128 + 1 * (y 1).val = (y 1).val; rw [hi.2]; omega

theorem blkBa1_eq (c : Dev nD) (t : Fin cfg1.N) : blkBa1 V c t = arrBa1 V c := by
  have hi := (idx1_fixed t).2.2.2
  funext y
  unfold blkBa1 iblk1
  rw [View.read_apply]
  show V c main_v5 _ = V c main_v5 _
  congr 1
  funext a
  apply Fin.ext
  match a with
  | ⟨0, _⟩ => show win1_7.index t 0 * 1 + 1 * (y 0).val = (y 0).val; rw [hi.1]; omega
  | ⟨1, _⟩ => show win1_7.index t 1 * 128 + 1 * (y 1).val = (y 1).val; rw [hi.2]; omega

-- After block column k of a block row the accumulator holds the first k + 1 column blocks' share of each row's product.
theorem acc1_inv (c : Dev nD) : ∀ (n : ℕ) (hn : n < cfg1.N) (i k : Fin 8), i.val = n / 8 → k.val = n % 8 →
    ∀ (r : Fin 1024) (f : Fin 128),
      ((outsAt1 V c n hn).2.2 : FVec Ideal S1024x128 .f32) (ix2 r f)
        = partialSum (arrA1 V c) (arrXs1 V c) (at8 i r) f (k.val + 1) := by
  intro n
  induction n with
  | zero =>
    intro hn i k hi hk r f
    obtain rfl : i = rowOf1 ⟨0, hn⟩ := Fin.ext hi
    obtain rfl : k = colOf1 ⟨0, hn⟩ := Fin.ext hk
    have h0 : (⟨0, hn⟩ : Fin cfg1.N).val % 8 = 0 := Nat.zero_mod _
    have h1 : ¬(⟨0, hn⟩ : Fin cfg1.N).val % 8 = 7 := by show ¬0 % 8 = 7; omega
    rw [outsAt1_A V c ⟨0, hn⟩ h0 h1]; unfold ptA1
    dsimp only
    refine (congrFun (sout1_A_0_eq ..) _).trans ?_
    exact pay2_first (arrA1 V c) (arrXs1 V c) (blkA1 V c ⟨0, hn⟩) (blkXk1 V c ⟨0, hn⟩) (rowOf1 ⟨0, hn⟩) (colOf1 ⟨0, hn⟩) h0
      (blkA1_at V c ⟨0, hn⟩) (blkXk1_at V c ⟨0, hn⟩) r f
  | succ n ih =>
    intro hn i k hi hk r f
    obtain rfl : i = rowOf1 ⟨n + 1, hn⟩ := Fin.ext hi
    obtain rfl : k = colOf1 ⟨n + 1, hn⟩ := Fin.ext hk
    by_cases h0 : (⟨n + 1, hn⟩ : Fin cfg1.N).val % 8 = 0
    · have h1 : ¬(⟨n + 1, hn⟩ : Fin cfg1.N).val % 8 = 7 := by rw [h0]; omega
      rw [outsAt1_A V c ⟨n + 1, hn⟩ h0 h1]; unfold ptA1
      dsimp only
      refine (congrFun (sout1_A_0_eq ..) _).trans ?_
      exact pay2_first (arrA1 V c) (arrXs1 V c) (blkA1 V c ⟨n + 1, hn⟩) (blkXk1 V c ⟨n + 1, hn⟩) (rowOf1 ⟨n + 1, hn⟩) (colOf1 ⟨n + 1, hn⟩) h0
        (blkA1_at V c ⟨n + 1, hn⟩) (blkXk1_at V c ⟨n + 1, hn⟩) r f
    · have h0' : ¬(n + 1) % 8 = 0 := h0
      have hprev : ∀ (r : Fin 1024) (f : Fin 128),
          ((outsAt1 V c ((⟨n + 1, hn⟩ : Fin cfg1.N).val - 1) (Nat.lt_of_le_of_lt (Nat.sub_le _ _) (⟨n + 1, hn⟩ : Fin cfg1.N).isLt)).2.2 : FVec Ideal S1024x128 .f32) (ix2 r f)
            = partialSum (arrA1 V c) (arrXs1 V c) (at8 (rowOf1 ⟨n + 1, hn⟩) r) f (colOf1 ⟨n + 1, hn⟩).val := by
        intro r f
        refine (ih (Nat.lt_of_succ_lt hn) (rowOf1 ⟨n + 1, hn⟩) ⟨n % 8, Nat.mod_lt _ (by decide)⟩
          (by show (n + 1) / 8 = n / 8; omega) rfl r f).trans ?_
        refine congrArg (partialSum (arrA1 V c) (arrXs1 V c) (at8 (rowOf1 ⟨n + 1, hn⟩) r) f) ?_
        show n % 8 + 1 = (n + 1) % 8
        omega
      by_cases h1 : (⟨n + 1, hn⟩ : Fin cfg1.N).val % 8 = 7
      · rw [outsAt1_C V c ⟨n + 1, hn⟩ h0 h1]; unfold ptC1
        dsimp only
        refine (congrFun (sout1_C_0_eq ..) _).trans ?_
        exact pay2_next (arrA1 V c) (arrXs1 V c) (blkA1 V c ⟨n + 1, hn⟩) (blkXk1 V c ⟨n + 1, hn⟩) (outsAt1 V c ((⟨n + 1, hn⟩ : Fin cfg1.N).val - 1) (Nat.lt_of_le_of_lt (Nat.sub_le _ _) (⟨n + 1, hn⟩ : Fin cfg1.N).isLt)).2.2 (rowOf1 ⟨n + 1, hn⟩) (colOf1 ⟨n + 1, hn⟩)
          (blkA1_at V c ⟨n + 1, hn⟩) (blkXk1_at V c ⟨n + 1, hn⟩) hprev r f
      · rw [outsAt1_B V c ⟨n + 1, hn⟩ h0 h1]; unfold ptB1
        dsimp only
        refine (congrFun (sout1_B_0_eq ..) _).trans ?_
        exact pay2_next (arrA1 V c) (arrXs1 V c) (blkA1 V c ⟨n + 1, hn⟩) (blkXk1 V c ⟨n + 1, hn⟩) (outsAt1 V c ((⟨n + 1, hn⟩ : Fin cfg1.N).val - 1) (Nat.lt_of_le_of_lt (Nat.sub_le _ _) (⟨n + 1, hn⟩ : Fin cfg1.N).isLt)).2.2 (rowOf1 ⟨n + 1, hn⟩) (colOf1 ⟨n + 1, hn⟩)
          (blkA1_at V c ⟨n + 1, hn⟩) (blkXk1_at V c ⟨n + 1, hn⟩) hprev r f

abbrev specAX1 (c : Dev nD) : Fin 8192 → Fin 128 → EReal := Cert.Spec.axB (arrA1 V c) (arrXs1 V c) (arrDv1 V c)
abbrev specZ1 (c : Dev nD) : Fin 8192 → Fin 128 → EReal := Cert.Spec.linB (specAX1 V c) (arrWe1 V c) (arrBe1 V c)
abbrev specS1 (c : Dev nD) : Fin 8192 → Fin 128 → EReal :=
  fun p q => Cert.Spec.smax (Cert.Spec.linB (specAX1 V c) (arrWa1 V c) (arrBa1 V c) p) q

theorem heads1_C (c : Dev nD) (t : Fin cfg1.N) (h0 : ¬t.val % 8 = 0) (h7 : t.val % 8 = 7) :
    (outsAt1 V c t.val t.isLt).1
        = k1_pay4 (F := Ideal) (outsAt1 V c t.val t.isLt).2.2 (blkXi1 V c t) (blkDv1 V c t) (blkWe1 V c t) (blkBe1 V c t)
      ∧ (outsAt1 V c t.val t.isLt).2.1
        = k1_pay5 (F := Ideal) (outsAt1 V c t.val t.isLt).2.2 (blkXi1 V c t) (blkDv1 V c t) (blkWa1 V c t) (blkBa1 V c t) := by
  rw [outsAt1_C V c t h0 h7]; unfold ptC1
  dsimp only
  rw [sout1_C_0_eq, out1_C_8_eq, out1_C_9_eq]
  exact ⟨rfl, rfl⟩

theorem acc1_last (c : Dev nD) (t : Fin cfg1.N) (h7 : t.val % 8 = 7) (r : Fin 1024) (f : Fin 128) :
    ((outsAt1 V c t.val t.isLt).2.2 : FVec Ideal S1024x128 .f32) (ix2 r f)
      = ∑ j : Fin 8192, arrA1 V c (ix2 (at8 (rowOf1 t) r) j) * arrXs1 V c (ix2 j f) := by
  refine (acc1_inv V c t.val t.isLt (rowOf1 t) (colOf1 t) rfl rfl r f).trans ?_
  rw [show (colOf1 t).val + 1 = 8 from by show t.val % 8 + 1 = 8; omega]
  exact partialSum_eight (arrA1 V c) (arrXs1 V c) (at8 (rowOf1 t) r) f

theorem z1_at (c : Dev nD) (t : Fin cfg1.N) (h0 : ¬t.val % 8 = 0) (h7 : t.val % 8 = 7) (r : Fin 1024) (q : Fin 128) :
    ((outsAt1 V c t.val t.isLt).1 : FVec Ideal S1024x128 .f32) (ix2 r q) = specZ1 V c (at8 (rowOf1 t) r) q := by
  have hW := blkWe1_eq V c t
  have hB := blkBe1_eq V c t
  rw [(heads1_C V c t h0 h7).1, hW, hB]
  exact pay4_linB (arrA1 V c) (arrXs1 V c) (arrDv1 V c) (outsAt1 V c t.val t.isLt).2.2 (blkXi1 V c t) (blkDv1 V c t) (arrWe1 V c) (arrBe1 V c)
    (rowOf1 t) (acc1_last V c t h7) (blkXi1_at V c t) (blkDv1_at V c t) r q

theorem s1_at (c : Dev nD) (t : Fin cfg1.N) (h0 : ¬t.val % 8 = 0) (h7 : t.val % 8 = 7) (r : Fin 1024) (q : Fin 128) :
    ((outsAt1 V c t.val t.isLt).2.1 : FVec Ideal S1024x128 .f32) (ix2 r q) = specS1 V c (at8 (rowOf1 t) r) q := by
  have hW := blkWa1_eq V c t
  have hB := blkBa1_eq V c t
  rw [(heads1_C V c t h0 h7).2, hW, hB]
  exact pay5_smax (arrA1 V c) (arrXs1 V c) (arrDv1 V c) (outsAt1 V c t.val t.isLt).2.2 (blkXi1 V c t) (blkDv1 V c t) (arrWa1 V c) (arrBa1 V c)
    (rowOf1 t) (acc1_last V c t h7) (blkXi1_at V c t) (blkDv1_at V c t) r q

theorem idx1_out : ∀ t : Fin cfg1.N,
    (win1_8.index t 0 = t.val / 8 ∧ win1_8.index t 1 = 0) ∧ (win1_9.index t 0 = t.val / 8 ∧ win1_9.index t 1 = 0) :=
  (by decide +kernel : ∀ t : Fin grid1.N, _)

theorem flushed1_8_eq (c : Dev nD) (t : Fin cfg1.N) (hf : (cfg1.win 8).flush t = true) :
    (dat1 (F := Ideal) V c).flushed 8 t = ((cfg1.win 8).blk t).view.read (Elt Ideal) (Cert.Spec.arr (specZ1 V c)) := by
  have h7 : t.val % 8 = 7 := (flush1_8 t).mp hf
  have h0 : ¬t.val % 8 = 0 := by omega
  have hi := (idx1_out t).1
  show (cfg1.win 8).cut (grid1.coords t) ((dat1 (F := Ideal) V c).after 8 t) = _
  rw [after1_8]
  refine funext fun (y : S1024x128.Idx) => ?_
  obtain ⟨r, q, rfl⟩ : ∃ (r : Fin 1024) (q : Fin 128), y = ix2 r q := ⟨y 0, y 1, eq_ix2 y⟩
  show ((outsAt1 V c t.val t.isLt).1 : FVec Ideal S1024x128 .f32) (ix2 r q)
    = Cert.Spec.arr (specZ1 V c) (((cfg1.win 8).blk t).view.emb (ix2 r q))
  have he : ((cfg1.win 8).blk t).view.emb (ix2 r q) = ix2 (at8 (rowOf1 t) r) q := funext fun a => Fin.ext (by
    match a with
    | ⟨0, _⟩ => show win1_8.index t 0 * 1024 + 1 * r.val = 1024 * (t.val / 8) + r.val; rw [hi.1]; omega
    | ⟨1, _⟩ => show win1_8.index t 1 * 128 + 1 * q.val = q.val; rw [hi.2]; omega)
  rw [he, Cert.Spec.arr_ix2]
  exact z1_at V c t h0 h7 r q

theorem cover1_8 (y : Cert.Spec.SNF.Idx) :
    ∃ t : Fin cfg1.N, (cfg1.win 8).flush t = true ∧ y ∈ ((cfg1.win 8).blk t).view.set := by
  have hN : grid1.N = 64 := N_1
  obtain ⟨p, q, rfl⟩ : ∃ (p : Fin 8192) (q : Fin 128), y = ix2 p q := ⟨y 0, y 1, eq_ix2 y⟩
  obtain ⟨t, ht⟩ : ∃ t : Fin cfg1.N, t.val = 8 * (p.val / 1024) + 7 :=
    ⟨⟨8 * (p.val / 1024) + 7, by show _ < grid1.N; have := p.isLt; omega⟩, rfl⟩
  have hi := (idx1_out t).1
  have hp := p.isLt
  have hq := q.isLt
  refine ⟨t, (flush1_8 t).mpr (by omega), ?_⟩
  show ix2 p q ∈ ((View.whole main_v6_0).slice (win1_8.rect t)).set
  rw [View.set_slice_whole, Rect.mem_set_unit]
  intro a
  match a with
  | ⟨0, _⟩ => show win1_8.index t 0 * 1024 ≤ p.val ∧ p.val < win1_8.index t 0 * 1024 + 1024; rw [hi.1]; omega
  | ⟨1, _⟩ => show win1_8.index t 1 * 128 ≤ q.val ∧ q.val < win1_8.index t 1 * 128 + 128; rw [hi.2]; omega

theorem flushed1_9_eq (c : Dev nD) (t : Fin cfg1.N) (hf : (cfg1.win 9).flush t = true) :
    (dat1 (F := Ideal) V c).flushed 9 t = ((cfg1.win 9).blk t).view.read (Elt Ideal) (Cert.Spec.arr (specS1 V c)) := by
  have h7 : t.val % 8 = 7 := (flush1_9 t).mp hf
  have h0 : ¬t.val % 8 = 0 := by omega
  have hi := (idx1_out t).2
  show (cfg1.win 9).cut (grid1.coords t) ((dat1 (F := Ideal) V c).after 9 t) = _
  rw [after1_9]
  refine funext fun (y : S1024x128.Idx) => ?_
  obtain ⟨r, q, rfl⟩ : ∃ (r : Fin 1024) (q : Fin 128), y = ix2 r q := ⟨y 0, y 1, eq_ix2 y⟩
  show ((outsAt1 V c t.val t.isLt).2.1 : FVec Ideal S1024x128 .f32) (ix2 r q)
    = Cert.Spec.arr (specS1 V c) (((cfg1.win 9).blk t).view.emb (ix2 r q))
  have he : ((cfg1.win 9).blk t).view.emb (ix2 r q) = ix2 (at8 (rowOf1 t) r) q := funext fun a => Fin.ext (by
    match a with
    | ⟨0, _⟩ => show win1_9.index t 0 * 1024 + 1 * r.val = 1024 * (t.val / 8) + r.val; rw [hi.1]; omega
    | ⟨1, _⟩ => show win1_9.index t 1 * 128 + 1 * q.val = q.val; rw [hi.2]; omega)
  rw [he, Cert.Spec.arr_ix2]
  exact s1_at V c t h0 h7 r q

theorem cover1_9 (y : Cert.Spec.SNF.Idx) :
    ∃ t : Fin cfg1.N, (cfg1.win 9).flush t = true ∧ y ∈ ((cfg1.win 9).blk t).view.set := by
  have hN : grid1.N = 64 := N_1
  obtain ⟨p, q, rfl⟩ : ∃ (p : Fin 8192) (q : Fin 128), y = ix2 p q := ⟨y 0, y 1, eq_ix2 y⟩
  obtain ⟨t, ht⟩ : ∃ t : Fin cfg1.N, t.val = 8 * (p.val / 1024) + 7 :=
    ⟨⟨8 * (p.val / 1024) + 7, by show _ < grid1.N; have := p.isLt; omega⟩, rfl⟩
  have hi := (idx1_out t).2
  have hp := p.isLt
  have hq := q.isLt
  refine ⟨t, (flush1_9 t).mpr (by omega), ?_⟩
  show ix2 p q ∈ ((View.whole main_v6_1).slice (win1_9.rect t)).set
  rw [View.set_slice_whole, Rect.mem_set_unit]
  intro a
  match a with
  | ⟨0, _⟩ => show win1_9.index t 0 * 1024 ≤ p.val ∧ p.val < win1_9.index t 0 * 1024 + 1024; rw [hi.1]; omega
  | ⟨1, _⟩ => show win1_9.index t 1 * 128 ≤ q.val ∧ q.val < win1_9.index t 1 * 128 + 128; rw [hi.2]; omega

theorem final1_8 (c : Dev nD) :
    ((dat1 (F := Ideal) V c).arrAt 8 cfg1.N : Cert.Spec.SNF.Idx → EReal) = Cert.Spec.arr (Cert.Spec.linB (Cert.Spec.axB (V c main_arg1 : Cert.Spec.SNN.Idx → EReal) (V c main_v1 : Cert.Spec.SNF.Idx → EReal) (V c main_v0 : Cert.Spec.SNF.Idx → EReal)) (V c main_v2 : Cert.Spec.SFF.Idx → EReal) (V c main_v4 : Cert.Spec.S1F.Idx → EReal)) :=
  (dat1 (F := Ideal) V c).arrAt_eq_of_cover 8 (Cert.Spec.arr (specZ1 V c)) (flushed1_8_eq V c) cover1_8

theorem final1_9 (c : Dev nD) :
    ((dat1 (F := Ideal) V c).arrAt 9 cfg1.N : Cert.Spec.SNF.Idx → EReal) = Cert.Spec.arr (fun p q => Cert.Spec.smax (Cert.Spec.linB (Cert.Spec.axB (V c main_arg1 : Cert.Spec.SNN.Idx → EReal) (V c main_v1 : Cert.Spec.SNF.Idx → EReal) (V c main_v0 : Cert.Spec.SNF.Idx → EReal)) (V c main_v3 : Cert.Spec.SFF.Idx → EReal) (V c main_v5 : Cert.Spec.S1F.Idx → EReal) p) q) :=
  (dat1 (F := Ideal) V c).arrAt_eq_of_cover 9 (Cert.Spec.arr (specS1 V c)) (flushed1_9_eq V c) cover1_9

end Cert.KernelIdeal.Hand

end
-- ==== Proof.KI.R2Pay.lean ====
import proofs.«114212_j498216206442_1_alg».proof.Proof.Gen.KernelIdeal.Skeleton
import proofs.«114212_j498216206442_1_alg».proof.Proof.Spec
import proofs.«114212_j498216206442_1_alg».proof.Proof.LibMatmulAt
import Idealize.ShloMosaic.Lib.ValueIdx
import Idealize.ShloMosaic.Lib.Pipeline.Value
import Idealize.ShloMosaic.PureOps.Ideal.Laws

noncomputable section

namespace Cert.KernelIdeal.Hand

open Idealize ShloMosaic ValueIdx
open Cert.KernelIdeal.Gen
open Cert.Spec (blockIdx SNN SNF)

theorem k2_pay1_at (p : Fin 1024) (q : Fin 128) : (k2_pay1 (F := Ideal) (ix2 p q) : EReal) = 0 := by
  unfold k2_pay1
  simp only [shapeCast_self]
  exact Ideal.ofBits_zero_f32

theorem k2_pay2_at (x0 : FVec Ideal S1024x1024 .f32) (x1 xs : FVec Ideal S1024x128 .f32) (p : Fin 1024) (q : Fin 128) :
    (k2_pay2 (F := Ideal) x0 x1 xs (ix2 p q) : EReal) = xs (ix2 p q) + ∑ cc : Fin 1024, x0 (ix2 p cc) * x1 (ix2 cc q) := by
  unfold k2_pay2
  simp only [shapeCast_self]
  refine (addf_apply _ _ _).trans ?_
  exact congrArg (fun z => xs (ix2 p q) + z)
    (Cert.LibMatmulAt.matmul_zero_at dot_S1024x1024_S1024x128_S1024x128_1_0_0_1_n_n rfl rfl rfl rfl rfl rfl none _ _ p q)

section Sums

variable (A : SNN.Idx → EReal) (S : SNF.Idx → EReal)

def blockTerm2 (i k : Fin 8) (p : Fin 1024) (q : Fin 128) : EReal :=
  ∑ cc : Fin 1024, A (ix2 (blockIdx 8 1024 i p) (blockIdx 8 1024 k cc)) * S (ix2 (blockIdx 8 1024 k cc) q)

def blockTermN2 (i k : ℕ) (p : Fin 1024) (q : Fin 128) : EReal :=
  if h : i < 8 ∧ k < 8 then blockTerm2 A S ⟨i, h.1⟩ ⟨k, h.2⟩ p q else 0

theorem sum_blockTermN2 (i : Fin 8) (p : Fin 1024) (q : Fin 128) :
    ∑ k ∈ Finset.range 8, blockTermN2 A S i.val k p q = Cert.Spec.asOf A S (blockIdx 8 1024 i p) q := by
  rw [Finset.sum_range]
  refine (Finset.sum_congr rfl fun k _ => dif_pos (And.intro i.isLt k.isLt)).trans ?_
  unfold blockTerm2 Cert.Spec.asOf
  exact Cert.Spec.sum_blocks 8 1024 fun n => A (ix2 (blockIdx 8 1024 i p) n) * S (ix2 n q)

end Sums

end Cert.KernelIdeal.Hand

end
-- ==== Proof.KI.R2Value.lean ====
import proofs.«114212_j498216206442_1_alg».proof.Proof.KI.R2Dat
import proofs.«114212_j498216206442_1_alg».proof.Proof.KI.R2Pay
import Idealize.ShloMosaic.Lib.Pipeline.Value
import Idealize.ShloMosaic.Lib.ValueIdx

noncomputable section

namespace Cert.KernelIdeal.Hand

open Idealize ShloMosaic TcCoe ValueIdx
open Cert.KernelIdeal.Gen
open Cert.Spec (blockIdx SNN SNF)

section Pieces

variable {F : FTy → Type} [FloatOps F] (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (x0 : Vec F S1024x1024 .f32) (x1 xs0 : Vec F S1024x128 .f32)

theorem origin2 : (![0, 0] : Fin 2 → Nat) = fun _ => 0 := funext fun a => by fin_cases a <;> rfl

theorem sout2_A_0_eq (hc0 : cond2_0 i) (hc1 : ¬cond2_1 i) :
    sout2_A_0 c i arg2 harg2 arg3 harg3 arg4 harg4 arg5 harg5 hc0 hc1 x0 x1 = k2_pay2 x0 x1 (k2_pay1 (F := F)) := by
  unfold sout2_A_0
  rw [View.read_writes_eq_canon _ _ _ (fun _ => scover2_A_0 ..)]
  unfold kernelRun2_A
  dsimp only
  sl_unfold_words
  rw [View.canon_cons_unit_zero (S := S1024x128) origin2, View.readCov_unit_zero (S := S1024x128) _ origin2]
  simp only [View.readAt_eq_ld, harg2.read_unread, harg3.read_unread, View.ld_unit_zero (S := S1024x1024) origin2,
    View.ld_unit_zero (S := S1024x128) origin2]

theorem sout2_B_0_eq (hc0 : ¬cond2_0 i) (hc1 : ¬cond2_1 i) :
    sout2_B_0 c i arg2 harg2 arg3 harg3 arg4 harg4 arg5 harg5 hc0 hc1 x0 x1 xs0 = k2_pay2 x0 x1 xs0 := by
  unfold sout2_B_0
  rw [View.read_writes_eq_canon _ _ _ (fun _ => scover2_B_0 ..)]
  unfold kernelRun2_B
  dsimp only
  sl_unfold_words
  rw [View.canon_unit_zero origin2]
  simp only [View.readAt_eq_ld, harg2.read_unread, harg3.read_unread, harg5.read_unread, View.ld_unit_zero (S := S1024x1024) origin2,
    View.ld_unit_zero (S := S1024x128) origin2]

theorem sout2_C_0_eq (hc0 : ¬cond2_0 i) (hc1 : cond2_1 i) :
    sout2_C_0 c i arg2 harg2 arg3 harg3 arg4 harg4 arg5 harg5 hc0 hc1 x0 x1 xs0 = k2_pay2 x0 x1 xs0 := by
  unfold sout2_C_0
  rw [View.read_writes_eq_canon _ _ _ (fun _ => scover2_C_0 ..)]
  unfold kernelRun2_C
  dsimp only
  sl_unfold_words
  rw [View.canon_unit_zero origin2]
  simp only [View.readAt_eq_ld, harg2.read_unread, harg3.read_unread, harg5.read_unread, View.ld_unit_zero (S := S1024x1024) origin2,
    View.ld_unit_zero (S := S1024x128) origin2]

theorem out2_C_2_eq (hc0 : ¬cond2_0 i) (hc1 : cond2_1 i) :
    out2_C_2 c i arg2 harg2 arg3 harg3 arg4 harg4 arg5 harg5 hc0 hc1 x0 x1 xs0 = k2_pay2 x0 x1 xs0 := by
  unfold out2_C_2
  rw [View.read_writes_eq_canon _ _ _ (fun _ => cover2_C_2 ..)]
  unfold kernelRun2_C
  dsimp only
  sl_unfold_words
  rw [View.canon_unit_zero origin2, View.readCov_unit_zero (S := S1024x128) _ origin2]
  simp only [View.readAt_eq_ld, harg2.read_unread, harg3.read_unread, harg5.read_unread, View.ld_unit_zero (S := S1024x1024) origin2,
    View.ld_unit_zero (S := S1024x128) origin2]

end Pieces

variable (V : (c : Dev nD) → (b : Ref sig .tc) → Buf (Elt Ideal) ((c : Thread nD τ).loc b)) (c : Dev nD)

abbrev adj2 : SNN.Idx → EReal := V c main_arg1
abbrev asg2 : SNF.Idx → EReal := V c main_v6_1
abbrev ablk2 (t : Fin cfg2.N) : FVec Ideal S1024x1024 .f32 := iblk2 V c 0 t
abbrev sblk2 (t : Fin cfg2.N) : FVec Ideal S1024x128 .f32 := iblk2 V c 1 t

theorem idx2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

variable (t : Fin cfg2.N) (p : Fin 1024) (q : Fin 128)

theorem ablk2_at (i k : Fin 8) (hi : t.val / 8 = i.val) (hk : t.val % 8 = k.val) (cc : Fin 1024) :
    (ablk2 V c t (ix2 p cc) : EReal) = adj2 V c (ix2 (blockIdx 8 1024 i p) (blockIdx 8 1024 k cc)) := by
  obtain ⟨e0, e1, -, -, -, -⟩ := idx2 t
  show V c main_arg1 _ = V c main_arg1 _
  refine congrArg _ (funext fun a => Fin.ext ?_)
  match a with
  | ⟨0, _⟩ => show win2_0.index t (0 : Fin 2) * 1024 + 1 * p.val = 1024 * i.val + p.val; rw [e0]; omega
  | ⟨1, _⟩ => show win2_0.index t (1 : Fin 2) * 1024 + 1 * cc.val = 1024 * k.val + cc.val; rw [e1]; omega

theorem sblk2_at (k : Fin 8) (hk : t.val % 8 = k.val) (cc : Fin 1024) :
    (sblk2 V c t (ix2 cc q) : EReal) = asg2 V c (ix2 (blockIdx 8 1024 k cc) q) := by
  obtain ⟨-, -, e2, e3, -, -⟩ := idx2 t
  show V c main_v6_1 _ = V c main_v6_1 _
  refine congrArg _ (funext fun a => Fin.ext ?_)
  match a with
  | ⟨0, _⟩ => show win2_1.index t (0 : Fin 2) * 1024 + 1 * cc.val = 1024 * k.val + cc.val; rw [e2]; omega
  | ⟨1, _⟩ => show win2_1.index t (1 : Fin 2) * 128 + 1 * q.val = q.val; rw [e3]; omega

-- The update at point t adds, at (p, q), the term of block column t % 8 of block row t / 8.
theorem upd2_at (xs : FVec Ideal S1024x128 .f32) :
    (k2_pay2 (F := Ideal) (ablk2 V c t) (sblk2 V c t) xs (ix2 p q) : EReal)
      = xs (ix2 p q) + blockTermN2 (adj2 V c) (asg2 V c) (t.val / 8) (t.val % 8) p q := by
  have hN : t.val < 64 := lt_of_lt_of_eq t.isLt (show cfg2.N = 64 from N_2)
  have hi : t.val / 8 < 8 := by omega
  have hk : t.val % 8 < 8 := Nat.mod_lt _ (by decide)
  refine (k2_pay2_at (ablk2 V c t) (sblk2 V c t) xs p q).trans ?_
  refine congrArg (fun z => xs (ix2 p q) + z) ?_
  unfold blockTermN2
  rw [dif_pos ⟨hi, hk⟩]
  unfold blockTerm2
  exact Finset.sum_congr rfl fun cc _ =>
    congrArg₂ (fun a b : EReal => a * b) (ablk2_at V c t p ⟨t.val / 8, hi⟩ ⟨t.val % 8, hk⟩ rfl rfl cc) (sblk2_at V c t q ⟨t.val % 8, hk⟩ rfl cc)

theorem pred_lt2 : t.val - 1 < cfg2.N := Nat.lt_of_le_of_lt (Nat.sub_le _ _) t.isLt

theorem acc2_first (h0 : t.val % 8 = 0) :
    ((outsAt2 V c t.val t.isLt).2 (ix2 p q) : EReal) = blockTermN2 (adj2 V c) (asg2 V c) (t.val / 8) 0 p q := by
  have h1 : ¬t.val % 8 = 7 := by omega
  rw [outsAt2_A V c t h0 h1]
  unfold leaves2_A
  dsimp only
  refine ((congrFun (sout2_A_0_eq ..) _).trans (upd2_at V c t p q _)).trans ?_
  rw [k2_pay1_at, zero_add, h0]

theorem acc2_next (h0 : ¬t.val % 8 = 0) :
    ((outsAt2 V c t.val t.isLt).2 (ix2 p q) : EReal)
      = (outsAt2 V c (t.val - 1) (pred_lt2 t)).2 (ix2 p q) + blockTermN2 (adj2 V c) (asg2 V c) (t.val / 8) (t.val % 8) p q := by
  by_cases h1 : t.val % 8 = 7
  · rw [outsAt2_C V c t h0 h1]
    unfold leaves2_C
    dsimp only
    exact (congrFun (sout2_C_0_eq ..) _).trans (upd2_at V c t p q _)
  · rw [outsAt2_B V c t h0 h1]
    unfold leaves2_B
    dsimp only
    exact (congrFun (sout2_B_0_eq ..) _).trans (upd2_at V c t p q _)

theorem out2_last (h1 : t.val % 8 = 7) :
    ((outsAt2 V c t.val t.isLt).1 (ix2 p q) : EReal)
      = (outsAt2 V c (t.val - 1) (pred_lt2 t)).2 (ix2 p q) + blockTermN2 (adj2 V c) (asg2 V c) (t.val / 8) (t.val % 8) p q := by
  have h0 : ¬t.val % 8 = 0 := by omega
  rw [outsAt2_C V c t h0 h1]
  unfold leaves2_C
  dsimp only
  exact (congrFun (out2_C_2_eq ..) _).trans (upd2_at V c t p q _)

-- After point n the accumulator holds the terms of blocks 0 … n % 8 of block row n / 8.
theorem acc2_at : ∀ (n : ℕ) (hn : n < cfg2.N) (p : Fin 1024) (q : Fin 128),
    ((outsAt2 V c n hn).2 (ix2 p q) : EReal) = ∑ k ∈ Finset.range (n % 8 + 1), blockTermN2 (adj2 V c) (asg2 V c) (n / 8) k p q := by
  intro n
  induction n with
  | zero =>
    intro hn p q
    refine (acc2_first V c ⟨0, hn⟩ p q rfl).trans ?_
    simp only [Nat.zero_div, Nat.zero_mod, Nat.zero_add, Finset.sum_range_one]
  | succ n ih =>
    intro hn p q
    by_cases h0 : (n + 1) % 8 = 0
    · refine (acc2_first V c ⟨n + 1, hn⟩ p q h0).trans ?_
      show blockTermN2 (adj2 V c) (asg2 V c) ((n + 1) / 8) 0 p q = _
      rw [h0, Finset.sum_range_one]
    · have e1 : (n + 1) / 8 = n / 8 := by omega
      have e2 : (n + 1) % 8 = n % 8 + 1 := by omega
      refine (acc2_next V c ⟨n + 1, hn⟩ p q h0).trans ?_
      show (outsAt2 V c n _).2 (ix2 p q) + blockTermN2 (adj2 V c) (asg2 V c) ((n + 1) / 8) ((n + 1) % 8) p q = _
      rw [ih (Nat.lt_of_succ_lt hn) p q, e1, e2, Finset.sum_range_succ _ (n % 8 + 1)]

theorem flushed2_eq (hf : (cfg2.win 2).flush t = true) :
    (dat2 V c).flushed 2 t = ((cfg2.win 2).blk t).view.read (Elt Ideal) (Cert.Spec.arr (Cert.Spec.asOf (adj2 V c) (asg2 V c))) := by
  have h7 : t.val % 8 = 7 := (flush2_2 t).mp hf
  have hN : t.val < 64 := lt_of_lt_of_eq t.isLt (show cfg2.N = 64 from N_2)
  have hi : t.val / 8 < 8 := by omega
  obtain ⟨-, -, -, -, e4, e5⟩ := idx2 t
  show (cfg2.win 2).cut (grid2.coords t) ((dat2 V c).after 2 t) = _
  rw [after2_2]
  funext y
  obtain ⟨p, q, rfl⟩ : ∃ (p : Fin 1024) (q : Fin 128), y = ix2 p q := ⟨y 0, y 1, eq_ix2 y⟩
  rw [View.read_apply]
  show ((outsAt2 V c t.val t.isLt).1 (ix2 p q) : EReal) = Cert.Spec.arr (Cert.Spec.asOf (adj2 V c) (asg2 V c)) (((cfg2.win 2).blk t).view.emb (ix2 p q))
  have hemb : ((cfg2.win 2).blk t).view.emb (ix2 p q) = (ix2 (blockIdx 8 1024 ⟨t.val / 8, hi⟩ p) q : SNF.Idx) := by
    funext a
    apply Fin.ext
    match a with
    | ⟨0, _⟩ => show win2_2.index t (0 : Fin 2) * 1024 + 1 * p.val = 1024 * (t.val / 8) + p.val; rw [e4]; omega
    | ⟨1, _⟩ => show win2_2.index t (1 : Fin 2) * 128 + 1 * q.val = q.val; rw [e5]; omega
  rw [hemb, Cert.Spec.arr_ix2]
  refine (out2_last V c t p q h7).trans ?_
  have e1 : (t.val - 1) / 8 = t.val / 8 := by omega
  have e2 : (t.val - 1) % 8 + 1 = 7 := by omega
  rw [acc2_at V c (t.val - 1) (pred_lt2 t) p q, e1, e2, h7, ← Finset.sum_range_succ _ 7]
  exact sum_blockTermN2 (adj2 V c) (asg2 V c) ⟨t.val / 8, hi⟩ p q

-- Row r lies in the block of the last point of block row r / 1024.
theorem cover2 (i : S8192x128.Idx) : ∃ t : Fin cfg2.N, (cfg2.win 2).flush t = true ∧ i ∈ ((cfg2.win 2).blk t).view.set := by
  have h0 : (i 0).val < 8192 := (i 0).isLt
  have h1 : (i 1).val < 128 := (i 1).isLt
  have hN : cfg2.N = 64 := N_2
  let t : Fin cfg2.N := ⟨8 * ((i 0).val / 1024) + 7, by omega⟩
  have ht : t.val = 8 * ((i 0).val / 1024) + 7 := rfl
  obtain ⟨-, -, -, -, e4, e5⟩ := idx2 t
  refine ⟨t, (flush2_2 t).mpr (by omega), ?_⟩
  show i ∈ ((View.whole main_v7).slice (win2_2.rect t)).set
  rw [View.set_slice_whole, Rect.mem_set_unit]
  intro a
  match a with
  | ⟨0, _⟩ => show win2_2.index t (0 : Fin 2) * 1024 ≤ (i 0).val ∧ (i 0).val < win2_2.index t (0 : Fin 2) * 1024 + 1024; rw [e4]; omega
  | ⟨1, _⟩ => show win2_2.index t (1 : Fin 2) * 128 ≤ (i 1).val ∧ (i 1).val < win2_2.index t (1 : Fin 2) * 128 + 128; rw [e5]; omega

theorem final2 :
    ((dat2 (F := Ideal) V c).arrAt 2 cfg2.N : Cert.Spec.SNF.Idx → EReal) = Cert.Spec.arr (Cert.Spec.asOf (V c main_arg1 : Cert.Spec.SNN.Idx → EReal) (V c main_v6_1 : Cert.Spec.SNF.Idx → EReal)) :=
  (dat2 V c).arrAt_eq_of_cover 2 (Cert.Spec.arr (Cert.Spec.asOf (adj2 V c) (asg2 V c))) (flushed2_eq V c) cover2

end Cert.KernelIdeal.Hand

end
-- ==== Proof.KI.LibMatmulTAt.lean ====
import Idealize.ShloMosaic.PureOps.Ideal.Laws
import Idealize.ShloMosaic.Lib.ValueIdx

namespace Cert.LibMatmulTAt

open Idealize ShloMosaic ValueIdx

variable {K M N : ℕ} (D : DotDims ⟨2, ![K, M]⟩ ⟨2, ![K, N]⟩ ⟨2, ![M, N]⟩)

theorem at_axis {s : Shape} (i : s.Idx) {p q : ℕ} (hp : p < s.rank) (hq : q < s.rank) (h : p = q) :
    (i ⟨p, hp⟩).val = (i ⟨q, hq⟩).val := by subst h; rfl

theorem lhs_col (hb : D.lhsBatch = []) (hn : D.lhsNonContracting = [1]) (i : (⟨2, ![M, N]⟩ : Shape).Idx) (q : D.contr.Idx) :
    (D.lhsIdx i q 1).val = (i 0).val := by
  unfold DotDims.lhsIdx
  rw [dif_neg (by rw [hb]; exact List.not_mem_nil), dif_pos (by rw [hn]; exact List.mem_singleton.mpr rfl)]
  simp only [Fin.val_cast]
  exact at_axis i _ _ (by simp [hb, hn])

theorem rhs_col (hb : D.rhsBatch = []) (hlb : D.lhsBatch = []) (hln : D.lhsNonContracting = [1]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact at_axis i _ _ (by simp [hn, hlb, hln])

theorem contr_rank (hc : D.lhsContracting = [0]) : D.contr.rank = 1 := by rw [D.rank_contr, hc]; rfl

theorem contr_size (hc : D.lhsContracting = [0]) : D.contr.size ⟨0, by rw [contr_rank D hc]; exact Nat.one_pos⟩ = K := by
  rw [D.size_contr 0 (by rw [hc]; exact Nat.one_pos)]
  simp [hc]

theorem matmulT_zero_at {φ₁ φ₂ : FTy} (hlc : D.lhsContracting = [0]) (hrc : D.rhsContracting = [0]) (hlb : D.lhsBatch = [])
    (hrb : D.rhsBatch = []) (hln : D.lhsNonContracting = [1]) (hrn : D.rhsNonContracting = [1])
    (prec : Option ContractPrecision) (A : FVec Ideal ⟨2, ![K, M]⟩ φ₁) (B : FVec Ideal ⟨2, ![K, N]⟩ φ₂) (a : Fin M) (b : Fin N) :
    FloatOps.matmul D prec A B (constant ⟨2, ![M, N]⟩ .f32 0x00000000#32) (ix2 a b) = ∑ c : Fin K, A (ix2 c a) * B (ix2 c b) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  refine congrArg₂ (fun x y => A x * B y) (funext fun x => Fin.ext ?_) (funext fun x => Fin.ext ?_)
  · match x with
    | ⟨0, _⟩ => exact (D.lhsIdx_val_of_single hlc _ _).trans hk
    | ⟨1, _⟩ => exact lhs_col D hlb hln _ _
  · match x with
    | ⟨0, _⟩ => exact (D.rhsIdx_val_of_single hrc _ _).trans hk
    | ⟨1, _⟩ => exact rhs_col D hrb hlb hln hrn _ _

end Cert.LibMatmulTAt
-- ==== Proof.KI.R3Value.lean ====
import proofs.«114212_j498216206442_1_alg».proof.Proof.KI.R3Dat
import proofs.«114212_j498216206442_1_alg».proof.Proof.KI.LibMatmulTAt
import proofs.«114212_j498216206442_1_alg».proof.Proof.Spec
import Idealize.ShloMosaic.Lib.Pipeline.Value
import Idealize.ShloMosaic.Lib.ValueIdx
import Idealize.ShloMosaic.Lib.Tactic

noncomputable section

namespace Cert.KernelIdeal.Hand

open Idealize ShloMosaic TcCoe ValueIdx
open Cert.KernelIdeal.Gen

section Pieces
variable {F : FTy → Type} [FloatOps F] (c : Dev nD) (i : grid3.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S128x128 .f32) (h4 : a4.IsWhole) (a5 : Memref sig .tc .vmem S128x128 .f32) (h5 : a5.IsWhole) (x0 x1 x2 : Vec F S2048x128 .f32) (xo3 xo4 : Vec F S128x128 .f32)

theorem hz3 : (![0, 0] : Fin 2 → Nat) = fun _ => 0 := funext fun a => by fin_cases a <;> rfl

theorem out3_B_3_eq (hc : ¬cond3_0 i) :
    out3_B_3 c i a1 h1 a2 h2 a3 h3 a4 h4 a5 h5 hc x0 x1 x2 xo3 xo4 = k3_pay4 x0 x1 xo3 := by
  unfold out3_B_3
  rw [View.read_writes_eq_canon _ _ _ (fun _ => cover3_B_3 ..)]
  unfold kernelRun3_B
  dsimp only
  sl_unfold_words
  rw [View.canon_unit_zero hz3]
  simp only [View.readAt_eq_ld, h1.read_unread, h2.read_unread, h4.read_unread, View.ld_unit_zero (S := S2048x128) hz3,
    View.ld_unit_zero (S := S128x128) hz3]

theorem out3_B_4_eq (hc : ¬cond3_0 i) :
    out3_B_4 c i a1 h1 a2 h2 a3 h3 a4 h4 a5 h5 hc x0 x1 x2 xo3 xo4 = k3_pay5 x0 x2 xo4 := by
  unfold out3_B_4
  rw [View.read_writes_eq_canon _ _ _ (fun _ => cover3_B_4 ..)]
  unfold kernelRun3_B
  dsimp only
  sl_unfold_words
  rw [View.canon_unit_zero hz3]
  simp only [View.readAt_eq_ld, h1.read_unread, h3.read_unread, h5.read_unread, View.ld_unit_zero (S := S2048x128) hz3,
    View.ld_unit_zero (S := S128x128) hz3]

theorem out3_A_3_eq (hc : cond3_0 i) :
    out3_A_3 c i a1 h1 a2 h2 a3 h3 a4 h4 a5 h5 hc x0 x1 x2 = k3_pay4 x0 x1 (k3_pay1 (F := F)) := by
  unfold out3_A_3
  rw [View.read_writes_eq_canon _ _ _ (fun _ => cover3_A_3 ..)]
  unfold kernelRun3_A
  dsimp only
  sl_unfold_words
  rw [View.canon_cons_unit_zero (S := S128x128) hz3, View.readCov_unit_zero (S := S128x128) _ hz3]
  simp only [View.readAt_eq_ld, h1.read_unread, h2.read_unread, View.ld_unit_zero (S := S2048x128) hz3]

theorem out3_A_4_eq (hc : cond3_0 i) :
    out3_A_4 c i a1 h1 a2 h2 a3 h3 a4 h4 a5 h5 hc x0 x1 x2 = k3_pay5 x0 x2 (k3_pay2 (F := F)) := by
  unfold out3_A_4
  rw [View.read_writes_eq_canon _ _ _ (fun _ => cover3_A_4 ..)]
  unfold kernelRun3_A
  dsimp only
  sl_unfold_words
  rw [View.canon_cons_unit_zero (S := S128x128) hz3, View.readCov_unit_zero (S := S128x128) _ hz3]
  simp only [View.readAt_eq_ld, h1.read_unread, h3.read_unread, View.ld_unit_zero (S := S2048x128) hz3]

end Pieces

theorem k3_pay4_at (x0 x1 : Vec Ideal S2048x128 .f32) (acc : Vec Ideal S128x128 .f32) (a b : Fin 128) :
    k3_pay4 (F := Ideal) x0 x1 acc (ix2 a b) = acc (ix2 a b) + ∑ j : Fin 2048, x0 (ix2 j a) * x1 (ix2 j b) := by
  unfold k3_pay4 k3_pay3
  refine (addf_apply _ _ _).trans ?_
  refine congrArg₂ (· + ·) (congrFun (shapeCast_self acc _) _) ?_
  refine (Cert.LibMatmulTAt.matmulT_zero_at dot_S2048x128_S2048x128_S128x128_0_0_1_1_n_n rfl rfl rfl rfl rfl rfl none _ _ a b).trans ?_
  refine Finset.sum_congr rfl fun j _ => ?_
  simp only [truncf_apply, shapeCast_self]

theorem k3_pay5_at (x0 x2 : Vec Ideal S2048x128 .f32) (acc : Vec Ideal S128x128 .f32) (a b : Fin 128) :
    k3_pay5 (F := Ideal) x0 x2 acc (ix2 a b) = acc (ix2 a b) + ∑ j : Fin 2048, x0 (ix2 j a) * x2 (ix2 j b) :=
  k3_pay4_at x0 x2 acc a b

theorem k3_pay1_at (a b : Fin 128) : k3_pay1 (F := Ideal) (ix2 a b) = 0 := by
  unfold k3_pay1
  exact Ideal.ofBits_zero_f32

theorem k3_pay2_at (a b : Fin 128) : k3_pay2 (F := Ideal) (ix2 a b) = 0 := k3_pay1_at a b

variable (V : (c : Dev nD) → (b : Ref sig .tc) → Buf (Elt Ideal) ((c : Thread nD τ).loc b)) (c : Dev nD)

abbrev sarr3 : Vec Ideal S8192x128 .f32 := V c main_v6_1
abbrev zarr3 : Vec Ideal S8192x128 .f32 := V c main_v6_0
abbrev aarr3 : Vec Ideal S8192x128 .f32 := V c main_v7
abbrev sblk3 (t : Fin cfg3.N) : Vec Ideal S2048x128 .f32 := iblk3 V c 0 t
abbrev zblk3 (t : Fin cfg3.N) : Vec Ideal S2048x128 .f32 := iblk3 V c 1 t
abbrev ablk3 (t : Fin cfg3.N) : Vec Ideal S2048x128 .f32 := iblk3 V c 2 t

abbrev row3 (k : Fin 4) (j : Fin 2048) : Fin 8192 := Cert.Spec.blockIdx 4 2048 k j

theorem idx3_in : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem idx3_out : ∀ t : Fin cfg3.N, win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (t : Fin cfg3.N) (ht : t.val < 4) (j : Fin 2048) (a b : Fin 128)

theorem sblk3_at : sblk3 V c t (ix2 j a) = sarr3 V c (ix2 (row3 ⟨t.val, ht⟩ j) a) := by
  obtain ⟨e0, e1, -, -, -, -⟩ := idx3_in t
  show V c main_v6_1 _ = V c main_v6_1 _
  refine congrArg _ (funext fun x => Fin.ext ?_)
  match x with
  | ⟨0, _⟩ => show win3_0.index t (0 : Fin 2) * 2048 + 1 * j.val = 2048 * t.val + j.val; rw [e0]; omega
  | ⟨1, _⟩ => show win3_0.index t (1 : Fin 2) * 128 + 1 * a.val = a.val; rw [e1]; omega

theorem zblk3_at : zblk3 V c t (ix2 j a) = zarr3 V c (ix2 (row3 ⟨t.val, ht⟩ j) a) := by
  obtain ⟨-, -, e0, e1, -, -⟩ := idx3_in t
  show V c main_v6_0 _ = V c main_v6_0 _
  refine congrArg _ (funext fun x => Fin.ext ?_)
  match x with
  | ⟨0, _⟩ => show win3_1.index t (0 : Fin 2) * 2048 + 1 * j.val = 2048 * t.val + j.val; rw [e0]; omega
  | ⟨1, _⟩ => show win3_1.index t (1 : Fin 2) * 128 + 1 * a.val = a.val; rw [e1]; omega

theorem ablk3_at : ablk3 V c t (ix2 j a) = aarr3 V c (ix2 (row3 ⟨t.val, ht⟩ j) a) := by
  obtain ⟨-, -, -, -, e0, e1⟩ := idx3_in t
  show V c main_v7 _ = V c main_v7 _
  refine congrArg _ (funext fun x => Fin.ext ?_)
  match x with
  | ⟨0, _⟩ => show win3_2.index t (0 : Fin 2) * 2048 + 1 * j.val = 2048 * t.val + j.val; rw [e0]; omega
  | ⟨1, _⟩ => show win3_2.index t (1 : Fin 2) * 128 + 1 * a.val = a.val; rw [e1]; omega

variable (S Z : Vec Ideal S8192x128 .f32)

def share3 (k : Fin 4) (a b : Fin 128) : EReal :=
  ∑ j : Fin 2048, S (ix2 (row3 k j) a) * Z (ix2 (row3 k j) b)

def upto3 (n : ℕ) (hn : n < 4) (a b : Fin 128) : EReal :=
  ∑ k : Fin (n + 1), share3 S Z ⟨k.val, lt_of_lt_of_le k.isLt hn⟩ a b

theorem upto3_zero (h : 0 < 4) : upto3 S Z 0 h a b = share3 S Z ⟨0, h⟩ a b := by
  unfold upto3; rw [Fin.sum_univ_one]; rfl

theorem upto3_succ (n : ℕ) (hn : n + 1 < 4) :
    upto3 S Z (n + 1) hn a b = upto3 S Z n (Nat.lt_of_succ_lt hn) a b + share3 S Z ⟨n + 1, hn⟩ a b := by
  unfold upto3; rw [Fin.sum_univ_castSucc]; rfl

theorem upto3_last (h : 3 < 4) : upto3 S Z 3 h a b = Cert.Spec.pool S Z a b :=
  Cert.Spec.sum_blocks 4 2048 (fun n : Fin (4 * 2048) => S (ix2 n a) * Z (ix2 n b))

theorem share3_sz :
    ∑ j : Fin 2048, sblk3 V c t (ix2 j a) * zblk3 V c t (ix2 j b) = share3 (sarr3 V c) (zarr3 V c) ⟨t.val, ht⟩ a b :=
  Finset.sum_congr rfl fun j _ => by rw [sblk3_at V c t ht j a, zblk3_at V c t ht j b]

theorem share3_sa :
    ∑ j : Fin 2048, sblk3 V c t (ix2 j a) * ablk3 V c t (ix2 j b) = share3 (sarr3 V c) (aarr3 V c) ⟨t.val, ht⟩ a b :=
  Finset.sum_congr rfl fun j _ => by rw [sblk3_at V c t ht j a, ablk3_at V c t ht j b]

theorem lt4_of_lt_N3 {n : ℕ} (h : n < cfg3.N) : n < 4 := lt_of_lt_of_eq h (show cfg3.N = 4 from N_3)

-- After point n the two accumulators hold the shares of row blocks 0 … n.
theorem acc3_eq : ∀ (n : ℕ) (h : n < cfg3.N) (a b : Fin 128),
    (outsAt3 V c n h).1 (ix2 a b) = 0 + upto3 (sarr3 V c) (zarr3 V c) n (lt4_of_lt_N3 h) a b
    ∧ (outsAt3 V c n h).2 (ix2 a b) = 0 + upto3 (sarr3 V c) (aarr3 V c) n (lt4_of_lt_N3 h) a b
  | 0, h, a, b => by
    rw [outsAt3_A V c ⟨0, h⟩ rfl]
    dsimp only
    constructor
    · refine ((congrFun (out3_A_3_eq ..) _).trans (k3_pay4_at _ _ _ a b)).trans ?_
      rw [k3_pay1_at, share3_sz V c ⟨0, h⟩ (lt4_of_lt_N3 h) a b, upto3_zero]
    · refine ((congrFun (out3_A_4_eq ..) _).trans (k3_pay5_at _ _ _ a b)).trans ?_
      rw [k3_pay2_at, share3_sa V c ⟨0, h⟩ (lt4_of_lt_N3 h) a b, upto3_zero]
  | n + 1, h, a, b => by
    have ih := acc3_eq n (Nat.lt_of_succ_lt h) a b
    rw [outsAt3_B V c ⟨n + 1, h⟩ (Nat.succ_ne_zero n)]
    dsimp only
    constructor
    · refine ((congrFun (out3_B_3_eq ..) _).trans (k3_pay4_at _ _ (outsAt3 V c n (Nat.lt_of_succ_lt h)).1 a b)).trans ?_
      rw [ih.1, share3_sz V c ⟨n + 1, h⟩ (lt4_of_lt_N3 h) a b, upto3_succ, add_assoc]
    · refine ((congrFun (out3_B_4_eq ..) _).trans (k3_pay5_at _ _ (outsAt3 V c n (Nat.lt_of_succ_lt h)).2 a b)).trans ?_
      rw [ih.2, share3_sa V c ⟨n + 1, h⟩ (lt4_of_lt_N3 h) a b, upto3_succ, add_assoc]

abbrev pooled3_3 : Buf (Elt Ideal) ((c : Thread nD τ).loc main_v8_0) :=
  Cert.Spec.arrFF (Cert.Spec.pool (sarr3 V c) (zarr3 V c))
abbrev pooled3_4 : Buf (Elt Ideal) ((c : Thread nD τ).loc main_v8_1) :=
  Cert.Spec.arrFF (Cert.Spec.pool (sarr3 V c) (aarr3 V c))

theorem last3_3 : (outsAt3 V c t3_3.val t3_3.isLt).1 = pooled3_3 V c := by
  funext y
  obtain ⟨a, b, rfl⟩ : ∃ (a b : Fin 128), y = ix2 a b := ⟨y 0, y 1, eq_ix2 y⟩
  refine ((acc3_eq V c 3 t3_3.isLt a b).1).trans ?_
  rw [zero_add, upto3_last]
  rfl

theorem last3_4 : (outsAt3 V c t3_3.val t3_3.isLt).2 = pooled3_4 V c := by
  funext y
  obtain ⟨a, b, rfl⟩ : ∃ (a b : Fin 128), y = ix2 a b := ⟨y 0, y 1, eq_ix2 y⟩
  refine ((acc3_eq V c 3 t3_3.isLt a b).2).trans ?_
  rw [zero_add, upto3_last]
  rfl

theorem flushed3_3_eq (hf : (cfg3.win 3).flush t = true) :
    (dat3 V c).flushed 3 t = ((cfg3.win 3).blk t).view.read (Elt Ideal) (pooled3_3 V c) := by
  have hN : cfg3.N = 4 := N_3
  have h3 : t.val = 3 := by have := (flush3_3 t).mp hf; have := t.isLt; omega
  obtain rfl : t = t3_3 := Fin.ext h3
  show (cfg3.win 3).cut (grid3.coords t3_3) ((dat3 V c).after 3 t3_3) = _
  rw [after3_3, last3_3]
  have hz' : (fun a => win3_3.index t3_3 a * main_v8_0.ty.shape.size a) = fun _ => 0 := funext fun a => by fin_cases a <;> decide
  exact (Memref.read_access_unit_zero (Elt Ideal) main_v8_0 hz' (fun a => by rw [congrFun hz' a]; simp) (pooled3_3 V c)).symm

theorem flushed3_4_eq (hf : (cfg3.win 4).flush t = true) :
    (dat3 V c).flushed 4 t = ((cfg3.win 4).blk t).view.read (Elt Ideal) (pooled3_4 V c) := by
  have hN : cfg3.N = 4 := N_3
  have h3 : t.val = 3 := by have := (flush3_4 t).mp hf; have := t.isLt; omega
  obtain rfl : t = t3_3 := Fin.ext h3
  show (cfg3.win 4).cut (grid3.coords t3_3) ((dat3 V c).after 4 t3_3) = _
  rw [after3_4, last3_4]
  have hz' : (fun a => win3_4.index t3_3 a * main_v8_1.ty.shape.size a) = fun _ => 0 := funext fun a => by fin_cases a <;> decide
  exact (Memref.read_access_unit_zero (Elt Ideal) main_v8_1 hz' (fun a => by rw [congrFun hz' a]; simp) (pooled3_4 V c)).symm

theorem whole3_3 (i : S128x128.Idx) : ∃ t : Fin cfg3.N, (cfg3.win 3).flush t = true ∧ i ∈ ((cfg3.win 3).blk t).view.set := by
  refine ⟨t3_3, (flush3_3 t3_3).mpr rfl, ?_⟩
  show i ∈ ((View.whole main_v8_0).slice (win3_3.rect t3_3)).set
  rw [View.set_slice_whole]
  exact View.mem_set_unit_zero (S := S128x128) (funext fun a => by fin_cases a <;> decide) _ i

theorem whole3_4 (i : S128x128.Idx) : ∃ t : Fin cfg3.N, (cfg3.win 4).flush t = true ∧ i ∈ ((cfg3.win 4).blk t).view.set := by
  refine ⟨t3_3, (flush3_4 t3_3).mpr rfl, ?_⟩
  show i ∈ ((View.whole main_v8_1).slice (win3_4.rect t3_3)).set
  rw [View.set_slice_whole]
  exact View.mem_set_unit_zero (S := S128x128) (funext fun a => by fin_cases a <;> decide) _ i

theorem final3_3 :
    ((dat3 (F := Ideal) V c).arrAt 3 cfg3.N : Cert.Spec.SFF.Idx → EReal) = Cert.Spec.arrFF (Cert.Spec.pool (V c main_v6_1 : Cert.Spec.SNF.Idx → EReal) (V c main_v6_0 : Cert.Spec.SNF.Idx → EReal)) :=
  (dat3 V c).arrAt_eq_of_cover 3 (pooled3_3 V c) (flushed3_3_eq V c) whole3_3

theorem final3_4 :
    ((dat3 (F := Ideal) V c).arrAt 4 cfg3.N : Cert.Spec.SFF.Idx → EReal) = Cert.Spec.arrFF (Cert.Spec.pool (V c main_v6_1 : Cert.Spec.SNF.Idx → EReal) (V c main_v7 : Cert.Spec.SNF.Idx → EReal)) :=
  (dat3 V c).arrAt_eq_of_cover 4 (pooled3_4 V c) (flushed3_4_eq V c) whole3_4

end Cert.KernelIdeal.Hand

end
-- ==== Proof.Algebra.lean ====
import proofs.«114212_j498216206442_1_alg».proof.Proof.Spec

namespace Cert.Algebra

open Idealize ShloMosaic ShloMosaic.ValueIdx Cert.Spec

variable (A : SNN.Idx → EReal) (X : SNF.Idx → EReal) (hA : ∀ i, ∃ r : ℝ, A i = (r : EReal))
  (hX : ∀ i, ∃ r : ℝ, X i = (r : EReal)) (p : Fin 8192)

theorem zeroW_eq : zeroW = 0 := Ideal.ofBits_zero_f32

theorem oneW_eq : oneW = 1 := by
  have h : Ideal.ofBits .f32 0x3F800000#32 = (((8388608 : ℝ) * (2 : ℝ) ^ (-23 : ℤ) : ℝ) : EReal) := by
    simp [Ideal.ofBits, Ideal.ieee, -EReal.coe_mul]
  rw [show oneW = Ideal.ofBits .f32 0x3F800000#32 from rfl, h]
  norm_num

theorem sum_eye : ∑ j : Fin 8192, eye p j = 1 := by
  simp only [eye, Finset.sum_ite_eq, Finset.mem_univ, if_true]

theorem degK_eq_degR : degK A p = degR A p := by
  unfold degK degR
  rw [zeroW_eq, oneW_eq, zero_add, Finset.sum_add_distrib, sum_eye]

theorem dinvK_eq_dinvR : dinvK A p = dinvR A p := by
  unfold dinvK dinvR
  rw [degK_eq_degR]

theorem coe_sum {ι : Type*} (s : Finset ι) (g : ι → ℝ) : ∑ j ∈ s, ((g j : ℝ) : EReal) = ((∑ j ∈ s, g j : ℝ) : EReal) := by
  classical
  refine Finset.induction_on s (by simp) fun a t ha ih => ?_
  rw [Finset.sum_insert ha, Finset.sum_insert ha, ih, EReal.coe_add]

theorem invSqrtOrZero_coe (d : ℝ) :
    invSqrtOrZero (d : EReal) = (((if 0 < d then (Real.sqrt d)⁻¹ else 0 : ℝ)) : EReal) := by
  unfold invSqrtOrZero Scalar.select Ideal.cmp
  rw [zeroW_eq]
  by_cases h : 0 < d
  · have h0 : ¬ d < 0 := not_lt.mpr h.le
    have h1 : d ≠ 0 := ne_of_gt h
    simp [h, h0, h1, EReal.coe_pos]
  · simp [h, EReal.coe_pos]

include hA in
theorem degK_real :
    ∃ r : ℝ, degK A p = (r : EReal) := by
  choose a ha using hA
  refine ⟨(∑ j : Fin 8192, a (ix2 p j)) + 1, ?_⟩
  unfold degK
  rw [oneW_eq, EReal.coe_add, ← coe_sum, EReal.coe_one]
  simp only [ha]

include hA in
theorem dinv_real :
    ∃ r : ℝ, dinvK A p = (r : EReal) := by
  obtain ⟨d, hd⟩ := degK_real A hA p
  exact ⟨_, by unfold dinvK; rw [hd, invSqrtOrZero_coe]⟩

theorem eye_coe (i j : Fin 8192) : eye i j = (((if i = j then 1 else 0 : ℝ)) : EReal) := by
  unfold eye; split_ifs <;> simp

theorem ax_real (a d x : Fin 8192 → ℝ) :
    d p * ((∑ j : Fin 8192, a j * (d j * x j)) + d p * x p)
      = ∑ j : Fin 8192, ((d p * (a j + (if p = j then 1 else 0))) * d j) * x j := by
  have hterm : ∀ j : Fin 8192, ((d p * (a j + (if p = j then (1 : ℝ) else 0))) * d j) * x j
      = d p * (a j * (d j * x j)) + (if p = j then d p * (d j * x j) else 0) := by
    intro j; split_ifs <;> ring
  simp only [hterm]
  rw [Finset.sum_add_distrib, ← Finset.mul_sum, Finset.sum_ite_eq]
  simp only [Finset.mem_univ, if_true]
  ring

include hA hX in
theorem ax_eq :
    axK A X = axR A X := by
  have hD := dinv_real A hA
  choose a ha using hA
  choose x hx using hX
  choose dr hdr using hD
  funext p f
  unfold axK axR
  simp only [← dinvK_eq_dinvR, hdr, ha, hx, eye_coe, ← EReal.coe_mul, ← EReal.coe_add, coe_sum]
  exact congrArg _ (ax_real p (fun j => a (ix2 p j)) dr (fun j => x (ix2 j f)))

end Cert.Algebra
-- ==== Proof.KI.Chain.lean ====
import proofs.«114212_j498216206442_1_alg».proof.Proof.KI.ChainA
import proofs.«114212_j498216206442_1_alg».proof.Proof.KI.R1Value
import proofs.«114212_j498216206442_1_alg».proof.Proof.KI.R2Value
import proofs.«114212_j498216206442_1_alg».proof.Proof.KI.R3Value
import proofs.«114212_j498216206442_1_alg».proof.Proof.Algebra

set_option maxRecDepth 16384

noncomputable section

namespace Cert.KernelIdeal.Chain

open Idealize ShloMosaic ShloMosaic.TcCoe ShloMosaic.ValueIdx SL.Sem
open Cert.KernelIdeal Cert.KernelIdeal.Gen Cert.KernelIdeal.Hand Cert.KernelIdeal.HostVal Cert.Spec

variable (m : (ℓ : Loc nD τ sig) → Buf (Elt Ideal) ℓ) (c : Dev nD)

abbrev sK : Fin 8192 → Fin 128 → EReal := sOf (axK (aA m c) (aX m c)) (aWa m c) (aba m c)
abbrev zK : Fin 8192 → Fin 128 → EReal := lin (axK (aA m c) (aX m c)) (aWe m c) (abe m c)

theorem b3_v6_0 : (T3 m c main_v6_0 : SNF.Idx → EReal) = arr (zK m c) := by
  refine (B3_v6_0 m c).trans ((final1_8 (T2 m) c).trans ?_)
  rw [ax_entry m c, linB_eq_lin _ _ (aWe m c) _ (abe m c) (b2_v2 m c) (b2_v4 m c)]

theorem b3_v6_1 : (T3 m c main_v6_1 : SNF.Idx → EReal) = arr (sK m c) := by
  refine (B3_v6_1 m c).trans ((final1_9 (T2 m) c).trans ?_)
  rw [ax_entry m c, linB_eq_lin _ _ (aWa m c) _ (aba m c) (b2_v3 m c) (b2_v5 m c)]
  rfl

theorem b3_arg1 : (T3 m c main_arg1 : SNN.Idx → EReal) = aA m c :=
  (B3_of m c main_arg1 (by decide) (by decide)).trans (b2_arg1 m c)

theorem b4_v7 : (T4 m c main_v7 : SNF.Idx → EReal) = arr (asOf (aA m c) (arr (sK m c))) := by
  refine (B4_v7 m c).trans ((final2 (T3 m) c).trans ?_)
  rw [b3_arg1 m c, b3_v6_1 m c]

theorem b4_v6_1 : (T4 m c main_v6_1 : SNF.Idx → EReal) = arr (sK m c) :=
  (B4_of m c main_v6_1 (by decide)).trans (b3_v6_1 m c)
theorem b4_v6_0 : (T4 m c main_v6_0 : SNF.Idx → EReal) = arr (zK m c) :=
  (B4_of m c main_v6_0 (by decide)).trans (b3_v6_0 m c)

theorem b5_v8_0 : (B5 m c main_v8_0 : SFF.Idx → EReal) = arrFF (pool (arr (sK m c)) (arr (zK m c))) := by
  refine (B5_v8_0 m c).trans ((final3_3 (T4 m) c).trans ?_)
  rw [b4_v6_1 m c, b4_v6_0 m c]

theorem b5_v8_1 : (B5 m c main_v8_1 : SFF.Idx → EReal) = arrFF (pool (arr (sK m c)) (arr (asOf (aA m c) (arr (sK m c))))) := by
  refine (B5_v8_1 m c).trans ((final3_4 (T4 m) c).trans ?_)
  rw [b4_v6_1 m c, b4_v7 m c]

theorem b5_v6_1 : (B5 m c main_v6_1 : SNF.Idx → EReal) = arr (sK m c) :=
  (B5_of m c main_v6_1 (by decide) (by decide)).trans (b4_v6_1 m c)

abbrev sR : Fin 8192 → Fin 128 → EReal := sOf (axR (aA m c) (aX m c)) (aWa m c) (aba m c)
abbrev outX : SFF.Idx → EReal := arrFF (pool (arr (sR m c)) (arr (lin (axR (aA m c) (aX m c)) (aWe m c) (abe m c))))
abbrev outA : SFF.Idx → EReal := arrFF (pool (arr (sR m c)) (arr (asOf (aA m c) (arr (sR m c)))))
abbrev outS : SNF.Idx → EReal := arr (sR m c)

theorem run_value (ρ : Dev nD → PrngReg) (hX : ∀ c i, ∃ r : ℝ, aX m c i = (r : EReal)) (hA : ∀ c i, ∃ r : ℝ, aA m c i = (r : EReal)) :
    θ_run defs (onTc (τ := τ) (main (F := Ideal))) ⟨m, fun _ => 0, ρ⟩ (fun r => ∀ c : Dev nD,
      r.2.mem ((c.tc : Thread nD τ).loc main_v8_0) = outX m c
      ∧ r.2.mem ((c.tc : Thread nD τ).loc main_v8_1) = outA m c
      ∧ r.2.mem ((c.tc : Thread nD τ).loc main_v6_1) = outS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    have e : axK (aA m c) (aX m c) = axR (aA m c) (aX m c) := Cert.Algebra.ax_eq _ _ (hA c) (hX c)
    refine ⟨(h c _ (mem_uc main_v8_0 (by decide))).trans ((b5_v8_0 m c).trans (by unfold sK zK; rw [e])),
      (h c _ (mem_uc main_v8_1 (by decide))).trans ((b5_v8_1 m c).trans (by unfold sK; rw [e])),
      (h c _ (mem_uc main_v6_1 (by decide))).trans ((b5_v6_1 m c).trans (by unfold sK; rw [e])), ?_, ?_, ?_, ?_, ?_, ?_⟩ <;>
    exact (h c _ (mem_uc _ (by decide))).trans
      (B5_keep m c _ (by decide) (by decide) (by decide) (by decide) (by decide) (by decide) (by decide)))
    (run_main m ρ)

end Cert.KernelIdeal.Chain

end
-- ==== Proof.RefAX.lean ====
import proofs.«114212_j498216206442_1_alg».proof.Proof.Gen.ReferenceIdeal.Read
import proofs.«114212_j498216206442_1_alg».proof.Proof.Spec
import Idealize.ShloMosaic.PureOps.Ideal.Laws
import Idealize.ShloMosaic.Lib.ValueIdx

namespace Cert.RefValue

open Cert.ReferenceIdeal Cert.ReferenceIdeal.Gen Cert.ReferenceIdeal.Read Idealize.ShloMosaic Idealize.ShloMosaic.ValueIdx
open Cert.Spec

variable (x0 : (⟨S8192x128, .f32⟩ : BufTy).Contents (Elt Ideal)) (x1 : (⟨S8192x8192, .f32⟩ : BufTy).Contents (Elt Ideal))

theorem word_eq_iff (p j : Fin 8192) : (BitVec.ofNat 32 p.val == BitVec.ofNat 32 j.val) = decide (p = j) := by
  have hp := p.isLt
  have hj := j.isLt
  by_cases h : p = j
  · subst h; simp
  · have hne : BitVec.ofNat 32 p.val ≠ BitVec.ofNat 32 j.val := by
      intro e
      have e' := congrArg BitVec.toNat e
      simp only [BitVec.toNat_ofNat] at e'
      exact h (Fin.ext (by omega))
    simp [h, hne]

theorem eye_at (p j : Fin 8192) : val_main_v5 (F := Ideal) (ix2 p j) = eye p j := by
  rw [val_main_v5_apply, val_main_v4_apply, val_main_v3_apply, val_main_v0_apply, val_main_v1_apply, val_main_v2_apply,
    val_main_c_apply]
  show (((IntOp.cmpi .eq (IntOp.addi (BitVec.ofNat 32 p.val) 0#32) (BitVec.ofNat 32 j.val)).toNat : ℝ) : EReal) = eye p j
  simp only [IntOp.cmpi, IntOp.addi, BitVec.add_zero, word_eq_iff, eye]
  by_cases h : p = j <;> simp [h]

theorem ahat_at (p j : Fin 8192) :
    val_main_v6 (F := Ideal) x1 (ix2 p j) = x1 (ix2 p j) + eye p j := by
  rw [val_main_v6_apply, eye_at]; rfl

theorem idx7_ix (p k : Fin 8192) : idx_main_v7 (ix1 p) k = ix2 p k :=
  eq_ix2 _

theorem deg_at (p : Fin 8192) :
    val_main_v7 (F := Ideal) x1 (ix1 p) = degR x1 p := by
  rw [val_main_v7_apply, val_main_cst_apply]
  simp only [idx7_ix, ahat_at]
  rfl

theorem dinv_at (p : Fin 8192) :
    val_main_v11 (F := Ideal) x1 (ix1 p) = dinvR x1 p := by
  rw [val_main_v11_apply, val_main_v9_apply, val_main_v10_apply, val_main_call0_v1_apply, val_main_call0_v0_apply,
    val_main_cst_1_apply, val_main_v8_apply, val_main_cst_0_apply, deg_at]
  rfl

theorem idx13_ix (p j : Fin 8192) : idx_main_v12 (idx_main_v13 (ix2 p j)) = ix1 p :=
  eq_ix1 _

theorem idx16_ix (p j : Fin 8192) : idx_main_v15 (idx_main_v16 (ix2 p j)) = ix1 j :=
  eq_ix1 _

theorem anorm_at (p j : Fin 8192) :
    val_main_v17 (F := Ideal) x1 (ix2 p j) = (dinvR x1 p * (x1 (ix2 p j) + eye p j)) * dinvR x1 j := by
  rw [val_main_v17_apply, val_main_v14_apply, val_main_v13_apply, val_main_v12_apply, val_main_v16_apply,
    val_main_v15_apply, ahat_at, idx13_ix, idx16_ix, dinv_at, dinv_at]
  rfl

theorem lidx18_ix (p : Fin 8192) (f : Fin 128) (k : Fin 8192) : lidx_main_v18 (ix2 p f) k = ix2 p k :=
  eq_ix2 _

theorem ridx18_ix (p : Fin 8192) (f : Fin 128) (k : Fin 8192) : ridx_main_v18 (ix2 p f) k = ix2 k f :=
  eq_ix2 _

theorem ax_eq :
    val_main_v18 (F := Ideal) x0 x1 = arr (axR x1 x0) := by
  funext i
  obtain ⟨p, f, rfl⟩ : ∃ (p : Fin 8192) (f : Fin 128), i = ix2 p f := ⟨i 0, i 1, eq_ix2 i⟩
  rw [val_main_v18_apply]
  simp only [lidx18_ix, ridx18_ix, anorm_at]
  rfl

end Cert.RefValue
-- ==== Proof.RefSoftmax.lean ====
import proofs.«114212_j498216206442_1_alg».proof.Proof.RefAX
import Idealize.ShloMosaic.PureOps.Reduce

namespace Cert.RefValue

open Cert.ReferenceIdeal Cert.ReferenceIdeal.Gen Cert.ReferenceIdeal.Read Idealize.ShloMosaic Idealize.ShloMosaic.ValueIdx
open Cert.Spec

variable (x0 : (⟨S8192x128, .f32⟩ : BufTy).Contents (Elt Ideal)) (x1 : (⟨S8192x8192, .f32⟩ : BufTy).Contents (Elt Ideal)) (x2 x4 : (⟨S128x128, .f32⟩ : BufTy).Contents (Elt Ideal)) (x3 x5 : (⟨S128, .f32⟩ : BufTy).Contents (Elt Ideal))

theorem lidx20_ix (p : Fin 8192) (q k : Fin 128) : lidx_main_v20 (ix2 p q) k = ix2 p k :=
  eq_ix2 _

theorem idx19_ix (p : Fin 8192) (q k : Fin 128) : idx_main_v19 (ridx_main_v20 (ix2 p q) k) = ix2 q k :=
  eq_ix2 _

theorem idx22_ix (p : Fin 8192) (q : Fin 128) : idx_main_v21 (idx_main_v22 (ix2 p q)) = ix1 q :=
  eq_ix1 _

theorem z_eq :
    val_main_v23 (F := Ideal) x0 x1 x2 x3 = arr (lin (axR x1 x0) x2 x3) := by
  funext i
  obtain ⟨p, q, rfl⟩ : ∃ (p : Fin 8192) (q : Fin 128), i = ix2 p q := ⟨i 0, i 1, eq_ix2 i⟩
  rw [val_main_v23_apply, val_main_v20_apply, val_main_v22_apply, val_main_v21_apply, idx22_ix, ax_eq]
  simp only [val_main_v19_apply, lidx20_ix, idx19_ix, arr_ix2]
  rfl

theorem logits_eq : val_main_v28 (F := Ideal) x0 x1 x4 x5 = arr (lin (axR x1 x0) x4 x5) := z_eq x0 x1 x4 x5

theorem lift_row (h : S8192x128.Reduces [1] S8192) (p : Fin 8192) (k : Fin (S8192x128.size 1)) :
    h.lift (ix1 p) k = ix2 p (⟨k.val, k.isLt⟩ : Fin 128) := eq_ix2 _

theorem rowmax_at (p : Fin 8192) :
    val_main_v31 (F := Ideal) x0 x1 x4 x5 (ix1 p) = rowMax (lin (axR x1 x0) x4 x5 p) := by
  have h : S8192x128.Reduces [1] S8192 := by decide
  rw [val_main_v31_apply, val_main_v30_apply, val_main_cst_3_apply]
  unfold val_main_v29
  rw [logits_eq, Host.reduce_eq_fold_single FloatOps.maximumf _ _ reducesTo_S8192x128_S8192_d1 h h_S_, val_main_cst_2_apply]
  have hf : (arr (lin (axR x1 x0) x4 x5) ∘ h.lift (ix1 p)) = fun k : Fin 128 => lin (axR x1 x0) x4 x5 p k :=
    funext fun k => (congrArg (arr (lin (axR x1 x0) x4 x5)) (lift_row h p k)).trans (arr_ix2 _ _ _)
  exact congrArg (fun f => max negInfW (Finset.fold max negInfW f (Finset.univ : Finset (Fin 128)))) hf

theorem idx33_ix (p : Fin 8192) (q : Fin 128) : idx_main_v32 (idx_main_v33 (ix2 p q)) = ix1 p :=
  eq_ix1 _

theorem idx38_ix (p : Fin 8192) (q : Fin 128) : idx_main_v37 (idx_main_v38 (ix2 p q)) = ix1 p :=
  eq_ix1 _

theorem idx36_ix (p : Fin 8192) (k : Fin 128) : idx_main_v36 (ix1 p) k = ix2 p k :=
  eq_ix2 _

theorem expo_at (p : Fin 8192) (q : Fin 128) :
    val_main_v35 (F := Ideal) x0 x1 x4 x5 (ix2 p q)
      = Ideal.exp (lin (axR x1 x0) x4 x5 p q - rowMax (lin (axR x1 x0) x4 x5 p)) := by
  rw [val_main_v35_apply, val_main_v34_apply, val_main_v33_apply, val_main_v32_apply, idx33_ix, rowmax_at, logits_eq]
  rfl

theorem s_eq :
    val_main_v39 (F := Ideal) x0 x1 x4 x5 = arr (sOf (axR x1 x0) x4 x5) := by
  funext i
  obtain ⟨p, q, rfl⟩ : ∃ (p : Fin 8192) (q : Fin 128), i = ix2 p q := ⟨i 0, i 1, eq_ix2 i⟩
  rw [val_main_v39_apply, val_main_v38_apply, val_main_v37_apply, idx38_ix, val_main_v36_apply, val_main_cst_4_apply]
  simp only [idx36_ix, expo_at]
  show Ideal.div _ (Ideal.ofBits .f32 0x00000000#32 + _) = _
  rw [Ideal.ofBits_zero_f32, zero_add]
  rfl

end Cert.RefValue
-- ==== Proof.Ref.lean ====
import proofs.«114212_j498216206442_1_alg».proof.Proof.RefSoftmax

namespace Cert.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Spec

variable (x0 : (⟨S8192x128, .f32⟩ : BufTy).Contents (Elt Ideal)) (x1 : (⟨S8192x8192, .f32⟩ : BufTy).Contents (Elt Ideal)) (x2 x4 : (⟨S128x128, .f32⟩ : BufTy).Contents (Elt Ideal)) (x3 x5 : (⟨S128, .f32⟩ : BufTy).Contents (Elt Ideal))

theorem lidx41_ix (a b : Fin 128) (k : Fin 8192) : idx_main_v40 (lidx_main_v41 (ix2 a b) k) = ix2 k a :=
  eq_ix2 _

theorem ridx41_ix (a b : Fin 128) (k : Fin 8192) : ridx_main_v41 (ix2 a b) k = ix2 k b :=
  eq_ix2 _

theorem xnext_eq :
    val_main_v41 (F := Ideal) x0 x1 x2 x3 x4 x5
      = arrFF (pool (arr (sOf (axR x1 x0) x4 x5)) (arr (lin (axR x1 x0) x2 x3))) := by
  funext i
  obtain ⟨a, b, rfl⟩ : ∃ (a : Fin 128) (b : Fin 128), i = ix2 a b := ⟨i 0, i 1, eq_ix2 i⟩
  rw [val_main_v41_apply, z_eq]
  simp only [val_main_v40_apply, lidx41_ix, ridx41_ix]
  rw [s_eq]
  rfl

theorem lidx43_ix (n : Fin 8192) (b : Fin 128) (j : Fin 8192) : lidx_main_v43 (ix2 n b) j = ix2 n j :=
  eq_ix2 _

theorem ridx43_ix (n : Fin 8192) (b : Fin 128) (j : Fin 8192) : ridx_main_v43 (ix2 n b) j = ix2 j b :=
  eq_ix2 _

theorem as_eq :
    val_main_v43 (F := Ideal) x0 x1 x4 x5 = arr (asOf x1 (arr (sOf (axR x1 x0) x4 x5))) := by
  funext i
  obtain ⟨n, b, rfl⟩ : ∃ (n : Fin 8192) (b : Fin 128), i = ix2 n b := ⟨i 0, i 1, eq_ix2 i⟩
  rw [val_main_v43_apply, s_eq]
  simp only [lidx43_ix, ridx43_ix]
  rfl

theorem lidx44_ix (a b : Fin 128) (k : Fin 8192) : idx_main_v42 (lidx_main_v44 (ix2 a b) k) = ix2 k a :=
  eq_ix2 _

theorem ridx44_ix (a b : Fin 128) (k : Fin 8192) : ridx_main_v44 (ix2 a b) k = ix2 k b :=
  eq_ix2 _

theorem anext_eq :
    val_main_v44 (F := Ideal) x0 x1 x4 x5
      = arrFF (pool (arr (sOf (axR x1 x0) x4 x5)) (arr (asOf x1 (arr (sOf (axR x1 x0) x4 x5))))) := by
  funext i
  obtain ⟨a, b, rfl⟩ : ∃ (a : Fin 128) (b : Fin 128), i = ix2 a b := ⟨i 0, i 1, eq_ix2 i⟩
  rw [val_main_v44_apply, as_eq]
  simp only [val_main_v42_apply, lidx44_ix, ridx44_ix]
  rw [s_eq]
  rfl

variable (m : (ℓ : Loc nD τ sig) → Buf (Elt Ideal) ℓ) (c : Dev nD)

abbrev aX : SNF.Idx → EReal := m ((c.tc : Thread nD τ).loc main_arg0)

abbrev aA : SNN.Idx → EReal := m ((c.tc : Thread nD τ).loc main_arg1)

abbrev aWe : SFF.Idx → EReal := m ((c.tc : Thread nD τ).loc main_arg2)
abbrev abe : SF.Idx → EReal := m ((c.tc : Thread nD τ).loc main_arg3)

abbrev aWa : SFF.Idx → EReal := m ((c.tc : Thread nD τ).loc main_arg4)
abbrev aba : SF.Idx → EReal := m ((c.tc : Thread nD τ).loc main_arg5)

theorem ref_s : (Cert.ReferenceIdeal.Value.res_main_v39 (F := Ideal) m c : SNF.Idx → EReal)
    = arr (sOf (axR (aA m c) (aX m c)) (aWa m c) (aba m c)) :=
  (val_main_v39_eq (F := Ideal) m c).trans (s_eq _ _ _ _)

theorem ref_xnext : (Cert.ReferenceIdeal.Value.res_main_v41 (F := Ideal) m c : SFF.Idx → EReal)
    = arrFF (pool (arr (sOf (axR (aA m c) (aX m c)) (aWa m c) (aba m c)))
        (arr (lin (axR (aA m c) (aX m c)) (aWe m c) (abe m c)))) :=
  (val_main_v41_eq (F := Ideal) m c).trans (xnext_eq _ _ _ _ _ _)

theorem ref_anext : (Cert.ReferenceIdeal.Value.res_main_v44 (F := Ideal) m c : SFF.Idx → EReal)
    = arrFF (pool (arr (sOf (axR (aA m c) (aX m c)) (aWa m c) (aba m c)))
        (arr (asOf (aA m c) (arr (sOf (axR (aA m c) (aX m c)) (aWa m c) (aba m c)))))) :=
  (val_main_v44_eq (F := Ideal) m c).trans (anext_eq _ _ _ _)

end Cert.RefValue
-- ==== Proof.Finite.lean ====
import proofs.«114212_j498216206442_1_alg».proof.Defs
import proofs.«114212_j498216206442_1_alg».proof.Proof.Gen.Pre_finite_inputs
import Idealize.ShloMosaic.Lib.ReduceAll
import Idealize.ShloMosaic.Lib.ValueIdx
import Idealize.ShloMosaic.PureOps.Ideal.Laws

namespace Cert.Finite

open Idealize ShloMosaic ShloMosaic.ValueIdx Cert.Pre_finite_inputs
open Cert.KernelIdeal (nD τ sig main_arg0 main_arg1)

instance : Subsingleton S_.Idx := ⟨fun a b => funext fun d => d.elim0⟩

theorem infW_eq : Ideal.ofBits .f32 0x7F800000#32 = ⊤ := by simp [Ideal.ofBits, Ideal.ieee]

theorem real_of_abs_lt_inf (x : EReal) (h : Ideal.cmp .olt (max x (-x)) (Ideal.ofBits .f32 0x7F800000#32) = 1#1) :
    ∃ r : ℝ, x = (r : EReal) := by
  rw [infW_eq] at h
  induction x using EReal.rec with
  | bot => simp [Ideal.cmp] at h
  | coe r => exact ⟨r, rfl⟩
  | top => simp [Ideal.cmp] at h

theorem finite_of_pre [hP : Facts]
    (x0 : FVec Ideal S8192x128 .f32) (x1 : FVec Ideal S8192x8192 .f32)
    (x2 : FVec Ideal S128x128 .f32) (x3 : FVec Ideal S128 .f32)
    (x4 : FVec Ideal S128x128 .f32) (x5 : FVec Ideal S128 .f32)
    (h : fn (F := Ideal) x0 x1 x2 x3 x4 x5 = fun _ => 1#1) :
    (∀ i, ∃ r : ℝ, x0 i = (r : EReal)) ∧ (∀ i, ∃ r : ℝ, x1 i = (r : EReal)) := by
  have h0 := congrFun h ix0
  dsimp only [fn, fn_part1, andi] at h0
  obtain ⟨h5, -⟩ := IntOp.andi_eq_one.1 h0
  obtain ⟨h4, -⟩ := IntOp.andi_eq_one.1 h5
  obtain ⟨h3, -⟩ := IntOp.andi_eq_one.1 h4
  obtain ⟨h2, -⟩ := IntOp.andi_eq_one.1 h3
  obtain ⟨hX, hA⟩ := IntOp.andi_eq_one.1 h2
  exact ⟨fun i => real_of_abs_lt_inf (x0 i) (Host.reduce_andi_all _ _ _ _ _ hX i),
    fun i => real_of_abs_lt_inf (x1 i) (Host.reduce_andi_all _ _ _ _ _ hA i)⟩

theorem finite_of_Pre [hP : Facts]
    (m : (ℓ : Loc nD τ sig) → Buf (Elt Ideal) ℓ)
    (hm : Cert.Pre_KernelIdeal m) (c : Dev nD) :
    (∀ i, ∃ r : ℝ, (m ((c.tc : Thread nD τ).loc main_arg0) :
        FVec Ideal S8192x128 .f32) i = (r : EReal))
    ∧ (∀ i, ∃ r : ℝ, (m ((c.tc : Thread nD τ).loc main_arg1) :
        FVec Ideal S8192x8192 .f32) i = (r : EReal)) :=
  finite_of_pre _ _ _ _ _ _ (hm c)

end Cert.Finite
-- ==== Proof.lean ====
import proofs.«114212_j498216206442_1_alg».proof.Defs
import proofs.«114212_j498216206442_1_alg».proof.Proof.Gen.Kernel
import proofs.«114212_j498216206442_1_alg».proof.Proof.Gen.KernelIdeal
import proofs.«114212_j498216206442_1_alg».proof.Proof.Gen.ReferenceIdeal
import proofs.«114212_j498216206442_1_alg».proof.Proof.Gen.ReferenceIdeal.Run
import proofs.«114212_j498216206442_1_alg».proof.Proof.Gen.ReferenceIdeal.Read
import proofs.«114212_j498216206442_1_alg».proof.Proof.Gen.Pre_finite_inputs
import proofs.«114212_j498216206442_1_alg».proof.Proof.K.Launch
import proofs.«114212_j498216206442_1_alg».proof.Proof.KI.Launch
import proofs.«114212_j498216206442_1_alg».proof.Proof.KI.Chain
import proofs.«114212_j498216206442_1_alg».proof.Proof.Ref
import proofs.«114212_j498216206442_1_alg».proof.Proof.Finite
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

-- Both sides are one function of the six inputs; the two arrangements of the propagated features agree by distributivity, which needs A and X finite.
theorem algebraic : Cert.algebraic_KernelIdeal_ReferenceIdeal := by
  intro m ρ m' ρ' hpre hagree
  have hfin := fun c => Cert.Finite.finite_of_Pre m hpre c
  refine ⟨fun c => Cert.KernelIdeal.Chain.outX m c, fun c => Cert.KernelIdeal.Chain.outA m c, fun c => Cert.KernelIdeal.Chain.outS m c,
    Cert.KernelIdeal.Chain.run_value m ρ (fun c => (hfin c).1) (fun c => (hfin c).2), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · refine (Cert.RefValue.ref_xnext m' c).trans ?_
    unfold Cert.RefValue.aA Cert.RefValue.aX Cert.RefValue.aWe Cert.RefValue.abe Cert.RefValue.aWa Cert.RefValue.aba
    rw [(hagree c).1, (hagree c).2.1, (hagree c).2.2.1, (hagree c).2.2.2.1, (hagree c).2.2.2.2.1, (hagree c).2.2.2.2.2]
  · refine (Cert.RefValue.ref_anext m' c).trans ?_
    unfold Cert.RefValue.aA Cert.RefValue.aX Cert.RefValue.aWa Cert.RefValue.aba
    rw [(hagree c).1, (hagree c).2.1, (hagree c).2.2.2.2.1, (hagree c).2.2.2.2.2]
  · refine (Cert.RefValue.ref_s m' c).trans ?_
    unfold Cert.RefValue.aA Cert.RefValue.aX Cert.RefValue.aWa Cert.RefValue.aba
    rw [(hagree c).1, (hagree c).2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
